-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S256 : Shape := ⟨1, ![256]⟩
abbrev S256x512 : Shape := ⟨2, ![256, 512]⟩
abbrev S512 : Shape := ⟨1, ![512]⟩
abbrev S512x512 : Shape := ⟨2, ![512, 512]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S2x320000 : S_.BroadcastsInDim S2x320000 (![] : Fin 0 → Fin S2x320000.rank)
  reducesTo_S2x320000_S_d0_1 : S2x320000.ReducesTo [0, 1] S_

variable [Facts]

def fn_part4 {F : FTy → Type} [FloatOps F] (main_arg1 : IVec S2x320000 32) (main_v67 : IVec S_ 1) : IVec S_ 1 :=
  let main_c_26 : IVec S_ 32 := constantI S_ 32 10000#32
  let main_v68 : IVec S2x320000 32 := broadcastInDim S2x320000 ![] bcast_S_S2x320000 main_c_26
  let main_v69 : IVec S2x320000 1 := cmpi .slt main_arg1 main_v68
  let main_c_27 : IVec S_ 1 := constantI S_ 1 1#1
  let main_v70 : IVec S_ 1 := (fun x v => Host.reduce IntOp.andi x v reducesTo_S2x320000_S_d0_1 h_S_) main_v69 main_c_27
  let main_v71 : IVec S_ 1 := andi main_v67 main_v70
  main_v71

def fn_part3 {F : FTy → Type} [FloatOps F] (main_arg1 : IVec S2x320000 32) (main_arg12 : FVec F S256x512 .f32) (main_arg13 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S256x512 .f32 := Host.absf main_arg12
  let main_cst_20 : FVec F S_ .f32 := constant S_ .f32 0x7F800000#32
  let main_v55 : FVec F S256x512 .f32 := broadcastInDim S256x512 ![] bcast_S_S256x512 main_cst_20
  let main_v56 : IVec S256x512 1 := cmpf .olt main_v54 main_v55
  let main_c_21 : IVec S_ 1 := constantI S_ 1 1#1
  let main_v57 : IVec S_ 1 := (fun x v => Host.reduce IntOp.andi x v reducesTo_S256x512_S_d0_1 h_S_) main_v56 main_c_21
  let main_v58 : IVec S_ 1 := andi main_v53 main_v57
  let main_v59 : FVec F S512 .f32 := Host.absf main_arg13
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_c_24 : IVec S_ 32 := constantI S_ 32 0#32
  let main_v64 : IVec S2x320000 32 := broadcastInDim S2x320000 ![] bcast_S_S2x320000 main_c_24
  let main_v65 : IVec S2x320000 1 := cmpi .sge main_arg1 main_v64
  let main_c_25 : IVec S_ 1 := constantI S_ 1 1#1
  let main_v66 : IVec S_ 1 := (fun x v => Host.reduce IntOp.andi x v reducesTo_S2x320000_S_d0_1 h_S_) main_v65 main_c_25
  let main_v67 : IVec S_ 1 := andi main_v63 main_v66
  fn_part4 (F := F) main_arg1 main_v67

def fn_part2 {F : FTy → Type} [FloatOps F] (main_arg1 : IVec S2x320000 32) (main_arg8 : FVec F S512 .f32) (main_arg9 : FVec F S512x512 .f32) (main_arg10 : FVec F S512x512 .f32) (main_arg11 : FVec F S512 .f32) (main_arg12 : FVec F S256x512 .f32) (main_arg13 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg9
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512x512 .f32 := Host.absf main_arg10
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_arg1 main_arg12 main_arg13 main_v48 main_v49 main_v50

def fn_part1 {F : FTy → Type} [FloatOps F] (main_arg1 : IVec S2x320000 32) (main_arg5 : FVec F S256x512 .f32) (main_arg6 : FVec F S512 .f32) (main_arg7 : FVec F S512 .f32) (main_arg8 : FVec F S512 .f32) (main_arg9 : FVec F S512x512 .f32) (main_arg10 : FVec F S512x512 .f32) (main_arg11 : FVec F S512 .f32) (main_arg12 : FVec F S256x512 .f32) (main_arg13 : FVec F S512 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256x512 .f32 := Host.absf main_arg5
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S10000x256 .f32) (main_arg1 : IVec S2x320000 32) (main_arg2 : FVec F S256 .f32) (main_arg3 : FVec F S256 .f32) (main_arg4 : FVec F S256x512 .f32) (main_arg5 : FVec F S256x512 .f32) (main_arg6 : FVec F S512 .f32) (main_arg7 : FVec F S512 .f32) (main_arg8 : FVec F S512 .f32) (main_arg9 : FVec F S512x512 .f32) (main_arg10 : FVec F S512x512 .f32) (main_arg11 : FVec F S512 .f32) (main_arg12 : FVec F S256x512 .f32) (main_arg13 : FVec F S512 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x512 .f32 := Host.absf main_arg4
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg1 main_arg5 main_arg6 main_arg7 main_arg8 main_arg9 main_arg10 main_arg11 main_arg12 main_arg13 main_v13 main_v16
-- ==== Kernel.lean ====
abbrev S10000x256 : Shape := ⟨2, ![10000, 256]⟩
abbrev S2x320000 : Shape := ⟨2, ![2, 320000]⟩
abbrev S256 : Shape := ⟨1, ![256]⟩
abbrev S256x512 : Shape := ⟨2, ![256, 512]⟩
abbrev S512 : Shape := ⟨1, ![512]⟩
abbrev S512x512 : Shape := ⟨2, ![512, 512]⟩
abbrev S1x320000 : Shape := ⟨2, ![1, 320000]⟩
abbrev S320000 : Shape := ⟨1, ![320000]⟩
abbrev S_ : Shape := ⟨0, ![]⟩
abbrev S10000 : Shape := ⟨1, ![10000]⟩
abbrev S320000x1 : Shape := ⟨2, ![320000, 1]⟩
abbrev S10000x10000 : Shape := ⟨2, ![10000, 10000]⟩
abbrev S320000x2 : Shape := ⟨2, ![320000, 2]⟩
abbrev S10240x10240 : Shape := ⟨2, ![10240, 10240]⟩
abbrev S10240 : Shape := ⟨1, ![10240]⟩
abbrev S10240x1 : Shape := ⟨2, ![10240, 1]⟩
abbrev S10240x256 : Shape := ⟨2, ![10240, 256]⟩
abbrev S1x256 : Shape := ⟨2, ![1, 256]⟩
abbrev S1x512 : Shape := ⟨2, ![1, 512]⟩
abbrev S1024x256 : Shape := ⟨2, ![1024, 256]⟩
abbrev S10240x512 : Shape := ⟨2, ![10240, 512]⟩
abbrev S1024x2048 : Shape := ⟨2, ![1024, 2048]⟩
abbrev S1024x1 : Shape := ⟨2, ![1024, 1]⟩
abbrev S1024x512 : Shape := ⟨2, ![1024, 512]⟩
abbrev S2048x256 : Shape := ⟨2, ![2048, 256]⟩
abbrev S10000x512 : Shape := ⟨2, ![10000, 512]⟩
abbrev S2048x512 : Shape := ⟨2, ![2048, 512]⟩

abbrev nBuf : Space → Nat
  | .hbm => 141
  | .vmem => 42
  | .smem => 0
  | _ => 0

abbrev hbmTy0_0 (i : Nat) : BufTy := match i % 128 with
  | 0 => ⟨S10000x256, .f32⟩
  | 1 => ⟨S2x320000, .i32⟩
  | 2 => ⟨S256, .f32⟩
  | 3 => ⟨S256, .f32⟩
  | 4 => ⟨S256x512, .f32⟩
  | 5 => ⟨S256x512, .f32⟩
  | 6 => ⟨S512, .f32⟩
  | 7 => ⟨S512, .f32⟩
  | 8 => ⟨S512, .f32⟩
  | 9 => ⟨S512x512, .f32⟩
  | 10 => ⟨S512x512, .f32⟩
  | 11 => ⟨S512, .f32⟩
  | 12 => ⟨S256x512, .f32⟩
  | 13 => ⟨S512, .f32⟩
  | 14 => ⟨S1x320000, .i32⟩
  | 15 => ⟨S320000, .i32⟩
  | 16 => ⟨S1x320000, .i32⟩
  | 17 => ⟨S320000, .i32⟩
  | 18 => ⟨S_, .f32⟩
  | 19 => ⟨S320000, .f32⟩
  | 20 => ⟨S_, .f32⟩
  | 21 => ⟨S10000, .f32⟩
  | 22 => ⟨S320000x1, .i32⟩
  | 23 => ⟨S10000, .f32⟩
  | 24 => ⟨S_, .f32⟩
  | 25 => ⟨S10000x10000, .f32⟩
  | 26 => ⟨S_, .i32⟩
  | 27 => ⟨S320000, .i32⟩
  | 28 => ⟨S320000, .i1⟩
  | 29 => ⟨S_, .i32⟩
  | 30 => ⟨S320000, .i32⟩
  | 31 => ⟨S320000, .i32⟩
  | 32 => ⟨S320000, .i32⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S320000x1, .i32⟩
  | 42 => ⟨S320000x2, .i32⟩
  | 43 => ⟨S_, .f32⟩
  | 44 => ⟨S320000, .f32⟩
  | 45 => ⟨S10000x10000, .f32⟩
  | 46 => ⟨S10000x10000, .bf16⟩
  | 47 => ⟨S_, .f32⟩
  | 48 => ⟨S10000, .f32⟩
  | 49 => ⟨S10000, .f32⟩
  | 50 => ⟨S_, .f32⟩
  | 51 => ⟨S10000, .f32⟩
  | 52 => ⟨S10000, .f32⟩
  | 53 => ⟨S_, .i32⟩
  | 54 => ⟨S_, .bf16⟩
  | 55 => ⟨S10240x10240, .bf16⟩
  | 56 => ⟨S_, .i32⟩
  | 57 => ⟨S_, .f32⟩
  | 58 => ⟨S10240, .f32⟩
  | 59 => ⟨S10240x1, .f32⟩
  | 60 => ⟨S_, .i32⟩
  | 61 => ⟨S_, .f32⟩
  | 62 => ⟨S10240x256, .f32⟩
  | 63 => ⟨S_, .f32⟩
  | 64 => ⟨S256, .f32⟩
  | 65 => ⟨S_, .f32⟩
  | 66 => ⟨S256, .f32⟩
  | 67 => ⟨S256, .f32⟩
  | 68 => ⟨S1x256, .f32⟩
  | 69 => ⟨S_, .i32⟩
  | 70 => ⟨S_, .f32⟩
  | 71 => ⟨S256, .f32⟩
  | 72 => ⟨S1x256, .f32⟩
  | 73 => ⟨S_, .f32⟩
  | 74 => ⟨S1x256, .f32⟩
  | 75 => ⟨S1x256, .f32⟩
  | 76 => ⟨S10000x256, .f32⟩
  | 77 => ⟨S10000x256, .f32⟩
  | 78 => ⟨S10000x256, .f32⟩
  | 79 => ⟨S_, .f32⟩
  | 80 => ⟨S_, .f32⟩
  | 81 => ⟨S_, .f32⟩
  | 82 => ⟨S_, .f32⟩
  | 83 => ⟨S256, .f32⟩
  | 84 => ⟨S256, .f32⟩
  | 85 => ⟨S256, .f32⟩
  | 86 => ⟨S_, .f32⟩
  | 87 => ⟨S_, .i1⟩
  | 88 => ⟨S_, .f32⟩
  | 89 => ⟨S_, .f32⟩
  | 90 => ⟨S256, .f32⟩
  | 91 => ⟨S256, .f32⟩
  | 92 => ⟨S1x256, .f32⟩
  | 93 => ⟨S1x256, .f32⟩
  | 94 => ⟨S1x256, .f32⟩
  | 95 => ⟨S1x512, .f32⟩
  | 96 => ⟨S10240x256, .bf16⟩
  | 97 => ⟨S256x512, .bf16⟩
  | 98 => ⟨S256x512, .bf16⟩
  | 99 => ⟨S10240x512, .f32⟩
  | 100 => ⟨S10000x512, .f32⟩
  | 101 => ⟨S_, .f32⟩
  | 102 => ⟨S512, .f32⟩
  | 103 => ⟨S_, .f32⟩
  | 104 => ⟨S512, .f32⟩
  | 105 => ⟨S512, .f32⟩
  | 106 => ⟨S1x512, .f32⟩
  | 107 => ⟨S_, .i32⟩
  | 108 => ⟨S_, .f32⟩
  | 109 => ⟨S512, .f32⟩
  | 110 => ⟨S1x512, .f32⟩
  | 111 => ⟨S_, .f32⟩
  | 112 => ⟨S1x512, .f32⟩
  | 113 => ⟨S1x512, .f32⟩
  | 114 => ⟨S10000x512, .f32⟩
  | 115 => ⟨S10000x512, .f32⟩
  | 116 => ⟨S10000x512, .f32⟩
  | 117 => ⟨S_, .f32⟩
  | 118 => ⟨S_, .f32⟩
  | 119 => ⟨S_, .f32⟩
  | 120 => ⟨S_, .f32⟩
  | 121 => ⟨S512, .f32⟩
  | 122 => ⟨S512, .f32⟩
  | 123 => ⟨S512, .f32⟩
  | 124 => ⟨S_, .f32⟩
  | 125 => ⟨S_, .i1⟩
  | 126 => ⟨S_, .f32⟩
  | 127 => ⟨S_, .f32⟩
  | _ => ⟨S10000x256, .f32⟩

abbrev hbmTy0_1 (i : Nat) : BufTy := match i % 128 with
  | 0 => ⟨S512, .f32⟩
  | 1 => ⟨S512, .f32⟩
  | 2 => ⟨S1x512, .f32⟩
  | 3 => ⟨S1x512, .f32⟩
  | 4 => ⟨S1x512, .f32⟩
  | 5 => ⟨S1x512, .f32⟩
  | 6 => ⟨S1x512, .f32⟩
  | 7 => ⟨S10240x512, .bf16⟩
  | 8 => ⟨S512x512, .bf16⟩
  | 9 => ⟨S512x512, .bf16⟩
  | 10 => ⟨S256x512, .bf16⟩
  | 11 => ⟨S10240x512, .f32⟩
  | 12 => ⟨S10000x512, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | .local _ .vmem, ⟨0, _⟩ => ⟨S1024x256, .f32⟩
  | .local _ .vmem, ⟨1, _⟩ => ⟨S1024x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1024x256, .bf16⟩
  | .local _ .vmem, ⟨7, _⟩ => ⟨S1024x256, .bf16⟩
  | .local _ .vmem, ⟨8, _⟩ => ⟨S10240x256, .bf16⟩
  | .local _ .vmem, ⟨9, _⟩ => ⟨S1024x2048, .bf16⟩
  | .local _ .vmem, ⟨10, _⟩ => ⟨S1024x2048, .bf16⟩
  | .local _ .vmem, ⟨11, _⟩ => ⟨S1024x1, .f32⟩
  | .local _ .vmem, ⟨12, _⟩ => ⟨S1024x1, .f32⟩
  | .local _ .vmem, ⟨13, _⟩ => ⟨S256x512, .bf16⟩
  | .local _ .vmem, ⟨14, _⟩ => ⟨S256x512, .bf16⟩
  | .local _ .vmem, ⟨15, _⟩ => ⟨S1x512, .f32⟩
  | .local _ .vmem, ⟨16, _⟩ => ⟨S1024x512, .f32⟩
  | .local _ .vmem, ⟨17, _⟩ => ⟨S1024x512, .f32⟩
  | .local _ .vmem, ⟨18, _⟩ => ⟨S1024x256, .f32⟩
  | .local _ .vmem, ⟨19, _⟩ => ⟨S1024x512, .f32⟩
  | .local _ .vmem, ⟨20, _⟩ => ⟨S1024x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1024x512, .bf16⟩
  | .local _ .vmem, ⟨26, _⟩ => ⟨S1024x512, .bf16⟩
  | .local _ .vmem, ⟨27, _⟩ => ⟨S10240x512, .bf16⟩
  | .local _ .vmem, ⟨28, _⟩ => ⟨S1024x2048, .bf16⟩
  | .local _ .vmem, ⟨29, _⟩ => ⟨S1024x2048, .bf16⟩
  | .local _ .vmem, ⟨30, _⟩ => ⟨S1024x1, .f32⟩
  | .local _ .vmem, ⟨31, _⟩ => ⟨S1024x1, .f32⟩
  | .local _ .vmem, ⟨32, _⟩ => ⟨S512x512, .bf16⟩
  | .local _ .vmem, ⟨33, _⟩ => ⟨S512x512, .bf16⟩
  | .local _ .vmem, ⟨34, _⟩ => ⟨S1x512, .f32⟩
  | .local _ .vmem, ⟨35, _⟩ => ⟨S1024x256, .f32⟩
  | .local _ .vmem, ⟨36, _⟩ => ⟨S1024x256, .f32⟩
  | .local _ .vmem, ⟨37, _⟩ => ⟨S256x512, .bf16⟩
  | .local _ .vmem, ⟨38, _⟩ => ⟨S1x512, .f32⟩
  | .local _ .vmem, ⟨39, _⟩ => ⟨S1024x512, .f32⟩
  | .local _ .vmem, ⟨40, _⟩ => ⟨S1024x512, .f32⟩
  | .local _ .vmem, ⟨41, _⟩ => ⟨S1024x512, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_c : Ref sig .tc := ⟨.hbm, 26, rfl⟩
abbrev main_v9 : Ref sig .tc := ⟨.hbm, 27, rfl⟩
abbrev main_v10 : Ref sig .tc := ⟨.hbm, 28, rfl⟩
abbrev main_c_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_3 : Ref sig .tc := ⟨.hbm, 33, rfl⟩
abbrev main_v14 : Ref sig .tc := ⟨.hbm, 34, rfl⟩
abbrev main_v15 : Ref sig .tc := ⟨.hbm, 35, rfl⟩
abbrev main_c_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_6 : Ref sig .tc := ⟨.hbm, 47, rfl⟩
abbrev main_v25 : Ref sig .tc := ⟨.hbm, 48, rfl⟩
abbrev main_v26 : Ref sig .tc := ⟨.hbm, 49, rfl⟩
abbrev main_cst_7 : Ref sig .tc := ⟨.hbm, 50, rfl⟩
abbrev main_v27 : Ref sig .tc := ⟨.hbm, 51, rfl⟩
abbrev main_v28 : Ref sig .tc := ⟨.hbm, 52, rfl⟩
abbrev main_c_8 : Ref sig .tc := ⟨.hbm, 53, rfl⟩
abbrev main_call0_v0 : Ref sig .tc := ⟨.hbm, 54, rfl⟩
abbrev main_v29 : Ref sig .tc := ⟨.hbm, 55, rfl⟩
abbrev main_c_9 : Ref sig .tc := ⟨.hbm, 56, rfl⟩
abbrev main_call1_v0 : Ref sig .tc := ⟨.hbm, 57, rfl⟩
abbrev main_v30 : Ref sig .tc := ⟨.hbm, 58, rfl⟩
abbrev main_v31 : Ref sig .tc := ⟨.hbm, 59, rfl⟩
abbrev main_c_10 : Ref sig .tc := ⟨.hbm, 60, rfl⟩
abbrev main_call2_v0 : Ref sig .tc := ⟨.hbm, 61, rfl⟩
abbrev main_v32 : Ref sig .tc := ⟨.hbm, 62, rfl⟩
abbrev main_cst_11 : Ref sig .tc := ⟨.hbm, 63, rfl⟩
abbrev main_v33 : Ref sig .tc := ⟨.hbm, 64, rfl⟩
abbrev main_cst_12 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_c_13 : Ref sig .tc := ⟨.hbm, 69, rfl⟩
abbrev main_call3_cst : Ref sig .tc := ⟨.hbm, 70, rfl⟩
abbrev main_call3_v0 : Ref sig .tc := ⟨.hbm, 71, rfl⟩
abbrev main_call3_v1 : Ref sig .tc := ⟨.hbm, 72, rfl⟩
abbrev main_call3_cst_0 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_v5 : Ref sig .tc := ⟨.hbm, 77, rfl⟩
abbrev main_call3_v6 : Ref sig .tc := ⟨.hbm, 78, rfl⟩
abbrev main_call3_v7 : Ref sig .tc := ⟨.hbm, 79, rfl⟩
abbrev main_call3_cst_1 : Ref sig .tc := ⟨.hbm, 80, rfl⟩
abbrev main_call3_v8 : Ref sig .tc := ⟨.hbm, 81, rfl⟩
abbrev main_call3_cst_2 : Ref sig .tc := ⟨.hbm, 82, rfl⟩
abbrev main_call3_v9 : Ref sig .tc := ⟨.hbm, 83, rfl⟩
abbrev main_call3_v10 : Ref sig .tc := ⟨.hbm, 84, rfl⟩
abbrev main_call3_v11 : Ref sig .tc := ⟨.hbm, 85, rfl⟩
abbrev main_call3_cst_3 : Ref sig .tc := ⟨.hbm, 86, rfl⟩
abbrev main_call3_v12 : Ref sig .tc := ⟨.hbm, 87, rfl⟩
abbrev main_call3_cst_4 : Ref sig .tc := ⟨.hbm, 88, rfl⟩
abbrev main_call3_call0_v0 : Ref sig .tc := ⟨.hbm, 89, rfl⟩
abbrev main_call3_call0_v1 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_cst_14 : Ref sig .tc := ⟨.hbm, 101, rfl⟩
abbrev main_v47 : Ref sig .tc := ⟨.hbm, 102, rfl⟩
abbrev main_cst_15 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_c_16 : Ref sig .tc := ⟨.hbm, 107, rfl⟩
abbrev main_call4_cst : Ref sig .tc := ⟨.hbm, 108, rfl⟩
abbrev main_call4_v0 : Ref sig .tc := ⟨.hbm, 109, rfl⟩
abbrev main_call4_v1 : Ref sig .tc := ⟨.hbm, 110, rfl⟩
abbrev main_call4_cst_0 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_call4_v5 : Ref sig .tc := ⟨.hbm, 115, rfl⟩
abbrev main_call4_v6 : Ref sig .tc := ⟨.hbm, 116, rfl⟩
abbrev main_call4_v7 : Ref sig .tc := ⟨.hbm, 117, rfl⟩
abbrev main_call4_cst_1 : Ref sig .tc := ⟨.hbm, 118, rfl⟩
abbrev main_call4_v8 : Ref sig .tc := ⟨.hbm, 119, rfl⟩
abbrev main_call4_cst_2 : Ref sig .tc := ⟨.hbm, 120, rfl⟩
abbrev main_call4_v9 : Ref sig .tc := ⟨.hbm, 121, rfl⟩
abbrev main_call4_v10 : Ref sig .tc := ⟨.hbm, 122, rfl⟩
abbrev main_call4_v11 : Ref sig .tc := ⟨.hbm, 123, rfl⟩
abbrev main_call4_cst_3 : Ref sig .tc := ⟨.hbm, 124, rfl⟩
abbrev main_call4_v12 : Ref sig .tc := ⟨.hbm, 125, rfl⟩
abbrev main_call4_cst_4 : Ref sig .tc := ⟨.hbm, 126, rfl⟩
abbrev main_call4_call0_v0 : Ref sig .tc := ⟨.hbm, 127, rfl⟩
abbrev main_call4_call0_v1 : Ref sig .tc := ⟨.hbm, 128, rfl⟩
abbrev main_v51 : Ref sig .tc := ⟨.hbm, 129, rfl⟩
abbrev main_v52 : Ref sig .tc := ⟨.hbm, 130, rfl⟩
abbrev main_v53 : Ref sig .tc := ⟨.hbm, 131, rfl⟩
abbrev main_v54 : Ref sig .tc := ⟨.hbm, 132, rfl⟩
abbrev main_v55 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_scratch0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg6_1 : Ref sig .tc := ⟨.vmem, 36, rfl⟩
abbrev cc3_stg7_0 : Ref sig .tc := ⟨.vmem, 37, rfl⟩
abbrev cc3_stg8_0 : Ref sig .tc := ⟨.vmem, 38, rfl⟩
abbrev cc3_stg9_0 : Ref sig .tc := ⟨.vmem, 39, rfl⟩
abbrev cc3_stg9_1 : Ref sig .tc := ⟨.vmem, 40, rfl⟩
abbrev cc3_scratch0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc3_sem7_0 : DmaSem sig := 36
abbrev cc3_sem8_0 : DmaSem sig := 37
abbrev cc3_sem9_0 : DmaSem sig := 38
abbrev cc3_sem9_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![10, 5], ![false, false]⟩

def k1_mult1 (i : grid1.Coords) : BitVec 32 :=
  let arg1 : BitVec 32 := BitVec.ofNat 32 (i 1).val
  let c2048_i32 : BitVec 32 := 2048#32
  let v3 : BitVec 32 := Scalar.muli arg1 c2048_i32
  v3
def k1_off1 (i : grid1.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c4_i32 : BitVec 32 := 4#32
  let v16 : BitVec 1 := Scalar.cmpi .eq arg1 c4_i32
  let v17 : BitVec 32 := Scalar.extui v16
  let c0_i32_7 : BitVec 32 := 0#32
  let v18 : BitVec 1 := Scalar.cmpi .ne v17 c0_i32_7
  v18

def k1_mult2 (i : grid1.Coords) : BitVec 32 :=
  let arg0 : BitVec 32 := BitVec.ofNat 32 (i 0).val
  let c1024_i32 : BitVec 32 := 1024#32
  let v19 : BitVec 32 := Scalar.muli arg0 c1024_i32
  v19
def k1_off2 (i : grid1.Coords) : Fin 2 → Nat :=
  let arg0 : BitVec 32 := BitVec.ofNat 32 (i 0).val
  let c1024_i32 : BitVec 32 := 1024#32
  let v19 : BitVec 32 := Scalar.muli arg0 c1024_i32
  let v20 : BitVec 32 := v19
  let v21 : Index := Scalar.indexCast v20
  let c0_8 : Index := 0#32
  ![v21.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S10240x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S256x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x512 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![10, 5], ![false, false]⟩

def k3_mult1 (i : grid3.Coords) : BitVec 32 :=
  let arg1 : BitVec 32 := BitVec.ofNat 32 (i 1).val
  let c2048_i32 : BitVec 32 := 2048#32
  let v3 : BitVec 32 := Scalar.muli arg1 c2048_i32
  v3
def k3_off1 (i : grid3.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k3_cond2 (i : grid3.Coords) : BitVec 1 :=
  let arg1 : BitVec 32 := BitVec.ofNat 32 (i 1).val
  let c4_i32 : BitVec 32 := 4#32
  let v16 : BitVec 1 := Scalar.cmpi .eq arg1 c4_i32
  let v17 : BitVec 32 := Scalar.extui v16
  let c0_i32_7 : BitVec 32 := 0#32
  let v18 : BitVec 1 := Scalar.cmpi .ne v17 c0_i32_7
  v18

def k3_mult2 (i : grid3.Coords) : BitVec 32 :=
  let arg0 : BitVec 32 := BitVec.ofNat 32 (i 0).val
  let c1024_i32 : BitVec 32 := 1024#32
  let v19 : BitVec 32 := Scalar.muli arg0 c1024_i32
  v19
def k3_off2 (i : grid3.Coords) : Fin 2 → Nat :=
  let arg0 : BitVec 32 := BitVec.ofNat 32 (i 0).val
  let c1024_i32 : BitVec 32 := 1024#32
  let v19 : BitVec 32 := Scalar.muli arg0 c1024_i32
  let v20 : BitVec 32 := v19
  let v21 : Index := Scalar.indexCast v20
  let c0_8 : Index := 0#32
  ![v21.toNat, 0]
def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 1 → Memref sig .tc .vmem S10240x512 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 2 → Memref sig .tc .vmem S1024x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1024x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 1 → Memref sig .tc .vmem S512x512 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S512x512 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 2 → Memref sig .tc .vmem S1024x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

abbrev stage3_7 : Fin 1 → Memref sig .tc .vmem S256x512 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S1x512 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 2 → Memref sig .tc .vmem S1024x512 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, false]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  bcast_S_S10000x10000 : S_.BroadcastsInDim S10000x10000 (![] : Fin 0 → Fin S10000x10000.rank)
  concatenates_S320000x1_S320000x1_S320000x2_d1 : Shape.Concatenates [S320000x1, S320000x1] S320000x2 1
  bitsLt_bf16_f32 : FTy.bits .bf16 < FTy.bits .f32
  pads_S10000x10000_S10240x10240_02400_02400 : S10000x10000.Pads (![0, 0] : Fin 2 → Nat) ![240, 240] ![0, 0] S10240x10240
  h_S_ : 0 < S_.numel
  pads_S10000_S10240_02400 : S10000.Pads (![0] : Fin 1 → Nat) ![240] ![0] S10240
  shapeCasts_S10240_S10240x1 : S10240.ShapeCasts S10240x1
  pads_S10000x256_S10240x256_02400_000 : S10000x256.Pads (![0, 0] : Fin 2 → Nat) ![240, 0] ![0, 0] S10240x256
  reducesTo_S10000x256_S256_d0 : S10000x256.ReducesTo [0] S256
  bcast_S_S256 : S_.BroadcastsInDim S256 (![] : Fin 0 → Fin S256.rank)
  shapeCasts_S256_S1x256 : S256.ShapeCasts S1x256
  bcast_S256_S1x256_1 : S256.BroadcastsInDim S1x256 (![1] : Fin 1 → Fin S1x256.rank)
  bcast_S_S1x256 : S_.BroadcastsInDim S1x256 (![] : Fin 0 → Fin S1x256.rank)
  bcast_S1x256_S10000x256_0_1 : S1x256.BroadcastsInDim S10000x256 (![0, 1] : Fin 2 → Fin S10000x256.rank)
  shapeCasts_S512_S1x512 : S512.ShapeCasts S1x512
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  broadcasts_S1x256_S1024x256 : S1x256.Broadcasts S1024x256
  packedbf16_S1024x256_S1024x256_0_0 : (Rect.unit (s := S1024x256) ![0, 0] S1024x256.size inb_S1024x256_S1024x256_0_0).PackedRows (EltTy.packing .bf16)
  h_S2048x256 : 0 < S2048x256.numel
  shapeCasts_S2048x256_S2048x256 : S2048x256.ShapeCasts S2048x256
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  slices_S10240x512_S10000x512_0_0 : S10240x512.Slices ![0, 0] S10000x512
  reducesTo_S10000x512_S512_d0 : S10000x512.ReducesTo [0] S512
  bcast_S_S512 : S_.BroadcastsInDim S512 (![] : Fin 0 → Fin S512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S10000x512_0_1 : S1x512.BroadcastsInDim S10000x512 (![0, 1] : Fin 2 → Fin S10000x512.rank)
  shapeCasts_S1024x512_S1024x512 : S1024x512.ShapeCasts S1024x512
  packedbf16_S1024x512_S1024x512_0_0 : (Rect.unit (s := S1024x512) ![0, 0] S1024x512.size inb_S1024x512_S1024x512_0_0).PackedRows (EltTy.packing .bf16)
  h_S2048x512 : 0 < S2048x512.numel
  shapeCasts_S2048x512_S2048x512 : S2048x512.ShapeCasts S2048x512
  broadcasts_S1024x1_S1024x512 : S1024x1.Broadcasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  scatter_S10000_S320000x1_S320000_n_0_0_1_wf : ScatterDims.WF S10000 S320000x1 S320000 [] [0] [0] 1
  scatter_S10000x10000_S320000x2_S320000_n_01_01_1_wf : ScatterDims.WF S10000x10000 S320000x2 S320000 [] [0, 1] [0, 1] 1
  dot_S1024x2048_S2048x256_S1024x256_1_0_0_1_n_n_wf : DotDims.WF S1024x2048 S2048x256 S1024x256 [1] [0] [0] [1] [] []
  dot_S1024x256_S256x512_S1024x512_1_0_0_1_n_n_wf : DotDims.WF S1024x256 S256x512 S1024x512 [1] [0] [0] [1] [] []
  dot_S1024x2048_S2048x512_S1024x512_1_0_0_1_n_n_wf : DotDims.WF S1024x2048 S2048x512 S1024x512 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S10240x256.size a
  hwx0_0 : ∀ i : grid0.Coords, EltTy.bits .f32 = 32 ∨ (Rect.block (s := S10240x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S10240x256.size a
  hwx0_5 : ∀ i : grid0.Coords, EltTy.bits .bf16 = 32 ∨ (Rect.block (s := S10240x256) S1024x256.size (cc0_transform_5 i) (hinb0_5 i)).WholeWords (EltTy.packing .bf16)
  hrank1 : 0 < grid1.rank
  k1_mult1_dvd : ∀ i : grid1.Coords, 2048 ∣ (k1_mult1 i).toNat
  k1_off1_inb : ∀ i : grid1.Coords, ∀ a, (k1_off1 i) a + S2048x256.size a ≤ S10240x256.size a
  k1_mult2_dvd : ∀ i : grid1.Coords, ∀ (k1_h2 : k1_cond2 i = 1#1), 1024 ∣ (k1_mult2 i).toNat
  k1_off2_inb : ∀ i : grid1.Coords, ∀ (k1_h2 : k1_cond2 i = 1#1), ∀ a, (k1_off2 i) a + S1024x256.size a ≤ S10240x256.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10240x256.size a ≤ S10240x256.size a
  hwx1_0 : ∀ i : grid1.Coords, EltTy.bits .bf16 = 32 ∨ (Rect.block (s := S10240x256) S10240x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S10240x10240.size a
  hwx1_1 : ∀ i : grid1.Coords, EltTy.bits .bf16 = 32 ∨ (Rect.block (s := S10240x10240) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S10240x1.size a
  hwx1_2 : ∀ i : grid1.Coords, EltTy.bits .f32 = 32 ∨ (Rect.block (s := S10240x1) S1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x512.size a ≤ S256x512.size a
  hwx1_3 : ∀ i : grid1.Coords, EltTy.bits .bf16 = 32 ∨ (Rect.block (s := S256x512) S256x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x512.size a ≤ S256x512.size a
  hwx1_4 : ∀ i : grid1.Coords, EltTy.bits .bf16 = 32 ∨ (Rect.block (s := S256x512) S256x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x512.size a ≤ S10240x512.size a
  hwx1_6 : ∀ i : grid1.Coords, EltTy.bits .f32 = 32 ∨ (Rect.block (s := S10240x512) S1024x512.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S10240x512.size a
  hwx2_0 : ∀ i : grid2.Coords, EltTy.bits .f32 = 32 ∨ (Rect.block (s := S10240x512) S1024x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x512.size a ≤ S1x512.size a
  hwx2_1 : ∀ i : grid2.Coords, EltTy.bits .f32 = 32 ∨ (Rect.block (s := S1x512) S1x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x512.size a ≤ S10240x512.size a
  hwx2_5 : ∀ i : grid2.Coords, EltTy.bits .bf16 = 32 ∨ (Rect.block (s := S10240x512) S1024x512.size (cc2_transform_5 i) (hinb2_5 i)).WholeWords (EltTy.packing .bf16)
  hrank3 : 0 < grid3.rank
  k3_mult1_dvd : ∀ i : grid3.Coords, 2048 ∣ (k3_mult1 i).toNat
  k3_off1_inb : ∀ i : grid3.Coords, ∀ a, (k3_off1 i) a + S2048x512.size a ≤ S10240x512.size a
  k3_mult2_dvd : ∀ i : grid3.Coords, ∀ (k3_h2 : k3_cond2 i = 1#1), 1024 ∣ (k3_mult2 i).toNat
  k3_off2_inb : ∀ i : grid3.Coords, ∀ (k3_h2 : k3_cond2 i = 1#1), ∀ a, (k3_off2 i) a + S1024x512.size a ≤ S10240x512.size a
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S10240x512.size a ≤ S10240x512.size a
  hwx3_0 : ∀ i : grid3.Coords, EltTy.bits .bf16 = 32 ∨ (Rect.block (s := S10240x512) S10240x512.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x2048.size a ≤ S10240x10240.size a
  hwx3_1 : ∀ i : grid3.Coords, EltTy.bits .bf16 = 32 ∨ (Rect.block (s := S10240x10240) S1024x2048.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1.size a ≤ S10240x1.size a
  hwx3_2 : ∀ i : grid3.Coords, EltTy.bits .f32 = 32 ∨ (Rect.block (s := S10240x1) S1024x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x512.size a ≤ S512x512.size a
  hwx3_3 : ∀ i : grid3.Coords, EltTy.bits .bf16 = 32 ∨ (Rect.block (s := S512x512) S512x512.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x512.size a ≤ S512x512.size a
  hwx3_4 : ∀ i : grid3.Coords, EltTy.bits .bf16 = 32 ∨ (Rect.block (s := S512x512) S512x512.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x512.size a ≤ S1x512.size a
  hwx3_5 : ∀ i : grid3.Coords, EltTy.bits .f32 = 32 ∨ (Rect.block (s := S1x512) S1x512.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1024x256.size a ≤ S10240x256.size a
  hwx3_6 : ∀ i : grid3.Coords, EltTy.bits .f32 = 32 ∨ (Rect.block (s := S10240x256) S1024x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S256x512.size a ≤ S256x512.size a
  hwx3_7 : ∀ i : grid3.Coords, EltTy.bits .bf16 = 32 ∨ (Rect.block (s := S256x512) S256x512.size (cc3_transform_7 i) (hinb3_7 i)).WholeWords (EltTy.packing .bf16)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x512.size a ≤ S1x512.size a
  hwx3_8 : ∀ i : grid3.Coords, EltTy.bits .f32 = 32 ∨ (Rect.block (s := S1x512) S1x512.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1024x512.size a ≤ S10240x512.size a
  hwx3_9 : ∀ i : grid3.Coords, EltTy.bits .f32 = 32 ∨ (Rect.block (s := S10240x512) S1024x512.size (cc3_transform_9 i) (hinb3_9 i)).WholeWords (EltTy.packing .f32)

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def scatter_S10000x10000_S320000x2_S320000_n_01_01_1 : ScatterDims S10000x10000 S320000x2 S320000 where
  updateWindowDims := []
  insertedWindowDims := [0, 1]
  scatterDimsToOperandDims := [0, 1]
  indexVectorDim := 1
  wf := scatter_S10000x10000_S320000x2_S320000_n_01_01_1_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v32) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v42) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S10240x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v29) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S256x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S256x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1024x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v45) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S1x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1024x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v57) S10240x512.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v29) S1024x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v31) S1024x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S512x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S512x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v55) S1x512.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v32) S1024x256.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v60) S256x512.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v56) S1x512.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v61) S1024x512.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev idle3 : Fin 10 → grid3.Coords → Bool := fun | 0 => fun _ => false | 1 => fun _ => false | 2 => fun _ => false | 3 => fun _ => false | 4 => fun _ => false | 5 => fun _ => false | 6 => fun _ => false | 7 => fun _ => false | 8 => fun _ => false | 9 => fun i => !(k3_cond2 i == 1#1) | ⟨_ + 10, h⟩ => absurd h (Nat.not_lt.2 (Nat.le_add_left _ _))

class Facts : Prop extends Facts₀ where

variable [Facts]
-- ==== ReferenceIdeal.lean ====
abbrev S10000x256 : Shape := ⟨2, ![10000, 256]⟩
abbrev S2x320000 : Shape := ⟨2, ![2, 320000]⟩
abbrev S256 : Shape := ⟨1, ![256]⟩
abbrev S256x512 : Shape := ⟨2, ![256, 512]⟩
abbrev S512 : Shape := ⟨1, ![512]⟩
abbrev S512x512 : Shape := ⟨2, ![512, 512]⟩
abbrev S1x320000 : Shape := ⟨2, ![1, 320000]⟩
abbrev S320000 : Shape := ⟨1, ![320000]⟩
abbrev S_ : Shape := ⟨0, ![]⟩
abbrev S1x256 : Shape := ⟨2, ![1, 256]⟩
abbrev S320000x1 : Shape := ⟨2, ![320000, 1]⟩
abbrev S320000x256 : Shape := ⟨2, ![320000, 256]⟩
abbrev S10000x1 : Shape := ⟨2, ![10000, 1]⟩
abbrev S10000x512 : Shape := ⟨2, ![10000, 512]⟩
abbrev S1x512 : Shape := ⟨2, ![1, 512]⟩
abbrev S320000x512 : Shape := ⟨2, ![320000, 512]⟩

abbrev nBuf : Space → Nat
  | .hbm => 177
  | .vmem => 0
  | .smem => 0
  | _ => 0

abbrev hbmTy0_0 (i : Nat) : BufTy := match i % 128 with
  | 0 => ⟨S10000x256, .f32⟩
  | 1 => ⟨S2x320000, .i32⟩
  | 2 => ⟨S256, .f32⟩
  | 3 => ⟨S256, .f32⟩
  | 4 => ⟨S256x512, .f32⟩
  | 5 => ⟨S256x512, .f32⟩
  | 6 => ⟨S512, .f32⟩
  | 7 => ⟨S512, .f32⟩
  | 8 => ⟨S512, .f32⟩
  | 9 => ⟨S512x512, .f32⟩
  | 10 => ⟨S512x512, .f32⟩
  | 11 => ⟨S512, .f32⟩
  | 12 => ⟨S256x512, .f32⟩
  | 13 => ⟨S512, .f32⟩
  | 14 => ⟨S1x320000, .i32⟩
  | 15 => ⟨S320000, .i32⟩
  | 16 => ⟨S1x320000, .i32⟩
  | 17 => ⟨S320000, .i32⟩
  | 18 => ⟨S_, .f32⟩
  | 19 => ⟨S256, .f32⟩
  | 20 => ⟨S_, .f32⟩
  | 21 => ⟨S256, .f32⟩
  | 22 => ⟨S256, .f32⟩
  | 23 => ⟨S_, .i32⟩
  | 24 => ⟨S_, .f32⟩
  | 25 => ⟨S256, .f32⟩
  | 26 => ⟨S1x256, .f32⟩
  | 27 => ⟨S_, .f32⟩
  | 28 => ⟨S1x256, .f32⟩
  | 29 => ⟨S1x256, .f32⟩
  | 30 => ⟨S10000x256, .f32⟩
  | 31 => ⟨S10000x256, .f32⟩
  | 32 => ⟨S10000x256, .f32⟩
  | 33 => ⟨S_, .f32⟩
  | 34 => ⟨S_, .f32⟩
  | 35 => ⟨S_, .f32⟩
  | 36 => ⟨S_, .f32⟩
  | 37 => ⟨S256, .f32⟩
  | 38 => ⟨S256, .f32⟩
  | 39 => ⟨S256, .f32⟩
  | 40 => ⟨S_, .f32⟩
  | 41 => ⟨S_, .i1⟩
  | 42 => ⟨S_, .f32⟩
  | 43 => ⟨S_, .f32⟩
  | 44 => ⟨S256, .f32⟩
  | 45 => ⟨S256, .f32⟩
  | 46 => ⟨S1x256, .f32⟩
  | 47 => ⟨S10000x256, .f32⟩
  | 48 => ⟨S10000x256, .f32⟩
  | 49 => ⟨S_, .f32⟩
  | 50 => ⟨S256, .f32⟩
  | 51 => ⟨S256, .f32⟩
  | 52 => ⟨S256, .f32⟩
  | 53 => ⟨S1x256, .f32⟩
  | 54 => ⟨S10000x256, .f32⟩
  | 55 => ⟨S10000x256, .f32⟩
  | 56 => ⟨S1x256, .f32⟩
  | 57 => ⟨S10000x256, .f32⟩
  | 58 => ⟨S10000x256, .f32⟩
  | 59 => ⟨S1x256, .f32⟩
  | 60 => ⟨S10000x256, .f32⟩
  | 61 => ⟨S10000x256, .f32⟩
  | 62 => ⟨S_, .f32⟩
  | 63 => ⟨S10000x256, .f32⟩
  | 64 => ⟨S10000x256, .f32⟩
  | 65 => ⟨S_, .i32⟩
  | 66 => ⟨S320000, .i32⟩
  | 67 => ⟨S320000, .i1⟩
  | 68 => ⟨S_, .i32⟩
  | 69 => ⟨S320000, .i32⟩
  | 70 => ⟨S320000, .i32⟩
  | 71 => ⟨S320000, .i32⟩
  | 72 => ⟨S320000x1, .i32⟩
  | 73 => ⟨S320000x256, .f32⟩
  | 74 => ⟨S_, .f32⟩
  | 75 => ⟨S10000x256, .f32⟩
  | 76 => ⟨S320000x1, .i32⟩
  | 77 => ⟨S10000x256, .f32⟩
  | 78 => ⟨S_, .f32⟩
  | 79 => ⟨S320000x1, .f32⟩
  | 80 => ⟨S_, .f32⟩
  | 81 => ⟨S10000x1, .f32⟩
  | 82 => ⟨S320000x1, .i32⟩
  | 83 => ⟨S10000x1, .f32⟩
  | 84 => ⟨S_, .f32⟩
  | 85 => ⟨S10000x1, .f32⟩
  | 86 => ⟨S10000x1, .f32⟩
  | 87 => ⟨S10000x256, .f32⟩
  | 88 => ⟨S10000x256, .f32⟩
  | 89 => ⟨S10000x512, .f32⟩
  | 90 => ⟨S1x512, .f32⟩
  | 91 => ⟨S10000x512, .f32⟩
  | 92 => ⟨S10000x512, .f32⟩
  | 93 => ⟨S10000x512, .f32⟩
  | 94 => ⟨S10000x512, .f32⟩
  | 95 => ⟨S_, .f32⟩
  | 96 => ⟨S512, .f32⟩
  | 97 => ⟨S_, .f32⟩
  | 98 => ⟨S512, .f32⟩
  | 99 => ⟨S512, .f32⟩
  | 100 => ⟨S_, .i32⟩
  | 101 => ⟨S_, .f32⟩
  | 102 => ⟨S512, .f32⟩
  | 103 => ⟨S1x512, .f32⟩
  | 104 => ⟨S_, .f32⟩
  | 105 => ⟨S1x512, .f32⟩
  | 106 => ⟨S1x512, .f32⟩
  | 107 => ⟨S10000x512, .f32⟩
  | 108 => ⟨S10000x512, .f32⟩
  | 109 => ⟨S10000x512, .f32⟩
  | 110 => ⟨S_, .f32⟩
  | 111 => ⟨S_, .f32⟩
  | 112 => ⟨S_, .f32⟩
  | 113 => ⟨S_, .f32⟩
  | 114 => ⟨S512, .f32⟩
  | 115 => ⟨S512, .f32⟩
  | 116 => ⟨S512, .f32⟩
  | 117 => ⟨S_, .f32⟩
  | 118 => ⟨S_, .i1⟩
  | 119 => ⟨S_, .f32⟩
  | 120 => ⟨S_, .f32⟩
  | 121 => ⟨S512, .f32⟩
  | 122 => ⟨S512, .f32⟩
  | 123 => ⟨S1x512, .f32⟩
  | 124 => ⟨S10000x512, .f32⟩
  | 125 => ⟨S10000x512, .f32⟩
  | 126 => ⟨S_, .f32⟩
  | 127 => ⟨S512, .f32⟩
  | _ => ⟨S10000x256, .f32⟩

abbrev hbmTy0_1 (i : Nat) : BufTy := match i % 128 with
  | 0 => ⟨S512, .f32⟩
  | 1 => ⟨S512, .f32⟩
  | 2 => ⟨S1x512, .f32⟩
  | 3 => ⟨S10000x512, .f32⟩
  | 4 => ⟨S10000x512, .f32⟩
  | 5 => ⟨S1x512, .f32⟩
  | 6 => ⟨S10000x512, .f32⟩
  | 7 => ⟨S10000x512, .f32⟩
  | 8 => ⟨S1x512, .f32⟩
  | 9 => ⟨S10000x512, .f32⟩
  | 10 => ⟨S10000x512, .f32⟩
  | 11 => ⟨S_, .f32⟩
  | 12 => ⟨S10000x512, .f32⟩
  | 13 => ⟨S10000x512, .f32⟩
  | 14 => ⟨S_, .i32⟩
  | 15 => ⟨S320000, .i32⟩
  | 16 => ⟨S320000, .i1⟩
  | 17 => ⟨S_, .i32⟩
  | 18 => ⟨S320000, .i32⟩
  | 19 => ⟨S320000, .i32⟩
  | 20 => ⟨S320000, .i32⟩
  | 21 => ⟨S320000x1, .i32⟩
  | 22 => ⟨S320000x512, .f32⟩
  | 23 => ⟨S_, .f32⟩
  | 24 => ⟨S10000x512, .f32⟩
  | 25 => ⟨S320000x1, .i32⟩
  | 26 => ⟨S10000x512, .f32⟩
  | 27 => ⟨S_, .f32⟩
  | 28 => ⟨S320000x1, .f32⟩
  | 29 => ⟨S_, .f32⟩
  | 30 => ⟨S10000x1, .f32⟩
  | 31 => ⟨S320000x1, .i32⟩
  | 32 => ⟨S10000x1, .f32⟩
  | 33 => ⟨S_, .f32⟩
  | 34 => ⟨S10000x1, .f32⟩
  | 35 => ⟨S10000x1, .f32⟩
  | 36 => ⟨S10000x512, .f32⟩
  | 37 => ⟨S10000x512, .f32⟩
  | 38 => ⟨S10000x512, .f32⟩
  | 39 => ⟨S1x512, .f32⟩
  | 40 => ⟨S10000x512, .f32⟩
  | 41 => ⟨S10000x512, .f32⟩
  | 42 => ⟨S10000x512, .f32⟩
  | 43 => ⟨S10000x512, .f32⟩
  | 44 => ⟨S10000x512, .f32⟩
  | 45 => ⟨S1x512, .f32⟩
  | 46 => ⟨S10000x512, .f32⟩
  | 47 => ⟨S10000x512, .f32⟩
  | 48 => ⟨S10000x512, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_c : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_cst_2 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_cst_3 : Ref sig .tc := ⟨.hbm, 40, rfl⟩
abbrev main_call0_v12 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_cst_1 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_call1_cst : Ref sig .tc := ⟨.hbm, 62, rfl⟩
abbrev main_call1_v0 : Ref sig .tc := ⟨.hbm, 63, rfl⟩
abbrev main_v23 : Ref sig .tc := ⟨.hbm, 64, rfl⟩
abbrev main_c_2 : Ref sig .tc := ⟨.hbm, 65, rfl⟩
abbrev main_v24 : Ref sig .tc := ⟨.hbm, 66, rfl⟩
abbrev main_v25 : Ref sig .tc := ⟨.hbm, 67, rfl⟩
abbrev main_c_3 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_cst_4 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_cst_5 : Ref sig .tc := ⟨.hbm, 78, rfl⟩
abbrev main_v34 : Ref sig .tc := ⟨.hbm, 79, rfl⟩
abbrev main_cst_6 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_cst_7 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_cst_8 : Ref sig .tc := ⟨.hbm, 95, rfl⟩
abbrev main_v48 : Ref sig .tc := ⟨.hbm, 96, rfl⟩
abbrev main_cst_9 : Ref sig .tc := ⟨.hbm, 97, rfl⟩
abbrev main_v49 : Ref sig .tc := ⟨.hbm, 98, rfl⟩
abbrev main_v50 : Ref sig .tc := ⟨.hbm, 99, rfl⟩
abbrev main_c_10 : Ref sig .tc := ⟨.hbm, 100, rfl⟩
abbrev main_call2_cst : Ref sig .tc := ⟨.hbm, 101, rfl⟩
abbrev main_call2_v0 : Ref sig .tc := ⟨.hbm, 102, rfl⟩
abbrev main_call2_v1 : Ref sig .tc := ⟨.hbm, 103, rfl⟩
abbrev main_call2_cst_0 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_v5 : Ref sig .tc := ⟨.hbm, 108, rfl⟩
abbrev main_call2_v6 : Ref sig .tc := ⟨.hbm, 109, rfl⟩
abbrev main_call2_v7 : Ref sig .tc := ⟨.hbm, 110, rfl⟩
abbrev main_call2_cst_1 : Ref sig .tc := ⟨.hbm, 111, rfl⟩
abbrev main_call2_v8 : Ref sig .tc := ⟨.hbm, 112, rfl⟩
abbrev main_call2_cst_2 : Ref sig .tc := ⟨.hbm, 113, rfl⟩
abbrev main_call2_v9 : Ref sig .tc := ⟨.hbm, 114, rfl⟩
abbrev main_call2_v10 : Ref sig .tc := ⟨.hbm, 115, rfl⟩
abbrev main_call2_v11 : Ref sig .tc := ⟨.hbm, 116, rfl⟩
abbrev main_call2_cst_3 : Ref sig .tc := ⟨.hbm, 117, rfl⟩
abbrev main_call2_v12 : Ref sig .tc := ⟨.hbm, 118, rfl⟩
abbrev main_call2_cst_4 : Ref sig .tc := ⟨.hbm, 119, rfl⟩
abbrev main_call2_call0_v0 : Ref sig .tc := ⟨.hbm, 120, rfl⟩
abbrev main_call2_call0_v1 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_cst_11 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_call3_cst : Ref sig .tc := ⟨.hbm, 139, rfl⟩
abbrev main_call3_v0 : Ref sig .tc := ⟨.hbm, 140, rfl⟩
abbrev main_v67 : Ref sig .tc := ⟨.hbm, 141, rfl⟩
abbrev main_c_12 : Ref sig .tc := ⟨.hbm, 142, rfl⟩
abbrev main_v68 : Ref sig .tc := ⟨.hbm, 143, rfl⟩
abbrev main_v69 : Ref sig .tc := ⟨.hbm, 144, rfl⟩
abbrev main_c_13 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_cst_14 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_cst_15 : Ref sig .tc := ⟨.hbm, 155, rfl⟩
abbrev main_v78 : Ref sig .tc := ⟨.hbm, 156, rfl⟩
abbrev main_cst_16 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_cst_17 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  reducesTo_S10000x256_S256_d0 : S10000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S_S10000x1 : S_.BroadcastsInDim S10000x1 (![] : Fin 0 → Fin S10000x1.rank)
  bcast_S10000x1_S10000x256_0_1 : S10000x1.BroadcastsInDim S10000x256 (![0, 1] : Fin 2 → Fin S10000x256.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  reducesTo_S10000x512_S512_d0 : S10000x512.ReducesTo [0] S512
  bcast_S_S512 : S_.BroadcastsInDim S512 (![] : Fin 0 → Fin S512.rank)
  bcast_S_S1x512 : S_.BroadcastsInDim S1x512 (![] : Fin 0 → Fin S1x512.rank)
  bcast_S_S10000x512 : S_.BroadcastsInDim S10000x512 (![] : Fin 0 → Fin S10000x512.rank)
  bcast_S10000x1_S10000x512_0_1 : S10000x1.BroadcastsInDim S10000x512 (![0, 1] : Fin 2 → Fin S10000x512.rank)
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  scatter_S10000x1_S320000x1_S320000x1_1_0_0_1_wf : ScatterDims.WF S10000x1 S320000x1 S320000x1 [1] [0] [0] 1
  dot_S10000x256_S256x512_S10000x512_1_0_0_1_n_n_wf : DotDims.WF S10000x256 S256x512 S10000x512 [1] [0] [0] [1] [] []
  gather_S10000x512_S320000x1_S320000x512_1_0_n_n_0_1_1512_wf : GatherDims.WF S10000x512 S320000x1 S320000x512 [1] [0] [] [0] [] 1 ![1, 512]
  scatter_S10000x512_S320000x1_S320000x512_1_0_0_1_wf : ScatterDims.WF S10000x512 S320000x1 S320000x512 [1] [0] [0] 1
  dot_S10000x512_S512x512_S10000x512_1_0_0_1_n_n_wf : DotDims.WF S10000x512 S512x512 S10000x512 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def scatter_S10000x1_S320000x1_S320000x1_1_0_0_1 : ScatterDims S10000x1 S320000x1 S320000x1 where
  updateWindowDims := [1]
  insertedWindowDims := [0]
  scatterDimsToOperandDims := [0]
  indexVectorDim := 1
  wf := scatter_S10000x1_S320000x1_S320000x1_1_0_0_1_wf
def dot_S10000x256_S256x512_S10000x512_1_0_0_1_n_n : DotDims S10000x256 S256x512 S10000x512 where
  lhsContracting := [1]
  rhsContracting := [0]
  lhsNonContracting := [0]
  rhsNonContracting := [1]
  lhsBatch := []
  rhsBatch := []
  wf := dot_S10000x256_S256x512_S10000x512_1_0_0_1_n_n_wf
def gather_S10000x512_S320000x1_S320000x512_1_0_n_n_0_1_1512 : GatherDims S10000x512 S320000x1 S320000x512 where
  offsetDims := [1]
  collapsedSliceDims := [0]
  operandBatchingDims := []
  startIndicesBatchingDims := []
  startIndexMap := [0]
  indexVectorDim := 1
  sliceSizes := ![1, 512]
  wf := gather_S10000x512_S320000x1_S320000x512_1_0_n_n_0_1_1512_wf
def scatter_S10000x512_S320000x1_S320000x512_1_0_0_1 : ScatterDims S10000x512 S320000x1 S320000x512 where
  updateWindowDims := [1]
  insertedWindowDims := [0]
  scatterDimsToOperandDims := [0]
  indexVectorDim := 1
  wf := scatter_S10000x512_S320000x1_S320000x512_1_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf

class Facts : Prop extends Facts₀ where

variable [Facts]
-- ==== Proof.K.R0.lean ====
import proofs.«426621_j13099650253560_2_alg».proof.Proof.Gen.Kernel.Launch
import proofs.«426621_j13099650253560_2_alg».proof.Proof.Gen.Kernel.Skeleton
import proofs.«426621_j13099650253560_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rr0 : Rect S1x256 := Rect.unit (s := S1x256) ![0, 0] S1x256.size inb_S1x256_S1x256_0_0
abbrev rb0 : Rect S1024x256 := Rect.unit (s := S1024x256) ![0, 0] S1024x256.size inb_S1024x256_S1024x256_0_0

def out0_5 (x0 : Vec F S1024x256 .f32) (x1 x2 x3 x4 : Vec F S1x256 .f32) : Vec F S1024x256 .bf16 :=
  View.canon [⟨rb0, k0_pay1 (View.ld x1 rr0) (View.ld x2 rr0) (View.ld x3 rr0) (View.ld x4 rr0) (View.ld x0 rb0)⟩]

-- The body reads each input whole and writes the output whole once, so what it leaves is a function of the inputs alone.
theorem sound_kernel0 (c : Dev nD) (t : Fin cfg0.N) (x0 : Vec F S1024x256 .f32) (x1 x2 x3 x4 : Vec F S1x256 .f32) (R₁ R₂ : sProp 𝕄) :
    iprop(R₁ ∗ R₂ ∗ owns c (st0_0 t) fullShare x0 ∗ owns c (st0_1 t) fullShare x1
        ∗ owns c (st0_2 t) fullShare x2 ∗ owns c (st0_3 t) fullShare x3
        ∗ owns c (st0_4 t) fullShare x4 ∗ ∃ d, owns c (st0_5 t) fullShare d)
      ⊢ wp frame (wpE (defs₀ (F := F)) Variants.none c none) Set.univ (bodyAt0 t) fun _ =>
        iprop(R₁ ∗ R₂ ∗ owns c (st0_0 t) fullShare x0 ∗ owns c (st0_1 t) fullShare x1
          ∗ owns c (st0_2 t) fullShare x2 ∗ owns c (st0_3 t) fullShare x3
          ∗ owns c (st0_4 t) fullShare x4 ∗ owns c (st0_5 t) fullShare (out0_5 x0 x1 x2 x3 x4)) := by
  unfold bodyAt0
  simp only [cc0__norm_relu_kernel_eq_skeleton, owns_eq_rep]; unfold cc0__norm_relu_kernel_skel
  iintro ⟨HR₁, HR₂, H0, H1, H2, H3, H4, %d, H5⟩
  sl_exec
  sl_step
  iframe HR₁ HR₂ H0 H1 H2 H3 H4
  rw [← owns_eq_rep]; unfold owns
  iexists _; isplitr; swap; · iexact H5
  ipureintro; sl_unfold_run_names; simp only [View.readAt_rep]
  exact View.read_writes_eq_canon _ _ _ (View.cover_of_tiled _ S1024x256.size (by rfl))

def dat0 (V : (c : Dev nD) → (b : Ref sig .tc) → Buf (Elt F) ((c : Thread nD τ).loc b)) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem share0 (c : Dev nD) (w : Fin cfg0.W) : (dat0 V c).share w = fullShare :=
  (dat0 V c).share_full (fun _ => rfl) w

theorem recorded0 (c : Dev nD) (t : Fin (cfg0.N + 1)) : (dat0 V c).recorded t = Set.univ := rfl

theorem owed0 (c : Dev nD) (t : Fin (cfg0.N + 1)) : (dat0 V c).owed t = 0 := rfl

theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0 (c : Dev nD) (w : Fin cfg0.W) (hw : (cfg0.win w).isOut = false) (t : Fin cfg0.N) (d) :
    (dat0 V c).before w t d = (dat0 V c).after w t :=
  match w, hw with
  | ⟨0, _⟩, _ | ⟨1, _⟩, _ | ⟨2, _⟩, _ | ⟨3, _⟩, _ | ⟨4, _⟩, _ =>
    ((dat0 V c).before_in_eq_fetched _ rfl (fun _ => rfl) (fun _ _ _ => rfl) (fun _ => rfl) t d).trans rfl
  | ⟨5, _⟩, hw => nomatch hw
  | ⟨_ + 6, h⟩, _ => absurd h (by show ¬ _ < 6; omega)

theorem body_obligation0 (c : Dev nD) : BodyObligation (dat0 (F := F) V c) (defs₀ (F := F)) Variants.none () Set.univ := fun t => by
  rw [bigSep_W0, bigSep_W0]
  simp only [before0 V c 0 rfl, before0 V c 1 rfl, before0 V c 2 rfl, before0 V c 3 rfl, before0 V c 4 rfl]
  dsimp only [dat0]
  iintro ⟨HΦ, Ho, ⟨%_, H0⟩, ⟨%_, H1⟩, ⟨%_, H2⟩, ⟨%_, H3⟩, ⟨%_, H4⟩, %_, H5⟩
  iapply (sound_kernel0 c t _ _ _ _ _ _ _)
  iframe HΦ H0 H1 H2 H3 H4
  isplitl [Ho]; · iexact Ho
  iexists _; iexact H5

theorem hin0 (c : Dev nD) : Pipeline.ΦA spec0 c ⊢ (dat0 V c).Φ 0 := .rfl

theorem hout0 (c : Dev nD) : (dat0 V c).Φ (Fin.last cfg0.N) ⊢ Pipeline.ΦA spec0 c := .rfl

end Cert.Kernel.Hand

end
-- ==== Proof.K.R1a.lean ====
import proofs.«426621_j13099650253560_2_alg».proof.Proof.Gen.Kernel.Launch
import proofs.«426621_j13099650253560_2_alg».proof.Proof.Gen.Kernel.Skeleton
import proofs.«426621_j13099650253560_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 5 = 0 :=
  (by decide +kernel : ∀ t : Fin grid1.N, cond1_0 (grid1.coords t) ↔ t.val % 5 = 0)

abbrev cond1_1 (i : grid1.Coords) : Prop := k1_cond2 i = 1#1

theorem hcond1_1 : ∀ t : Fin cfg1.N, cond1_1 (grid1.coords t) ↔ t.val % 5 = 4 :=
  (by decide +kernel : ∀ t : Fin grid1.N, cond1_1 (grid1.coords t) ↔ t.val % 5 = 4)

abbrev rK (i : grid1.Coords) : Rect S10240x256 := Rect.unit (s := S10240x256) (k1_off1 i) S2048x256.size (k1_off1_inb i)

abbrev rI (i : grid1.Coords) (h : cond1_1 i) : Rect S10240x256 := Rect.unit (s := S10240x256) (k1_off2 i) S1024x256.size (k1_off2_inb i h)

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def accStep (x0 : Vec F S10240x256 .bf16) (x1 : Vec F S1024x2048 .bf16) (i : grid1.Coords) (a : Vec F S1024x256 .f32) : Vec F S1024x256 .f32 :=
  k1_pay2 (View.ld x0 (rK i)) x1 a

def accAt (c : Dev nD) : (n : ℕ) → n < cfg1.N → Vec F S1024x256 .f32
  | 0, hn => accStep (iblk1 V c 0 ⟨0, hn⟩) (iblk1 V c 1 ⟨0, hn⟩) (grid1.coords ⟨0, hn⟩) k1_pay1
  | n + 1, hn => accStep (iblk1 V c 0 ⟨n + 1, hn⟩) (iblk1 V c 1 ⟨n + 1, hn⟩) (grid1.coords ⟨n + 1, hn⟩)
      (if (n + 1) % 5 = 0 then k1_pay1 else accAt c n (Nat.lt_of_succ_lt hn))

theorem acc_zero (c : Dev nD) (t : Fin cfg1.N) (hk : t.val % 5 = 0) :
    accAt V c t.val t.isLt = accStep (iblk1 V c 0 t) (iblk1 V c 1 t) (grid1.coords t) k1_pay1 := by
  obtain ⟨n, hn⟩ := t
  cases n with
  | zero => rfl
  | succ n => exact (congrArg (accStep _ _ _) (if_pos hk))

theorem acc_succ (c : Dev nD) (t : Fin cfg1.N) (hk : ¬t.val % 5 = 0) :
    accAt V c t.val t.isLt = accStep (iblk1 V c 0 t) (iblk1 V c 1 t) (grid1.coords t)
      (accAt V c (t.val - 1) (Nat.lt_of_le_of_lt (Nat.sub_le _ _) t.isLt)) := by
  obtain ⟨n, hn⟩ := t
  cases n with
  | zero => exact absurd (Nat.zero_mod _) hk
  | succ n => exact (congrArg (accStep _ _ _) (if_neg hk))

def outVal (c : Dev nD) (t : Fin cfg1.N) (h : cond1_1 (grid1.coords t)) : Vec F S1024x512 .f32 :=
  k1_pay3 (View.ld (iblk1 V c 0 t) (rI (grid1.coords t) h)) (accAt V c t.val t.isLt) (iblk1 V c 2 t)
    (iblk1 V c 3 t) (iblk1 V c 4 t) (iblk1 V c 5 t)

def outAt (c : Dev nD) (t : Fin cfg1.N) : Vec F S1024x512 .f32 :=
  if h : cond1_1 (grid1.coords t) then outVal V c t h else View.canon []

abbrev scM1 : Memref sig .tc .vmem S1024x256 .f32 := Memref.whole cc1_scratch0

abbrev restBut1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop(iprop(∃ d, owns (c : Thread nD τ) scM1 fullShare d) ∗ restBut1 c) ∗ (∃ r, prngReg c r)) := by
  unfold Pipeline.ΦA; rw [scopedRest1_split]; simp only [scM1, owns_whole]; try rfl

def PhiS1 (c : Dev nD) : (n : ℕ) → n ≤ cfg1.N → sProp 𝕄
  | 0, _ => Pipeline.ΦA spec1 c
  | n + 1, hn => iprop(iprop(owns (c : Thread nD τ) scM1 fullShare (accAt V c n hn) ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (accAt V c n hn) ∗ restBut1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare (accAt V c (n - 1) (by omega)) ∗ restBut1 c) ∗ (∃ r, prngReg c r)) := by
  cases n with
  | zero => exact absurd rfl hz
  | succ n => rfl

def dat1 (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outAt V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem share1 (c : Dev nD) (w : Fin cfg1.W) : (dat1 V c).share w = fullShare :=
  (dat1 V c).share_full (fun _ => rfl) w

theorem owed1 (c : Dev nD) (t : Fin (cfg1.N + 1)) : (dat1 V c).owed t = 0 := rfl

theorem recorded1 (c : Dev nD) (t : Fin (cfg1.N + 1)) : (dat1 V c).recorded t = Set.univ := rfl

theorem after1_0 (c : Dev nD) (t : Fin cfg1.N) : (dat1 V c).after 0 t = iblk1 V c 0 t := rfl
theorem after1_1 (c : Dev nD) (t : Fin cfg1.N) : (dat1 V c).after 1 t = iblk1 V c 1 t := rfl
theorem after1_2 (c : Dev nD) (t : Fin cfg1.N) : (dat1 V c).after 2 t = iblk1 V c 2 t := rfl
theorem after1_3 (c : Dev nD) (t : Fin cfg1.N) : (dat1 V c).after 3 t = iblk1 V c 3 t := rfl
theorem after1_4 (c : Dev nD) (t : Fin cfg1.N) : (dat1 V c).after 4 t = iblk1 V c 4 t := rfl
theorem after1_5 (c : Dev nD) (t : Fin cfg1.N) : (dat1 V c).after 5 t = iblk1 V c 5 t := rfl

theorem after1_6 (c : Dev nD) (t : Fin cfg1.N) (hk : t.val % 5 = 4) :
    (dat1 V c).after 6 t = outVal V c t ((hcond1_1 t).mpr hk) := dif_pos _

theorem PhiS1_castSucc (c : Dev nD) (t : Fin cfg1.N) :
    (dat1 V c).Φ t.castSucc = PhiS1 V c t.val (Nat.le_of_lt t.isLt) := by
  dsimp only [dat1]; simp only [Fin.coe_castSucc]

theorem hin1 (c : Dev nD) : Pipeline.ΦA spec1 c ⊢ (dat1 V c).Φ 0 := .rfl

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  iframe
  iexists _; iexact HS0

theorem hout1 (c : Dev nD) : (dat1 V c).Φ (Fin.last cfg1.N) ⊢ Pipeline.ΦA spec1 c :=
  Phi_out1 V c _ (by rw [Fin.val_last]; have : cfg1.N = 50 := N_1; omega)

end Cert.Kernel.Hand

end
-- ==== Proof.K.R1b.lean ====
import proofs.«426621_j13099650253560_2_alg».proof.Proof.K.R1a
import Idealize.ShloMosaic.Lib.Pipeline.Value
import Idealize.ShloMosaic.Lib.Pipeline.TableIdle

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off0 : (![0, 0] : Fin 2 → ℕ) = fun _ => 0 := funext fun a => by fin_cases a <;> rfl

/-- The whole rectangle covers every index, so the last payload through it is all that is read. -/
theorem read_writes_unit {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ fun y => ⟨_, List.mem_cons_self, View.mem_set_unit_zero h inb y⟩, View.canon_cons_unit_zero h]

section
variable (c : Dev nD) (i : grid1.Coords)
  {arg2 : Memref sig .tc .vmem S10240x256 .bf16} {harg2 : arg2.IsWhole} {arg3 : Memref sig .tc .vmem S1024x2048 .bf16} {harg3 : arg3.IsWhole}
  {arg4 : Memref sig .tc .vmem S1024x1 .f32} {harg4 : arg4.IsWhole} {arg5 arg6 : Memref sig .tc .vmem S256x512 .bf16} {harg5 : arg5.IsWhole}
  {harg6 : arg6.IsWhole} {arg7 : Memref sig .tc .vmem S1x512 .f32} {harg7 : arg7.IsWhole} {arg8 : Memref sig .tc .vmem S1024x512 .f32}
  {harg8 : arg8.IsWhole} {arg9 : Memref sig .tc .vmem S1024x256 .f32} {harg9 : arg9.IsWhole}
  (x0 : Vec F S10240x256 .bf16) (x1 : Vec F S1024x2048 .bf16) (x2 : Vec F S1024x1 .f32) (x3 x4 : Vec F S256x512 .bf16) (x5 : Vec F S1x512 .f32)
  (xs : Vec F S1024x256 .f32) (xo : Vec F S1024x512 .f32) (E : Set ℕ) (K : PUnit → sProp (MT nD τ sig Unit (Elt F) ℕ (UR sig nD τ) ℕ))

/-- At a first column tile the accumulator is zeroed before the tile's product is added, so what it held does not matter. -/
theorem run1_A (hc0 : cond1_0 i) (hc1 : ¬cond1_1 i) :
    iprop(owns (c : Thread nD τ) arg2 fullShare x0 ∗ owns (c : Thread nD τ) arg3 fullShare x1 ∗ (∃ d, owns (c : Thread nD τ) arg9 fullShare d)
        ∗ (iprop(owns (c : Thread nD τ) arg2 fullShare x0 ∗ owns (c : Thread nD τ) arg3 fullShare x1 ∗ owns (c : Thread nD τ) arg9 fullShare (accStep x0 x1 i k1_pay1)) -∗ K ⟨⟩))
      ⊢ wp frame (wpE (defs₀ (F := F)) Variants.none c none) E (cc1__sage_conv_kernel i arg2 harg2 arg3 harg3 arg4 harg4 arg5 harg5 arg6 harg6 arg7 harg7 arg8 harg8 arg9 harg9) K := by
  simp only [cc1__sage_conv_kernel_eq_skeleton, owns_eq_rep]; unfold cc1__sage_conv_kernel_skel
  iintro ⟨H0, H1, ⟨%ds, HS⟩, Hk⟩
  sl_exec (disch := first | exact hc0 | exact hc1)
  sl_step
  iapply Hk
  iframe H0 H1
  rw [← owns_eq_rep]; unfold owns
  iexists _; isplitr
  swap; · iexact HS
  ipureintro
  sl_unfold_run_names
  rw [read_writes_unit _ _ off0]
  unfold accStep
  simp only [View.readAt_eq_ld, View.read_rep, View.ld_unit_zero (S := S1024x2048) off0, View.readCov_unit_zero (S := S1024x256) _ off0]
  try rfl

theorem run1_B (hc0 : ¬cond1_0 i) (hc1 : ¬cond1_1 i) :
    iprop(owns (c : Thread nD τ) arg2 fullShare x0 ∗ owns (c : Thread nD τ) arg3 fullShare x1 ∗ owns (c : Thread nD τ) arg9 fullShare xs
        ∗ (iprop(owns (c : Thread nD τ) arg2 fullShare x0 ∗ owns (c : Thread nD τ) arg3 fullShare x1 ∗ owns (c : Thread nD τ) arg9 fullShare (accStep x0 x1 i xs)) -∗ K ⟨⟩))
      ⊢ wp frame (wpE (defs₀ (F := F)) Variants.none c none) E (cc1__sage_conv_kernel i arg2 harg2 arg3 harg3 arg4 harg4 arg5 harg5 arg6 harg6 arg7 harg7 arg8 harg8 arg9 harg9) K := by
  simp only [cc1__sage_conv_kernel_eq_skeleton, owns_eq_rep]; unfold cc1__sage_conv_kernel_skel
  iintro ⟨H0, H1, HS, Hk⟩
  sl_exec (disch := first | exact hc0 | exact hc1)
  sl_step
  iapply Hk
  iframe H0 H1
  rw [← owns_eq_rep]; unfold owns
  iexists _; isplitr
  swap; · iexact HS
  ipureintro
  sl_unfold_run_names
  rw [read_writes_unit _ _ off0]
  unfold accStep
  simp only [View.readAt_eq_ld, View.read_rep, View.ld_unit_zero (S := S1024x2048) off0, View.ld_unit_zero (S := S1024x256) off0]
  try rfl

/-- At a last column tile the output block is computed from the new accumulator. -/
theorem run1_C (hc0 : ¬cond1_0 i) (hc1 : cond1_1 i) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xo ∗ owns (c : Thread nD τ) arg9 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (k1_pay3 (View.ld x0 (rI i hc1)) (accStep x0 x1 i xs) x2 x3 x4 x5)
            ∗ owns (c : Thread nD τ) arg9 fullShare (accStep x0 x1 i xs)) -∗ K ⟨⟩))
      ⊢ wp frame (wpE (defs₀ (F := F)) Variants.none c none) E (cc1__sage_conv_kernel i arg2 harg2 arg3 harg3 arg4 harg4 arg5 harg5 arg6 harg6 arg7 harg7 arg8 harg8 arg9 harg9) K := by
  simp only [cc1__sage_conv_kernel_eq_skeleton, owns_eq_rep]; unfold cc1__sage_conv_kernel_skel
  iintro ⟨H0, H1, H2, H3, H4, H5, H6, HS, Hk⟩
  sl_exec (disch := first | exact hc0 | exact hc1)
  sl_step
  iapply Hk
  iframe H0 H1 H2 H3 H4 H5
  rw [← owns_eq_rep, ← owns_eq_rep]; unfold owns
  isplitl [H6]
  all_goals (iexists _; isplitr)
  any_goals first | iexact H6 | iexact HS
  all_goals
    ipureintro
    sl_unfold_run_names
    rw [read_writes_unit _ _ off0]
    unfold accStep
    simp only [View.readAt_eq_ld, View.read_rep, View.ld_unit_zero (S := S1024x2048) off0, View.ld_unit_zero (S := S1024x256) off0, View.ld_unit_zero (S := S1024x1) off0, View.ld_unit_zero (S := S256x512) off0, View.ld_unit_zero (S := S1x512) off0, View.readCov_unit_zero (S := S1024x256) _ off0]
    try rfl
end

end Cert.Kernel.Hand

end
-- ==== Proof.K.R1.lean ====
import proofs.«426621_j13099650253560_2_alg».proof.Proof.K.R1b

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1 (c : Dev nD) : ∀ w : Fin cfg1.W, w ≠ 6 → ∀ (t : Fin cfg1.N) (d), (dat1 V c).before w t d = (dat1 V c).after w t
  | ⟨0, _⟩, _, t, d | ⟨1, _⟩, _, t, d | ⟨2, _⟩, _, t, d | ⟨3, _⟩, _, t, d | ⟨4, _⟩, _, t, d | ⟨5, _⟩, _, t, d =>
    ((dat1 V c).before_in_eq_fetched _ rfl (fun _ => rfl) (fun _ _ _ => rfl) (fun _ => rfl) t d).trans rfl
  | ⟨6, _⟩, h, _, _ => absurd rfl h

theorem leaves1 (c : Dev nD) (w : Fin cfg1.W) (t : Fin cfg1.N) (hl : cfg1.idle w (cfg1.grid.coords t) = false) :
    (dat1 V c).leavesExact w t = owns (c : Thread nD τ) ((cfg1.win w).stage (cfg1.slots t w)) fullShare ((dat1 V c).after w t) := by
  unfold Dat.leavesExact; rw [hl]

theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t ∗ (dat1 V c).leavesExact 6 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [leaves1 V c 0 t rfl, leaves1 V c 1 t rfl, leaves1 V c 2 t rfl, leaves1 V c 3 t rfl, leaves1 V c 4 t rfl, leaves1 V c 5 t rfl,
    show (dat1 V c).owesAt () t.succ = (dat1 V c).owesAt () t.castSucc from rfl,
    show (dat1 V c).Φ t.succ = PhiS1 V c (t.val + 1) t.isLt from rfl, PhiS1_succ]
  simp (disch := decide) only [before1 V c, after1_0, after1_1, after1_2, after1_3, after1_4, after1_5]
  by_cases h0 : t.val % 5 = 0
  · have hc1 : ¬cond1_1 (grid1.coords t) := fun h => by have := (hcond1_1 t).mp h; omega
    have hΦ : (dat1 V c).Φ t.castSucc ⊢ Pipeline.ΦA spec1 c := by
      by_cases hz : t.val = 0
      · rw [PhiS1_castSucc, PhiS1_zero V c _ _ hz]
      · exact Phi_out1 V c _ (by simpa using hz)
    rw [PhiA1_eq] at hΦ
    rw [Dat.leavesExact_idle (dat1 V c) 6 t (idleAt1_6 t hc1) (noFlush1_6 t hc1), acc_zero V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    icases hΦ $$ HΦ with ⟨⟨HS, HR⟩, Hg⟩
    iapply (run1_A c (grid1.coords t) (iblk1 V c 0 t) (iblk1 V c 1 t) Set.univ _ ((hcond1_0 t).mpr h0) hc1)
    iframe H0 H1 HS
    iintro ⟨H0, H1, HS⟩
    iframe
    iexists _; iexact H6
  · have hc0 : ¬cond1_0 (grid1.coords t) := fun h => h0 ((hcond1_0 t).mp h)
    rw [acc_succ V c t h0, PhiS1_castSucc V c t, PhiS1_pos V c _ _ fun h => h0 (by rw [h])]
    by_cases h1 : t.val % 5 = 4
    · have hc1 := (hcond1_1 t).mpr h1
      rw [leaves1 V c 6 t (liveAt1_6 t hc1), after1_6 V c t h1]
      unfold outVal
      rw [acc_succ V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (run1_C c (grid1.coords t) (iblk1 V c 0 t) (iblk1 V c 1 t) (iblk1 V c 2 t) (iblk1 V c 3 t) (iblk1 V c 4 t) (iblk1 V c 5 t) _ ((dat1 V c).before 6 t d6) Set.univ _ hc0 hc1)
      iframe H0 H1 H2 H3 H4 H5 H6 HS
      iintro ⟨H0, H1, H2, H3, H4, H5, H6, HS⟩
      iframe
    · have hc1 : ¬cond1_1 (grid1.coords t) := fun h => h1 ((hcond1_1 t).mp h)
      rw [Dat.leavesExact_idle (dat1 V c) 6 t (idleAt1_6 t hc1) (noFlush1_6 t hc1)]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (run1_B c (grid1.coords t) (iblk1 V c 0 t) (iblk1 V c 1 t) _ Set.univ _ hc0 hc1)
      iframe H0 H1 HS
      iintro ⟨H0, H1, HS⟩
      iframe
      iexists _; iexact H6

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
import proofs.«426621_j13099650253560_2_alg».proof.Proof.Gen.Kernel.Launch
import proofs.«426621_j13099650253560_2_alg».proof.Proof.Gen.Kernel.Skeleton
import proofs.«426621_j13099650253560_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rr2 : Rect S1x512 := Rect.unit (s := S1x512) ![0, 0] S1x512.size inb_S1x512_S1x512_0_0
abbrev rb2 : Rect S1024x512 := Rect.unit (s := S1024x512) ![0, 0] S1024x512.size inb_S1024x512_S1024x512_0_0

def out2_5 (x0 : Vec F S1024x512 .f32) (x1 x2 x3 x4 : Vec F S1x512 .f32) : Vec F S1024x512 .bf16 :=
  View.canon [⟨rb2, k2_pay1 (View.ld x1 rr2) (View.ld x2 rr2) (View.ld x3 rr2) (View.ld x4 rr2) (View.ld x0 rb2)⟩]

-- The body reads each input whole and writes the output whole once, so what it leaves is a function of the inputs alone.
theorem sound_kernel2 (c : Dev nD) (t : Fin cfg2.N) (x0 : Vec F S1024x512 .f32) (x1 x2 x3 x4 : Vec F S1x512 .f32) (R₁ R₂ : sProp 𝕄) :
    iprop(R₁ ∗ R₂ ∗ owns c (st2_0 t) fullShare x0 ∗ owns c (st2_1 t) fullShare x1
        ∗ owns c (st2_2 t) fullShare x2 ∗ owns c (st2_3 t) fullShare x3
        ∗ owns c (st2_4 t) fullShare x4 ∗ ∃ d, owns c (st2_5 t) fullShare d)
      ⊢ wp frame (wpE (defs₀ (F := F)) Variants.none c none) Set.univ (bodyAt2 t) fun _ =>
        iprop(R₁ ∗ R₂ ∗ owns c (st2_0 t) fullShare x0 ∗ owns c (st2_1 t) fullShare x1
          ∗ owns c (st2_2 t) fullShare x2 ∗ owns c (st2_3 t) fullShare x3
          ∗ owns c (st2_4 t) fullShare x4 ∗ owns c (st2_5 t) fullShare (out2_5 x0 x1 x2 x3 x4)) := by
  unfold bodyAt2
  simp only [cc2__norm_relu_kernel_eq_skeleton, owns_eq_rep]; unfold cc2__norm_relu_kernel_skel
  iintro ⟨HR₁, HR₂, H0, H1, H2, H3, H4, %d, H5⟩
  sl_exec
  sl_step
  iframe HR₁ HR₂ H0 H1 H2 H3 H4
  rw [← owns_eq_rep]; unfold owns
  iexists _; isplitr; swap; · iexact H5
  ipureintro; sl_unfold_run_names; simp only [View.readAt_rep]
  exact View.read_writes_eq_canon _ _ _ (View.cover_of_tiled _ S1024x512.size (by rfl))

def dat2 (V : (c : Dev nD) → (b : Ref sig .tc) → Buf (Elt F) ((c : Thread nD τ).loc b)) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem share2 (c : Dev nD) (w : Fin cfg2.W) : (dat2 V c).share w = fullShare :=
  (dat2 V c).share_full (fun _ => rfl) w

theorem recorded2 (c : Dev nD) (t : Fin (cfg2.N + 1)) : (dat2 V c).recorded t = Set.univ := rfl

theorem owed2 (c : Dev nD) (t : Fin (cfg2.N + 1)) : (dat2 V c).owed t = 0 := rfl

theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

theorem before2 (c : Dev nD) (w : Fin cfg2.W) (hw : (cfg2.win w).isOut = false) (t : Fin cfg2.N) (d) :
    (dat2 V c).before w t d = (dat2 V c).after w t :=
  match w, hw with
  | ⟨0, _⟩, _ | ⟨1, _⟩, _ | ⟨2, _⟩, _ | ⟨3, _⟩, _ | ⟨4, _⟩, _ =>
    ((dat2 V c).before_in_eq_fetched _ rfl (fun _ => rfl) (fun _ _ _ => rfl) (fun _ => rfl) t d).trans rfl
  | ⟨5, _⟩, hw => nomatch hw
  | ⟨_ + 6, h⟩, _ => absurd h (by show ¬ _ < 6; omega)

theorem body_obligation2 (c : Dev nD) : BodyObligation (dat2 (F := F) V c) (defs₀ (F := F)) Variants.none () Set.univ := fun t => by
  rw [bigSep_W2, bigSep_W2]
  simp only [before2 V c 0 rfl, before2 V c 1 rfl, before2 V c 2 rfl, before2 V c 3 rfl, before2 V c 4 rfl]
  dsimp only [dat2]
  iintro ⟨HΦ, Ho, ⟨%_, H0⟩, ⟨%_, H1⟩, ⟨%_, H2⟩, ⟨%_, H3⟩, ⟨%_, H4⟩, %_, H5⟩
  iapply (sound_kernel2 c t _ _ _ _ _ _ _)
  iframe HΦ H0 H1 H2 H3 H4
  isplitl [Ho]; · iexact Ho
  iexists _; iexact H5

theorem hin2 (c : Dev nD) : Pipeline.ΦA spec2 c ⊢ (dat2 V c).Φ 0 := .rfl

theorem hout2 (c : Dev nD) : (dat2 V c).Φ (Fin.last cfg2.N) ⊢ Pipeline.ΦA spec2 c := .rfl

end Cert.Kernel.Hand

end
-- ==== Proof.K.R3a.lean ====
import proofs.«426621_j13099650253560_2_alg».proof.Proof.Gen.Kernel.Launch
import proofs.«426621_j13099650253560_2_alg».proof.Proof.Gen.Kernel.Skeleton
import proofs.«426621_j13099650253560_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond3_0 (i : grid3.Coords) : Prop :=
  (Scalar.cmpi .ne (Scalar.extui (Scalar.cmpi .eq (BitVec.ofNat 32 (i 1).val) 0#32)) 0#32) = 1#1

theorem hcond3_0 : ∀ t : Fin cfg3.N, cond3_0 (grid3.coords t) ↔ t.val % 5 = 0 :=
  (by decide +kernel : ∀ t : Fin grid3.N, cond3_0 (grid3.coords t) ↔ t.val % 5 = 0)

abbrev cond3_1 (i : grid3.Coords) : Prop := k3_cond2 i = 1#1

theorem hcond3_1 : ∀ t : Fin cfg3.N, cond3_1 (grid3.coords t) ↔ t.val % 5 = 4 :=
  (by decide +kernel : ∀ t : Fin grid3.N, cond3_1 (grid3.coords t) ↔ t.val % 5 = 4)

abbrev rK3 (i : grid3.Coords) : Rect S10240x512 := Rect.unit (s := S10240x512) (k3_off1 i) S2048x512.size (k3_off1_inb i)

abbrev rI3 (i : grid3.Coords) (h : cond3_1 i) : Rect S10240x512 := Rect.unit (s := S10240x512) (k3_off2 i) S1024x512.size (k3_off2_inb i h)

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def accStep3 (x0 : Vec F S10240x512 .bf16) (x1 : Vec F S1024x2048 .bf16) (i : grid3.Coords) (a : Vec F S1024x512 .f32) : Vec F S1024x512 .f32 :=
  k3_pay2 (View.ld x0 (rK3 i)) x1 a

def accAt3 (c : Dev nD) : (n : ℕ) → n < cfg3.N → Vec F S1024x512 .f32
  | 0, hn => accStep3 (iblk3 V c 0 ⟨0, hn⟩) (iblk3 V c 1 ⟨0, hn⟩) (grid3.coords ⟨0, hn⟩) k3_pay1
  | n + 1, hn => accStep3 (iblk3 V c 0 ⟨n + 1, hn⟩) (iblk3 V c 1 ⟨n + 1, hn⟩) (grid3.coords ⟨n + 1, hn⟩)
      (if (n + 1) % 5 = 0 then k3_pay1 else accAt3 c n (Nat.lt_of_succ_lt hn))

theorem acc3_zero (c : Dev nD) (t : Fin cfg3.N) (hk : t.val % 5 = 0) :
    accAt3 V c t.val t.isLt = accStep3 (iblk3 V c 0 t) (iblk3 V c 1 t) (grid3.coords t) k3_pay1 := by
  obtain ⟨n, hn⟩ := t
  cases n with
  | zero => rfl
  | succ n => exact (congrArg (accStep3 _ _ _) (if_pos hk))

theorem acc3_succ (c : Dev nD) (t : Fin cfg3.N) (hk : ¬t.val % 5 = 0) :
    accAt3 V c t.val t.isLt = accStep3 (iblk3 V c 0 t) (iblk3 V c 1 t) (grid3.coords t)
      (accAt3 V c (t.val - 1) (Nat.lt_of_le_of_lt (Nat.sub_le _ _) t.isLt)) := by
  obtain ⟨n, hn⟩ := t
  cases n with
  | zero => exact absurd (Nat.zero_mod _) hk
  | succ n => exact (congrArg (accStep3 _ _ _) (if_neg hk))

def outVal3 (c : Dev nD) (t : Fin cfg3.N) (h : cond3_1 (grid3.coords t)) : Vec F S1024x512 .f32 :=
  k3_pay3 (View.ld (iblk3 V c 0 t) (rI3 (grid3.coords t) h)) (accAt3 V c t.val t.isLt) (iblk3 V c 2 t)
    (iblk3 V c 3 t) (iblk3 V c 4 t) (iblk3 V c 5 t) (iblk3 V c 6 t) (iblk3 V c 7 t) (iblk3 V c 8 t)

def outAt3 (c : Dev nD) (t : Fin cfg3.N) : Vec F S1024x512 .f32 :=
  if h : cond3_1 (grid3.coords t) then outVal3 V c t h else View.canon []

abbrev scM3 : Memref sig .tc .vmem S1024x512 .f32 := Memref.whole cc3_scratch0

abbrev restBut3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop(iprop(∃ d, owns (c : Thread nD τ) scM3 fullShare d) ∗ restBut3 c) ∗ (∃ r, prngReg c r)) := by
  unfold Pipeline.ΦA; rw [scopedRest3_split]; simp only [scM3, owns_whole]; try rfl

def PhiS3 (c : Dev nD) : (n : ℕ) → n ≤ cfg3.N → sProp 𝕄
  | 0, _ => Pipeline.ΦA spec3 c
  | n + 1, hn => iprop(iprop(owns (c : Thread nD τ) scM3 fullShare (accAt3 V c n hn) ∗ restBut3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (accAt3 V c n hn) ∗ restBut3 c) ∗ (∃ r, prngReg c r)) := rfl

theorem PhiS3_pos (c : Dev nD) (n : ℕ) (h : n ≤ cfg3.N) (hz : n ≠ 0) :
    PhiS3 V c n h = iprop(iprop(owns (c : Thread nD τ) scM3 fullShare (accAt3 V c (n - 1) (by omega)) ∗ restBut3 c) ∗ (∃ r, prngReg c r)) := by
  cases n with
  | zero => exact absurd rfl hz
  | succ n => rfl

def dat3 (V : (c : Dev nD) → (b : Ref sig .tc) → Buf (Elt F) ((c : Thread nD τ).loc b)) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => outAt3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := rfl

theorem share3 (c : Dev nD) (w : Fin cfg3.W) : (dat3 V c).share w = fullShare :=
  (dat3 V c).share_full (fun _ => rfl) w

theorem owed3 (c : Dev nD) (t : Fin (cfg3.N + 1)) : (dat3 V c).owed t = 0 := rfl

theorem recorded3 (c : Dev nD) (t : Fin (cfg3.N + 1)) : (dat3 V c).recorded t = Set.univ := rfl

theorem after3_9 (c : Dev nD) (t : Fin cfg3.N) (hk : t.val % 5 = 4) :
    (dat3 V c).after 9 t = outVal3 V c t ((hcond3_1 t).mpr hk) := dif_pos _

theorem PhiS3_castSucc (c : Dev nD) (t : Fin cfg3.N) :
    (dat3 V c).Φ t.castSucc = PhiS3 V c t.val (Nat.le_of_lt t.isLt) := by
  dsimp only [dat3]; simp only [Fin.coe_castSucc]

theorem hin3 (c : Dev nD) : Pipeline.ΦA spec3 c ⊢ (dat3 V c).Φ 0 := .rfl

theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HR⟩, Hg⟩
  iframe
  iexists _; iexact HS0

theorem hout3 (c : Dev nD) : (dat3 V c).Φ (Fin.last cfg3.N) ⊢ Pipeline.ΦA spec3 c :=
  Phi_out3 V c _ (by rw [Fin.val_last]; have : cfg3.N = 50 := N_3; omega)

end Cert.Kernel.Hand

end
-- ==== Proof.K.R3.lean ====
import proofs.«426621_j13099650253560_2_alg».proof.Proof.K.R3a
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem idleAt3_9 : ∀ t : Fin cfg3.N, ¬cond3_1 (grid3.coords t) → cfg3.idle 9 (grid3.coords t) = true := by decide +kernel
theorem noFlush3_9 : ∀ t : Fin cfg3.N, ¬cond3_1 (grid3.coords t) → (cfg3.win 9).flush t = false := by decide +kernel
theorem liveAt3_9 : ∀ t : Fin cfg3.N, cond3_1 (grid3.coords t) → cfg3.idle 9 (grid3.coords t) = false := by decide +kernel

theorem before3 (c : Dev nD) : ∀ w : Fin cfg3.W, w.val < 9 → ∀ (t : Fin cfg3.N) (d), (dat3 V c).before w t d = (dat3 V c).after w t
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ =>
    (dat3 V c).before_in_eq_fetched _ rfl (fun _ => rfl) (fun _ _ _ => rfl) (fun _ => rfl)
  | ⟨9, _⟩, h => absurd h (Nat.lt_irrefl 9)

theorem leaves3 (c : Dev nD) : ∀ w : Fin cfg3.W, w.val < 9 → ∀ t : Fin cfg3.N,
    (dat3 V c).leavesExact w t = owns (c : Thread nD τ) ((cfg3.win w).stage (cfg3.slots t w)) fullShare ((dat3 V c).after w t)
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ => fun _ => rfl
  | ⟨9, _⟩, h => absurd h (Nat.lt_irrefl 9)

theorem zeros2 : (![0, 0] : Fin 2 → ℕ) = fun _ => 0 := funext fun a => by fin_cases a <;> rfl

-- A store through the whole rectangle, last, covers every index whatever was stored before.
theorem coverAcc3 (w : Vec F S1024x512 .f32) (L : List (View.Piece (Elt F) S1024x512 .f32)) (y : S1024x512.Idx) :
    ∃ pc ∈ ((⟨Rect.unit (s := S1024x512) ![0, 0] S1024x512.size inb_S1024x512_S1024x512_0_0, w⟩ : View.Piece (Elt F) S1024x512 .f32) :: L), y ∈ pc.1.set :=
  ⟨_, List.mem_cons_self, View.mem_set_unit_zero zeros2 inb_S1024x512_S1024x512_0_0 y⟩

section Body
variable (c : Dev nD) (i : grid3.Coords) (arg2 : Memref sig .tc .vmem S10240x512 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x256 .f32) (harg8 : arg8.IsWhole) (arg9 : Memref sig .tc .vmem S256x512 .bf16) (harg9 : arg9.IsWhole) (arg10 : Memref sig .tc .vmem S1x512 .f32) (harg10 : arg10.IsWhole) (arg11 : Memref sig .tc .vmem S1024x512 .f32) (harg11 : arg11.IsWhole) (arg12 : Memref sig .tc .vmem S1024x512 .f32) (harg12 : arg12.IsWhole)
  (x0 : Vec F S10240x512 .bf16) (x1 : Vec F S1024x2048 .bf16) (x2 : Vec F S1024x1 .f32) (x3 : Vec F S512x512 .bf16) (x4 : Vec F S512x512 .bf16) (x5 : Vec F S1x512 .f32) (x6 : Vec F S1024x256 .f32) (x7 : Vec F S256x512 .bf16) (x8 : Vec F S1x512 .f32) (xs : Vec F S1024x512 .f32)

-- A first column tile overwrites the accumulator with zero before accumulating, so what it held does not matter.
theorem run3_A (hc0 : cond3_0 i) (hc1 : ¬cond3_1 i) (E : Set ℕ) (K : PUnit → sProp 𝕄) :
    iprop(owns (c : Thread nD τ) arg2 fullShare x0 ∗ owns (c : Thread nD τ) arg3 fullShare x1 ∗ (∃ d, owns (c : Thread nD τ) arg12 fullShare d)
        ∗ (iprop(owns (c : Thread nD τ) arg2 fullShare x0 ∗ owns (c : Thread nD τ) arg3 fullShare x1 ∗ owns (c : Thread nD τ) arg12 fullShare (accStep3 x0 x1 i k3_pay1)) -∗ K ⟨⟩))
      ⊢ wp frame (wpE (defs₀ (F := F)) Variants.none c none) E (cc3__sage_conv_shortcut_kernel i arg2 harg2 arg3 harg3 arg4 harg4 arg5 harg5 arg6 harg6 arg7 harg7 arg8 harg8 arg9 harg9 arg10 harg10 arg11 harg11 arg12 harg12) K := by
  simp only [cc3__sage_conv_shortcut_kernel_eq_skeleton, owns_eq_rep]; unfold cc3__sage_conv_shortcut_kernel_skel
  iintro ⟨H0, H1, ⟨%ds, HS⟩, Hk⟩
  sl_exec (disch := first | exact hc0 | exact hc1)
  sl_step
  iapply Hk
  iframe H0 H1
  rw [← owns_eq_rep]; unfold owns
  iexists _; isplitr
  swap; · iexact HS
  ipureintro
  sl_unfold_run_names
  rw [View.read_writes_eq_canon _ _ _ (coverAcc3 _ _), View.canon_cons_unit_zero zeros2]
  unfold accStep3
  simp only [View.readAt_eq_ld, View.read_rep, View.ld_unit_zero (S := S1024x2048) zeros2, View.ld_unit_zero (S := S1024x512) zeros2, View.readCov_unit_zero (S := S1024x512) _ zeros2]
  try rfl

-- A middle column tile accumulates onto what the accumulator held.
theorem run3_B (hc0 : ¬cond3_0 i) (hc1 : ¬cond3_1 i) (E : Set ℕ) (K : PUnit → sProp 𝕄) :
    iprop(owns (c : Thread nD τ) arg2 fullShare x0 ∗ owns (c : Thread nD τ) arg3 fullShare x1 ∗ owns (c : Thread nD τ) arg12 fullShare xs
        ∗ (iprop(owns (c : Thread nD τ) arg2 fullShare x0 ∗ owns (c : Thread nD τ) arg3 fullShare x1 ∗ owns (c : Thread nD τ) arg12 fullShare (accStep3 x0 x1 i xs)) -∗ K ⟨⟩))
      ⊢ wp frame (wpE (defs₀ (F := F)) Variants.none c none) E (cc3__sage_conv_shortcut_kernel i arg2 harg2 arg3 harg3 arg4 harg4 arg5 harg5 arg6 harg6 arg7 harg7 arg8 harg8 arg9 harg9 arg10 harg10 arg11 harg11 arg12 harg12) K := by
  simp only [cc3__sage_conv_shortcut_kernel_eq_skeleton, owns_eq_rep]; unfold cc3__sage_conv_shortcut_kernel_skel
  iintro ⟨H0, H1, HS, Hk⟩
  sl_exec (disch := first | exact hc0 | exact hc1)
  sl_step
  iapply Hk
  iframe H0 H1
  rw [← owns_eq_rep]; unfold owns
  iexists _; isplitr
  swap; · iexact HS
  ipureintro
  sl_unfold_run_names
  rw [View.read_writes_eq_canon _ _ _ (coverAcc3 _ _), View.canon_unit_zero zeros2]
  unfold accStep3
  simp only [View.readAt_eq_ld, View.read_rep, View.ld_unit_zero (S := S1024x2048) zeros2, View.ld_unit_zero (S := S1024x512) zeros2]
  try rfl

-- A last column tile accumulates likewise, and its epilogue reads that accumulation back and stores over the whole output block.
theorem run3_C (hc0 : ¬cond3_0 i) (hc1 : cond3_1 i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
        ∗ (∃ d, owns (c : Thread nD τ) arg11 fullShare d) ∗ owns (c : Thread nD τ) arg12 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ owns (c : Thread nD τ) arg11 fullShare (k3_pay3 (View.ld x0 (rI3 i hc1)) (accStep3 x0 x1 i xs) x2 x3 x4 x5 x6 x7 x8)
            ∗ owns (c : Thread nD τ) arg12 fullShare (accStep3 x0 x1 i xs)) -∗ K ⟨⟩))
      ⊢ wp frame (wpE (defs₀ (F := F)) Variants.none c none) E (cc3__sage_conv_shortcut_kernel i arg2 harg2 arg3 harg3 arg4 harg4 arg5 harg5 arg6 harg6 arg7 harg7 arg8 harg8 arg9 harg9 arg10 harg10 arg11 harg11 arg12 harg12) K := by
  simp only [cc3__sage_conv_shortcut_kernel_eq_skeleton, owns_eq_rep]; unfold cc3__sage_conv_shortcut_kernel_skel
  iintro ⟨H0, H1, H2, H3, H4, H5, H6, H7, H8, ⟨%d9, H9⟩, HS, Hk⟩
  sl_exec (disch := first | exact hc0 | exact hc1)
  sl_step
  iapply Hk
  iframe H0 H1 H2 H3 H4 H5 H6 H7 H8
  rw [← owns_eq_rep, ← owns_eq_rep]; unfold owns
  isplitl [H9]
  · iexists _; isplitr
    swap; · iexact H9
    ipureintro
    sl_unfold_run_names
    rw [View.read_writes_eq_canon _ _ _ (coverAcc3 _ _), View.canon_unit_zero zeros2]
    unfold accStep3
    simp only [View.readAt_eq_ld, View.read_rep, View.ld_unit_zero (S := S1024x2048) zeros2, View.ld_unit_zero (S := S1024x512) zeros2, View.ld_unit_zero (S := S1024x1) zeros2, View.ld_unit_zero (S := S512x512) zeros2, View.ld_unit_zero (S := S1x512) zeros2, View.ld_unit_zero (S := S1024x256) zeros2, View.ld_unit_zero (S := S256x512) zeros2, View.readCov_unit_zero (S := S1024x512) _ zeros2]
    try rfl
  iexists _; isplitr
  swap; · iexact HS
  ipureintro
  sl_unfold_run_names
  rw [View.read_writes_eq_canon _ _ _ (coverAcc3 _ _), View.canon_unit_zero zeros2]
  unfold accStep3
  simp only [View.readAt_eq_ld, View.read_rep, View.ld_unit_zero (S := S1024x2048) zeros2, View.ld_unit_zero (S := S1024x512) zeros2]
  try rfl

end Body

theorem Phi_any3 (c : Dev nD) (t : Fin (cfg3.N + 1)) : (dat3 V c).Φ t ⊢ Pipeline.ΦA spec3 c := by
  by_cases ht : t.val = 0
  · rw [show (dat3 V c).Φ t = PhiS3 V c t.val (Nat.le_of_lt_succ t.isLt) from rfl, PhiS3_zero V c _ _ ht]
    try exact Idealize.SL.BI.Entails.refl _
  · exact Phi_out3 V c t ht

theorem sound_body3 (c : Dev nD) (t : Fin cfg3.N) :
    iprop((dat3 V c).Φ t.castSucc ∗ (dat3 V c).owesAt () t.castSucc
        ∗ bigSep Finset.univ fun w : Fin cfg3.W => iprop(∃ d, owns (c : Thread nD τ) ((cfg3.win w).stage (cfg3.slots t w)) fullShare ((dat3 V c).before w t d)))
      ⊢ wp frame (wpE (defs₀ (F := F)) Variants.none c none) Set.univ (bodyAt3 t) fun _ =>
        iprop((dat3 V c).Φ t.succ ∗ (dat3 V c).owesAt () t.succ ∗ bigSep Finset.univ fun w : Fin cfg3.W => (dat3 V c).leavesExact w t) := by
  rw [bigSep_W3, bigSep_W3]
  unfold bodyAt3
  simp (disch := decide) only [before3, leaves3]
  rw [show (dat3 V c).owesAt () t.succ = (dat3 V c).owesAt () t.castSucc from rfl]
  rw [show (dat3 V c).Φ t.succ = PhiS3 V c (t.val + 1) t.isLt from rfl, PhiS3_succ]
  by_cases h0 : t.val % 5 = 0
  · have hc0 : cond3_0 (grid3.coords t) := (hcond3_0 t).mpr h0
    have hc1 : ¬cond3_1 (grid3.coords t) := fun h => by have := (hcond3_1 t).mp h; omega
    rw [Dat.leavesExact_idle (dat3 V c) 9 t (idleAt3_9 t hc1) (noFlush3_9 t hc1), acc3_zero V c t h0]
    refine (sep_mono_left (Phi_any3 V c t.castSucc)).trans ?_
    rw [PhiA3_eq]
    iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run3_A c (grid3.coords t) _ _ _ _ _ _ _ _ _ _ _ _ _ _ _ _ _ _ _ _ _ _ _ _ hc0 hc1 Set.univ _)
    isplitl [H0]; · iexact H0
    isplitl [H1]; · iexact H1
    isplitl [HS]; · iexists _; iexact HS
    iintro ⟨H0, H1, HS⟩
    iframe
    isplitl [HS]; · iexact HS
    iexists _; iexact H9
  · have hz : t.val ≠ 0 := fun e => h0 (by rw [e])
    have hc0 : ¬cond3_0 (grid3.coords t) := fun h => h0 ((hcond3_0 t).mp h)
    rw [acc3_succ V c t h0, PhiS3_castSucc V c t, PhiS3_pos V c _ _ hz]
    by_cases h1 : t.val % 5 = 4
    · have hc1 : cond3_1 (grid3.coords t) := (hcond3_1 t).mpr h1
      rw [show (dat3 V c).leavesExact 9 t = owns (c : Thread nD τ) (st3_9 t) fullShare ((dat3 V c).after 9 t) from by
        unfold Dat.leavesExact; rw [liveAt3_9 t hc1], after3_9 V c t h1]
      unfold outVal3
      rw [acc3_succ V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run3_C c (grid3.coords t) _ _ _ _ _ _ _ _ _ _ _ _ _ _ _ _ _ _ _ _ _ _ _ _ _ _ _ _ _ _ _ _ hc0 hc1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS]; · iexact HS
      iintro ⟨H0, H1, H2, H3, H4, H5, H6, H7, H8, H9, HS⟩
      iframe
      isplitl [HS]; · iexact HS
      iexact H9
    · have hc1 : ¬cond3_1 (grid3.coords t) := fun h => h1 ((hcond3_1 t).mp h)
      rw [Dat.leavesExact_idle (dat3 V c) 9 t (idleAt3_9 t hc1) (noFlush3_9 t hc1)]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run3_B c (grid3.coords t) _ _ _ _ _ _ _ _ _ _ _ _ _ _ _ _ _ _ _ _ _ _ _ _ _ hc0 hc1 Set.univ _)
      isplitl [H0]; · iexact H0
      isplitl [H1]; · iexact H1
      isplitl [HS]; · iexact HS
      iintro ⟨H0, H1, HS⟩
      iframe
      isplitl [HS]; · iexact HS
      iexists _; iexact H9

theorem body_obligation3 (c : Dev nD) : BodyObligation (dat3 (F := F) V c) (defs₀ (F := F)) Variants.none () Set.univ := fun t => by
  exact sound_body3 V c t

end Cert.Kernel.Hand

end
-- ==== Proof.K.RunFold.lean ====
import proofs.«426621_j13099650253560_2_alg».proof.Proof.K.R0
import proofs.«426621_j13099650253560_2_alg».proof.Proof.K.R1a
import proofs.«426621_j13099650253560_2_alg».proof.Proof.K.R2
import proofs.«426621_j13099650253560_2_alg».proof.Proof.K.R3a
import proofs.«426621_j13099650253560_2_alg».proof.Proof.Gen.Kernel.Regions

noncomputable section

namespace Cert.Kernel.Hand

open Cert.Kernel Cert.Kernel.Gen
open Idealize.ShloMosaic Idealize.ShloMosaic.TcCoe Idealize.ShloMosaic.Rounds
open Idealize.ShloMosaic.Pipeline (Dat Cfg)

variable {F : FTy → Type} [FloatOps F]

variable (m : (ℓ : Loc nD τ sig) → Buf (Elt F) ℓ) (ρ : Dev nD → PrngReg)

section Exit

variable {cfg : Cfg sig Λ₀} (W : Dev nD → Valuation τ sig (Elt F))
  (dat : (c : Dev nD) → Dat τ (Elt F) Unit ℕ (UR sig nD τ) ℕ cfg c) (c : Dev nD)

def exitOf : Valuation τ sig (Elt F) := Pipeline.withArrays cfg.spec c (W c) fun w => (dat c).arrAt w cfg.N

variable (hinj : Function.Injective (Pipeline.arrRef cfg.spec))
include hinj in
theorem exitOf_arr (w : Fin cfg.W) :
    exitOf W dat c (Proc.devRef .tc (Pipeline.arrRef cfg.spec w)) = (dat c).arrAt w cfg.N :=
  Pipeline.withArrays_arr _ hinj c _ _ w

theorem exitOf_of_ne (b : Ref sig .tc) (hb : ∀ w, Pipeline.arrRef cfg.spec w ≠ b) :
    exitOf W dat c (Proc.devRef .tc b) = W c (Proc.devRef .tc b) :=
  Pipeline.withArrays_of_ne _ c _ _ b hb

include hinj in
theorem exitOf_in (hA : ∀ w, (dat c).A w = W c (Proc.devRef .tc (Pipeline.arrRef cfg.spec w))) (w : Fin cfg.W)
    (hw : (cfg.win w).isOut = false) :
    exitOf W dat c (Proc.devRef .tc (Pipeline.arrRef cfg.spec w)) = W c (Proc.devRef .tc (Pipeline.arrRef cfg.spec w)) :=
  (exitOf_arr W dat c hinj w).trans (((dat c).arrAt_in w hw _).trans (hA w))

end Exit

variable (c : Dev nD) (r : Ref sig .tc)

abbrev W0 : Dev nD → Valuation τ sig (Elt F) := fun c b => m ((c : Dev nD), b)
abbrev W1 : Dev nD → Valuation τ sig (Elt F) := fun c => StableHlo.after hostOps0 (W0 m c)
theorem W1_of (h : r ∉ hostOps0_W) : W1 m c (Proc.devRef .tc r) = W0 m c (Proc.devRef .tc r) :=
  StableHlo.after_of_writes_sub hostOps0 _ hostOps0_writes h
abbrev W2 : Dev nD → Valuation τ sig (Elt F) := fun c => StableHlo.after hostOps0_1 (W1 m c)
theorem W2_of (h : r ∉ hostOps0_1_W) : W2 m c (Proc.devRef .tc r) = W1 m c (Proc.devRef .tc r) :=
  StableHlo.after_of_writes_sub hostOps0_1 _ hostOps0_1_writes h
abbrev W3 : Dev nD → Valuation τ sig (Elt F) := fun c => StableHlo.after hostOps0_2 (W2 m c)
theorem W3_of (h : r ∉ hostOps0_2_W) : W3 m c (Proc.devRef .tc r) = W2 m c (Proc.devRef .tc r) :=
  StableHlo.after_of_writes_sub hostOps0_2 _ hostOps0_2_writes h
abbrev W4 : Dev nD → Valuation τ sig (Elt F) := fun c => StableHlo.after hostOps0_3 (W3 m c)
theorem W4_of (h : r ∉ hostOps0_3_W) : W4 m c (Proc.devRef .tc r) = W3 m c (Proc.devRef .tc r) :=
  StableHlo.after_of_writes_sub hostOps0_3 _ hostOps0_3_writes h
abbrev W5 : Dev nD → Valuation τ sig (Elt F) := fun c => StableHlo.after hostOps0_4 (W4 m c)
theorem W5_of (h : r ∉ hostOps0_4_W) : W5 m c (Proc.devRef .tc r) = W4 m c (Proc.devRef .tc r) :=
  StableHlo.after_of_writes_sub hostOps0_4 _ hostOps0_4_writes h
abbrev W6 : Dev nD → Valuation τ sig (Elt F) := fun c => StableHlo.after hostOps0_5 (W5 m c)
theorem W6_of (h : r ∉ hostOps0_5_W) : W6 m c (Proc.devRef .tc r) = W5 m c (Proc.devRef .tc r) :=
  StableHlo.after_of_writes_sub hostOps0_5 _ hostOps0_5_writes h
abbrev W7 : Dev nD → Valuation τ sig (Elt F) := fun c => StableHlo.after hostOps0_6 (W6 m c)
theorem W7_of (h : r ∉ hostOps0_6_W) : W7 m c (Proc.devRef .tc r) = W6 m c (Proc.devRef .tc r) :=
  StableHlo.after_of_writes_sub hostOps0_6 _ hostOps0_6_writes h
abbrev W8 : Dev nD → Valuation τ sig (Elt F) := fun c => StableHlo.after hostOps0_7 (W7 m c)
theorem W8_of (h : r ∉ hostOps0_7_W) : W8 m c (Proc.devRef .tc r) = W7 m c (Proc.devRef .tc r) :=
  StableHlo.after_of_writes_sub hostOps0_7 _ hostOps0_7_writes h
abbrev W9 : Dev nD → Valuation τ sig (Elt F) := fun c => StableHlo.after hostOps0_8 (W8 m c)
theorem W9_of (h : r ∉ hostOps0_8_W) : W9 m c (Proc.devRef .tc r) = W8 m c (Proc.devRef .tc r) :=
  StableHlo.after_of_writes_sub hostOps0_8 _ hostOps0_8_writes h
abbrev Vin0 : (c : Dev nD) → (b : Ref sig .tc) → Buf (Elt F) ((c : Thread nD τ).loc b) := fun c b => W9 m c b
def W10 : Valuation τ sig (Elt F) := exitOf (W9 m) (dat0 (Vin0 m)) c
theorem W10_of_ne (b : Ref sig .tc) (hb : ∀ w, Pipeline.arrRef spec0 w ≠ b) :
    W10 m c (Proc.devRef .tc b) = W9 m c (Proc.devRef .tc b) :=
  exitOf_of_ne _ _ c b hb
theorem W10_out : W10 m c (Proc.devRef .tc main_v42) = (dat0 (Vin0 m) c).arrAt 5 cfg0.N :=
  exitOf_arr _ _ c launch0.win.arr_inj 5
theorem W10_in (w : Fin cfg0.W) (hw : (cfg0.win w).isOut = false) :
    W10 m c (Proc.devRef .tc (Pipeline.arrRef spec0 w)) = W9 m c (Proc.devRef .tc (Pipeline.arrRef spec0 w)) :=
  exitOf_in _ _ c launch0.win.arr_inj (A_eq0 _ c) w hw
abbrev W11 : Dev nD → Valuation τ sig (Elt F) := fun c => StableHlo.after hostOps1 (W10 m c)
theorem W11_of (h : r ∉ hostOps1_W) : W11 m c (Proc.devRef .tc r) = W10 m c (Proc.devRef .tc r) :=
  StableHlo.after_of_writes_sub hostOps1 _ hostOps1_writes h
abbrev Vin1 : (c : Dev nD) → (b : Ref sig .tc) → Buf (Elt F) ((c : Thread nD τ).loc b) := fun c b => W11 m c b
def W12 : Valuation τ sig (Elt F) := exitOf (W11 m) (dat1 (Vin1 m)) c
theorem W12_of_ne (b : Ref sig .tc) (hb : ∀ w, Pipeline.arrRef spec1 w ≠ b) :
    W12 m c (Proc.devRef .tc b) = W11 m c (Proc.devRef .tc b) :=
  exitOf_of_ne _ _ c b hb
theorem W12_out : W12 m c (Proc.devRef .tc main_v45) = (dat1 (Vin1 m) c).arrAt 6 cfg1.N :=
  exitOf_arr _ _ c launch1.win.arr_inj 6
theorem W12_in (w : Fin cfg1.W) (hw : (cfg1.win w).isOut = false) :
    W12 m c (Proc.devRef .tc (Pipeline.arrRef spec1 w)) = W11 m c (Proc.devRef .tc (Pipeline.arrRef spec1 w)) :=
  exitOf_in _ _ c launch1.win.arr_inj (A_eq1 _ c) w hw
abbrev W13 : Dev nD → Valuation τ sig (Elt F) := fun c => StableHlo.after hostOps2 (W12 m c)
theorem W13_of (h : r ∉ hostOps2_W) : W13 m c (Proc.devRef .tc r) = W12 m c (Proc.devRef .tc r) :=
  StableHlo.after_of_writes_sub hostOps2 _ hostOps2_writes h
abbrev W14 : Dev nD → Valuation τ sig (Elt F) := fun c => StableHlo.after hostOps2_1 (W13 m c)
theorem W14_of (h : r ∉ hostOps2_1_W) : W14 m c (Proc.devRef .tc r) = W13 m c (Proc.devRef .tc r) :=
  StableHlo.after_of_writes_sub hostOps2_1 _ hostOps2_1_writes h
abbrev W15 : Dev nD → Valuation τ sig (Elt F) := fun c => StableHlo.after hostOps2_2 (W14 m c)
theorem W15_of (h : r ∉ hostOps2_2_W) : W15 m c (Proc.devRef .tc r) = W14 m c (Proc.devRef .tc r) :=
  StableHlo.after_of_writes_sub hostOps2_2 _ hostOps2_2_writes h
abbrev Vin2 : (c : Dev nD) → (b : Ref sig .tc) → Buf (Elt F) ((c : Thread nD τ).loc b) := fun c b => W15 m c b
def W16 : Valuation τ sig (Elt F) := exitOf (W15 m) (dat2 (Vin2 m)) c
theorem W16_of_ne (b : Ref sig .tc) (hb : ∀ w, Pipeline.arrRef spec2 w ≠ b) :
    W16 m c (Proc.devRef .tc b) = W15 m c (Proc.devRef .tc b) :=
  exitOf_of_ne _ _ c b hb
theorem W16_out : W16 m c (Proc.devRef .tc main_v57) = (dat2 (Vin2 m) c).arrAt 5 cfg2.N :=
  exitOf_arr _ _ c launch2.win.arr_inj 5
abbrev W17 : Dev nD → Valuation τ sig (Elt F) := fun c => StableHlo.after hostOps3 (W16 m c)
theorem W17_of (h : r ∉ hostOps3_W) : W17 m c (Proc.devRef .tc r) = W16 m c (Proc.devRef .tc r) :=
  StableHlo.after_of_writes_sub hostOps3 _ hostOps3_writes h
abbrev Vin3 : (c : Dev nD) → (b : Ref sig .tc) → Buf (Elt F) ((c : Thread nD τ).loc b) := fun c b => W17 m c b
def W18 : Valuation τ sig (Elt F) := exitOf (W17 m) (dat3 (Vin3 m)) c
theorem W18_of_ne (b : Ref sig .tc) (hb : ∀ w, Pipeline.arrRef spec3 w ≠ b) :
    W18 m c (Proc.devRef .tc b) = W17 m c (Proc.devRef .tc b) :=
  exitOf_of_ne _ _ c b hb
theorem W18_out : W18 m c (Proc.devRef .tc main_v61) = (dat3 (Vin3 m) c).arrAt 9 cfg3.N :=
  exitOf_arr _ _ c launch3.win.arr_inj 9
abbrev W19 : Dev nD → Valuation τ sig (Elt F) := fun c => StableHlo.after hostOps4 (W18 m c)

def Wfin (ρ : Dev nD → PrngReg) (c : Dev nD) : Valuation τ sig (Elt F) := W19 m c

abbrev mainArgs : List (Ref sig .tc) :=
  [main_arg0, main_arg1, main_arg2, main_arg3, main_arg4, main_arg5, main_arg6, main_arg7, main_arg8, main_arg9, main_arg10, main_arg11, main_arg12, main_arg13]

/-- No host stretch writes an argument and none is a window's array of a region, so the fold at it walks back to the launch memory. -/
theorem Wfin_arg (hr : r ∈ mainArgs) : Wfin m ρ c (Proc.devRef .tc r) = m ((c : Thread nD τ).loc r) := by
  refine (StableHlo.after_of_writes_sub hostOps4 _ hostOps4_writes ?_).trans <|
    (W18_of_ne m c r ?_).trans <|
    (W17_of m c r ?_).trans <|
    (W16_of_ne m c r ?_).trans <|
    (W15_of m c r ?_).trans <|
    (W14_of m c r ?_).trans <|
    (W13_of m c r ?_).trans <|
    (W12_of_ne m c r ?_).trans <|
    (W11_of m c r ?_).trans <|
    (W10_of_ne m c r ?_).trans <|
    (W9_of m c r ?_).trans <|
    (W8_of m c r ?_).trans <|
    (W7_of m c r ?_).trans <|
    (W6_of m c r ?_).trans <|
    (W5_of m c r ?_).trans <|
    (W4_of m c r ?_).trans <|
    (W3_of m c r ?_).trans <|
    (W2_of m c r ?_).trans <|
    (W1_of m c r ?_).trans rfl
  all_goals revert r; decide

end Cert.Kernel.Hand

end
-- ==== Proof.K.Run.lean ====
import proofs.«426621_j13099650253560_2_alg».proof.Proof.K.R0
import proofs.«426621_j13099650253560_2_alg».proof.Proof.K.R1
import proofs.«426621_j13099650253560_2_alg».proof.Proof.K.R2
import proofs.«426621_j13099650253560_2_alg».proof.Proof.K.R3
import proofs.«426621_j13099650253560_2_alg».proof.Proof.Gen.Kernel.Regions
import proofs.«426621_j13099650253560_2_alg».proof.Proof.K.RunFold

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 4) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev T (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W19 m c) ∗ ∃ r, prngReg c r)

section Owes
variable {cfg : Pipeline.Cfg sig Λ₀} {c : Dev nD} (dat : Dat τ (Elt F) Unit ℕ (UR sig nD τ) ℕ cfg c) (t : Fin (cfg.N + 1))
  (h0 : dat.owed t = 0)
include h0

theorem owesAt_intro (hr : dat.recorded t = Set.univ) :
    iprop(∃ W, owes (c : Thread nD τ) (0 : CellTallies nD τ sig Unit) W) ⊢ (dat.owesAt () t : sProp 𝕄) := by
  unfold Pipeline.Dat.owesAt Pipeline.owesWithin Pipeline.Dat.bound
  rw [h0, hr]
  iintro ⟨%W, HO⟩
  iexists W
  isplitr; · ipureintro; exact fun _ _ => Or.inl trivial
  iexact HO
theorem owesAt_elim :
    (dat.owesAt () t : sProp 𝕄) ⊢ iprop(∃ W, owes (c : Thread nD τ) (0 : CellTallies nD τ sig Unit) W) := by
  unfold Pipeline.Dat.owesAt Pipeline.owesWithin
  rw [h0]
  iintro ⟨%W, -, HO⟩
  iexists W
  iexact HO
end Owes

set_option backward.isDefEq.respectTransparency.types false in
def reg (p : Fin 4) (W : Dev nD → Valuation τ sig (Elt F)) (launch : Pipeline.LaunchFacts (nD := nD) (τ := τ) cfgs p)
    (hbody : ∀ c, BodyObligation (pdats m p c) (defs₀ (F := F)) Variants.none () Set.univ)
    (hA : ∀ c w, (pdats m p c).A w = W c (Proc.devRef .tc (Pipeline.arrRef (cfgs p).spec w)))
    (hshare : ∀ c w, (pdats m p c).share w = fullShare)
    (howed : ∀ c t, (pdats m p c).owed t = 0)
    (hrec : ∀ c t, (pdats m p c).recorded t = Set.univ)
    (hin : ∀ c, Pipeline.ΦA (cfgs p).spec c ⊢ (pdats m p c).Φ 0)
    (hout : ∀ c, (pdats m p c).Φ (Fin.last (cfgs p).N) ⊢ Pipeline.ΦA (cfgs p).spec c) :
    Pipeline.RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre := T W
  post := T (exitOf W (pdats m p))
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]
    have hsplit := Pipeline.arrays_of_unscopedBufs (pcfgs (F := F)) adm (pdats m) launch.win launch.arr_whole c
      (hshare c) (fun b => W c b) (hA c)
    rw [Pipeline.unscopedBufs_held] at hsplit
    have howes := owesAt_intro (pdats m p c) 0 (howed c 0) (hrec c 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply howes; iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (pcfgs (F := F)) adm launch.win launch.arr_whole c (pdats m) (hshare c) (fun b => W c b) (fun b => exitOf W (pdats m p) c b)
      ((pdats m p c).arrAt · (cfgs p).N) (fun w => (exitOf_arr W (pdats m p) c launch.win.arr_inj w).symm)
      fun b hb => exitOf_of_ne W (pdats m p) c b fun w e => hb (Finset.mem_image.mpr ⟨w, Finset.mem_univ _, e⟩)
    rw [Pipeline.unscopedBufs_held] at hjoin
    have howes := owesAt_elim (pdats m p c) (Fin.last (cfgs p).N) (howed c _)
    iintro ⟨Ha, HO, HY, Hrest⟩
    imodintro
    isplitl [Ha Hrest]
    · iapply hjoin; isplitl [Ha] <;> iassumption
    isplitl [HY]; · iexact HY
    iapply howes; iexact HO

abbrev reg0 := reg m 0 (W9 m) launch0 (body_obligation0 _) (A_eq0 _) (share0 _) (owed0 _) (recorded0 _) (hin0 _) (hout0 _)
abbrev reg1 := reg m 1 (W11 m) launch1 (body_obligation1 _) (A_eq1 _) (share1 _) (owed1 _) (recorded1 _) (hin1 _) (hout1 _)
abbrev reg2 := reg m 2 (W15 m) launch2 (body_obligation2 _) (A_eq2 _) (share2 _) (owed2 _) (recorded2 _) (hin2 _) (hout2 _)
abbrev reg3 := reg m 3 (W17 m) launch3 (body_obligation3 _) (A_eq3 _) (share3 _) (owed3 _) (recorded3 _) (hin3 _) (hout3 _)

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .host (hseg hostOps0_7 hostOps0_7_sub hostOps0_7_fresh (W7 m)),
    .host (hseg hostOps0_8 hostOps0_8_sub hostOps0_8_fresh (W8 m)),
    .region (reg0 m),
    .host (hseg hostOps1 hostOps1_sub hostOps1_fresh (W10 m)),
    .region (reg1 m),
    .host (hseg hostOps2 hostOps2_sub hostOps2_fresh (W12 m)),
    .host (hseg hostOps2_1 hostOps2_1_sub hostOps2_1_fresh (W13 m)),
    .host (hseg hostOps2_2 hostOps2_2_sub hostOps2_2_fresh (W14 m)),
    .region (reg2 m),
    .host (hseg hostOps3 hostOps3_sub hostOps3_fresh (W16 m)),
    .region (reg3 m),
    .host (hseg hostOps4 hostOps4_sub hostOps4_fresh (W18 m)) ]

theorem main_run (c : Dev nD) : main (F := F) c = Pipeline.Seg.run (segs m) :=
  (main_chain c).trans (Pipeline.Seg.run_eq_chain (segs m)).symm

theorem last_state (c : Dev nD) :
    T (W19 m) c ⊢ (iprop(Tₙ m c ∗ ∃ W, owes (c : Thread nD τ) (0 : CellTallies nD τ sig Unit) W) : sProp 𝕄) := by
  iintro ⟨Hh, Hp, HO⟩
  isplitl [Hh Hp]
  · isplitl [Hh] <;> iassumption
  iexact HO

set_option backward.isDefEq.respectTransparency.types false in
theorem run_main : θ_run defs (onTc (τ := τ) (main (F := F))) ⟨m, fun _ => 0, ρ⟩
    (fun r => ∀ c : Dev nD, ∀ b ∈ Pipeline.ucRefs τ sig, r.2.mem ((c : Thread nD τ).1, b) = Wfin m ρ c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, last_state m⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m c b)
    (hfin := fun c s' => by
      iintro ⟨⟨Hh, -⟩, HSI⟩
      unfold StableHlo.held
      imodintro
      iapply (pointsTo_read_all (Pipeline.ucRefs τ sig) (fun b => (((c : Thread nD τ)).1, b)) (W19 m c) s')
      isplitl [Hh] <;> iassumption)
    (hQ := fun s h => h)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => by
    and_intros <;> exact (h c _ (mem_uc _ (by decide))).trans (Wfin_arg m ρ c _ (by decide))) (run_main m ρ)

end Cert.Kernel.Hand

end
-- ==== Proof.KI.R0.lean ====
import proofs.«426621_j13099650253560_2_alg».proof.Proof.Gen.KernelIdeal.Launch
import proofs.«426621_j13099650253560_2_alg».proof.Proof.Gen.KernelIdeal.Skeleton
import proofs.«426621_j13099650253560_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rr0 : Rect S1x256 := Rect.unit (s := S1x256) ![0, 0] S1x256.size inb_S1x256_S1x256_0_0
abbrev rb0 : Rect S1024x256 := Rect.unit (s := S1024x256) ![0, 0] S1024x256.size inb_S1024x256_S1024x256_0_0

def out0_5 (x0 : Vec F S1024x256 .f32) (x1 x2 x3 x4 : Vec F S1x256 .f32) : Vec F S1024x256 .bf16 :=
  View.canon [⟨rb0, k0_pay1 (View.ld x1 rr0) (View.ld x2 rr0) (View.ld x3 rr0) (View.ld x4 rr0) (View.ld x0 rb0)⟩]

-- The body reads each input whole and writes the output whole once, so what it leaves is a function of the inputs alone.
theorem sound_kernel0 (c : Dev nD) (t : Fin cfg0.N) (x0 : Vec F S1024x256 .f32) (x1 x2 x3 x4 : Vec F S1x256 .f32) (R₁ R₂ : sProp 𝕄) :
    iprop(R₁ ∗ R₂ ∗ owns c (st0_0 t) fullShare x0 ∗ owns c (st0_1 t) fullShare x1
        ∗ owns c (st0_2 t) fullShare x2 ∗ owns c (st0_3 t) fullShare x3
        ∗ owns c (st0_4 t) fullShare x4 ∗ ∃ d, owns c (st0_5 t) fullShare d)
      ⊢ wp frame (wpE (defs₀ (F := F)) Variants.none c none) Set.univ (bodyAt0 t) fun _ =>
        iprop(R₁ ∗ R₂ ∗ owns c (st0_0 t) fullShare x0 ∗ owns c (st0_1 t) fullShare x1
          ∗ owns c (st0_2 t) fullShare x2 ∗ owns c (st0_3 t) fullShare x3
          ∗ owns c (st0_4 t) fullShare x4 ∗ owns c (st0_5 t) fullShare (out0_5 x0 x1 x2 x3 x4)) := by
  unfold bodyAt0
  simp only [cc0__norm_relu_kernel_eq_skeleton, owns_eq_rep]; unfold cc0__norm_relu_kernel_skel
  iintro ⟨HR₁, HR₂, H0, H1, H2, H3, H4, %d, H5⟩
  sl_exec
  sl_step
  iframe HR₁ HR₂ H0 H1 H2 H3 H4
  rw [← owns_eq_rep]; unfold owns
  iexists _; isplitr; swap; · iexact H5
  ipureintro; sl_unfold_run_names; simp only [View.readAt_rep]
  exact View.read_writes_eq_canon _ _ _ (View.cover_of_tiled _ S1024x256.size (by rfl))

def dat0 (V : (c : Dev nD) → (b : Ref sig .tc) → Buf (Elt F) ((c : Thread nD τ).loc b)) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem share0 (c : Dev nD) (w : Fin cfg0.W) : (dat0 V c).share w = fullShare :=
  (dat0 V c).share_full (fun _ => rfl) w

theorem recorded0 (c : Dev nD) (t : Fin (cfg0.N + 1)) : (dat0 V c).recorded t = Set.univ := rfl

theorem owed0 (c : Dev nD) (t : Fin (cfg0.N + 1)) : (dat0 V c).owed t = 0 := rfl

theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0 (c : Dev nD) (w : Fin cfg0.W) (hw : (cfg0.win w).isOut = false) (t : Fin cfg0.N) (d) :
    (dat0 V c).before w t d = (dat0 V c).after w t :=
  match w, hw with
  | ⟨0, _⟩, _ | ⟨1, _⟩, _ | ⟨2, _⟩, _ | ⟨3, _⟩, _ | ⟨4, _⟩, _ =>
    ((dat0 V c).before_in_eq_fetched _ rfl (fun _ => rfl) (fun _ _ _ => rfl) (fun _ => rfl) t d).trans rfl
  | ⟨5, _⟩, hw => nomatch hw
  | ⟨_ + 6, h⟩, _ => absurd h (by show ¬ _ < 6; omega)

theorem body_obligation0 (c : Dev nD) : BodyObligation (dat0 (F := F) V c) (defs₀ (F := F)) Variants.none () Set.univ := fun t => by
  rw [bigSep_W0, bigSep_W0]
  simp only [before0 V c 0 rfl, before0 V c 1 rfl, before0 V c 2 rfl, before0 V c 3 rfl, before0 V c 4 rfl]
  dsimp only [dat0]
  iintro ⟨HΦ, Ho, ⟨%_, H0⟩, ⟨%_, H1⟩, ⟨%_, H2⟩, ⟨%_, H3⟩, ⟨%_, H4⟩, %_, H5⟩
  iapply (sound_kernel0 c t _ _ _ _ _ _ _)
  iframe HΦ H0 H1 H2 H3 H4
  isplitl [Ho]; · iexact Ho
  iexists _; iexact H5

theorem hin0 (c : Dev nD) : Pipeline.ΦA spec0 c ⊢ (dat0 V c).Φ 0 := .rfl

theorem hout0 (c : Dev nD) : (dat0 V c).Φ (Fin.last cfg0.N) ⊢ Pipeline.ΦA spec0 c := .rfl

end Cert.KernelIdeal.Hand

end
-- ==== Proof.KI.R1a.lean ====
import proofs.«426621_j13099650253560_2_alg».proof.Proof.Gen.KernelIdeal.Launch
import proofs.«426621_j13099650253560_2_alg».proof.Proof.Gen.KernelIdeal.Skeleton
import proofs.«426621_j13099650253560_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 5 = 0 :=
  (by decide +kernel : ∀ t : Fin grid1.N, cond1_0 (grid1.coords t) ↔ t.val % 5 = 0)

abbrev cond1_1 (i : grid1.Coords) : Prop := k1_cond2 i = 1#1

theorem hcond1_1 : ∀ t : Fin cfg1.N, cond1_1 (grid1.coords t) ↔ t.val % 5 = 4 :=
  (by decide +kernel : ∀ t : Fin grid1.N, cond1_1 (grid1.coords t) ↔ t.val % 5 = 4)

abbrev rK (i : grid1.Coords) : Rect S10240x256 := Rect.unit (s := S10240x256) (k1_off1 i) S2048x256.size (k1_off1_inb i)

abbrev rI (i : grid1.Coords) (h : cond1_1 i) : Rect S10240x256 := Rect.unit (s := S10240x256) (k1_off2 i) S1024x256.size (k1_off2_inb i h)

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def accStep (x0 : Vec F S10240x256 .bf16) (x1 : Vec F S1024x2048 .bf16) (i : grid1.Coords) (a : Vec F S1024x256 .f32) : Vec F S1024x256 .f32 :=
  k1_pay2 (View.ld x0 (rK i)) x1 a

def accAt (c : Dev nD) : (n : ℕ) → n < cfg1.N → Vec F S1024x256 .f32
  | 0, hn => accStep (iblk1 V c 0 ⟨0, hn⟩) (iblk1 V c 1 ⟨0, hn⟩) (grid1.coords ⟨0, hn⟩) k1_pay1
  | n + 1, hn => accStep (iblk1 V c 0 ⟨n + 1, hn⟩) (iblk1 V c 1 ⟨n + 1, hn⟩) (grid1.coords ⟨n + 1, hn⟩)
      (if (n + 1) % 5 = 0 then k1_pay1 else accAt c n (Nat.lt_of_succ_lt hn))

theorem acc_zero (c : Dev nD) (t : Fin cfg1.N) (hk : t.val % 5 = 0) :
    accAt V c t.val t.isLt = accStep (iblk1 V c 0 t) (iblk1 V c 1 t) (grid1.coords t) k1_pay1 := by
  obtain ⟨n, hn⟩ := t
  cases n with
  | zero => rfl
  | succ n => exact (congrArg (accStep _ _ _) (if_pos hk))

theorem acc_succ (c : Dev nD) (t : Fin cfg1.N) (hk : ¬t.val % 5 = 0) :
    accAt V c t.val t.isLt = accStep (iblk1 V c 0 t) (iblk1 V c 1 t) (grid1.coords t)
      (accAt V c (t.val - 1) (Nat.lt_of_le_of_lt (Nat.sub_le _ _) t.isLt)) := by
  obtain ⟨n, hn⟩ := t
  cases n with
  | zero => exact absurd (Nat.zero_mod _) hk
  | succ n => exact (congrArg (accStep _ _ _) (if_neg hk))

def outVal (c : Dev nD) (t : Fin cfg1.N) (h : cond1_1 (grid1.coords t)) : Vec F S1024x512 .f32 :=
  k1_pay3 (View.ld (iblk1 V c 0 t) (rI (grid1.coords t) h)) (accAt V c t.val t.isLt) (iblk1 V c 2 t)
    (iblk1 V c 3 t) (iblk1 V c 4 t) (iblk1 V c 5 t)

def outAt (c : Dev nD) (t : Fin cfg1.N) : Vec F S1024x512 .f32 :=
  if h : cond1_1 (grid1.coords t) then outVal V c t h else View.canon []

abbrev scM1 : Memref sig .tc .vmem S1024x256 .f32 := Memref.whole cc1_scratch0

abbrev restBut1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop(iprop(∃ d, owns (c : Thread nD τ) scM1 fullShare d) ∗ restBut1 c) ∗ (∃ r, prngReg c r)) := by
  unfold Pipeline.ΦA; rw [scopedRest1_split]; simp only [scM1, owns_whole]; try rfl

def PhiS1 (c : Dev nD) : (n : ℕ) → n ≤ cfg1.N → sProp 𝕄
  | 0, _ => Pipeline.ΦA spec1 c
  | n + 1, hn => iprop(iprop(owns (c : Thread nD τ) scM1 fullShare (accAt V c n hn) ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (accAt V c n hn) ∗ restBut1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare (accAt V c (n - 1) (by omega)) ∗ restBut1 c) ∗ (∃ r, prngReg c r)) := by
  cases n with
  | zero => exact absurd rfl hz
  | succ n => rfl

def dat1 (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outAt V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem share1 (c : Dev nD) (w : Fin cfg1.W) : (dat1 V c).share w = fullShare :=
  (dat1 V c).share_full (fun _ => rfl) w

theorem owed1 (c : Dev nD) (t : Fin (cfg1.N + 1)) : (dat1 V c).owed t = 0 := rfl

theorem recorded1 (c : Dev nD) (t : Fin (cfg1.N + 1)) : (dat1 V c).recorded t = Set.univ := rfl

theorem after1_0 (c : Dev nD) (t : Fin cfg1.N) : (dat1 V c).after 0 t = iblk1 V c 0 t := rfl
theorem after1_1 (c : Dev nD) (t : Fin cfg1.N) : (dat1 V c).after 1 t = iblk1 V c 1 t := rfl
theorem after1_2 (c : Dev nD) (t : Fin cfg1.N) : (dat1 V c).after 2 t = iblk1 V c 2 t := rfl
theorem after1_3 (c : Dev nD) (t : Fin cfg1.N) : (dat1 V c).after 3 t = iblk1 V c 3 t := rfl
theorem after1_4 (c : Dev nD) (t : Fin cfg1.N) : (dat1 V c).after 4 t = iblk1 V c 4 t := rfl
theorem after1_5 (c : Dev nD) (t : Fin cfg1.N) : (dat1 V c).after 5 t = iblk1 V c 5 t := rfl

theorem after1_6 (c : Dev nD) (t : Fin cfg1.N) (hk : t.val % 5 = 4) :
    (dat1 V c).after 6 t = outVal V c t ((hcond1_1 t).mpr hk) := dif_pos _

theorem PhiS1_castSucc (c : Dev nD) (t : Fin cfg1.N) :
    (dat1 V c).Φ t.castSucc = PhiS1 V c t.val (Nat.le_of_lt t.isLt) := by
  dsimp only [dat1]; simp only [Fin.coe_castSucc]

theorem hin1 (c : Dev nD) : Pipeline.ΦA spec1 c ⊢ (dat1 V c).Φ 0 := .rfl

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  iframe
  iexists _; iexact HS0

theorem hout1 (c : Dev nD) : (dat1 V c).Φ (Fin.last cfg1.N) ⊢ Pipeline.ΦA spec1 c :=
  Phi_out1 V c _ (by rw [Fin.val_last]; have : cfg1.N = 50 := N_1; omega)

end Cert.KernelIdeal.Hand

end
-- ==== Proof.KI.R1b.lean ====
import proofs.«426621_j13099650253560_2_alg».proof.Proof.KI.R1a
import Idealize.ShloMosaic.Lib.Pipeline.Value
import Idealize.ShloMosaic.Lib.Pipeline.TableIdle

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off0 : (![0, 0] : Fin 2 → ℕ) = fun _ => 0 := funext fun a => by fin_cases a <;> rfl

/-- The whole rectangle covers every index, so the last payload through it is all that is read. -/
theorem read_writes_unit {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ fun y => ⟨_, List.mem_cons_self, View.mem_set_unit_zero h inb y⟩, View.canon_cons_unit_zero h]

section
variable (c : Dev nD) (i : grid1.Coords)
  {arg2 : Memref sig .tc .vmem S10240x256 .bf16} {harg2 : arg2.IsWhole} {arg3 : Memref sig .tc .vmem S1024x2048 .bf16} {harg3 : arg3.IsWhole}
  {arg4 : Memref sig .tc .vmem S1024x1 .f32} {harg4 : arg4.IsWhole} {arg5 arg6 : Memref sig .tc .vmem S256x512 .bf16} {harg5 : arg5.IsWhole}
  {harg6 : arg6.IsWhole} {arg7 : Memref sig .tc .vmem S1x512 .f32} {harg7 : arg7.IsWhole} {arg8 : Memref sig .tc .vmem S1024x512 .f32}
  {harg8 : arg8.IsWhole} {arg9 : Memref sig .tc .vmem S1024x256 .f32} {harg9 : arg9.IsWhole}
  (x0 : Vec F S10240x256 .bf16) (x1 : Vec F S1024x2048 .bf16) (x2 : Vec F S1024x1 .f32) (x3 x4 : Vec F S256x512 .bf16) (x5 : Vec F S1x512 .f32)
  (xs : Vec F S1024x256 .f32) (xo : Vec F S1024x512 .f32) (E : Set ℕ) (K : PUnit → sProp (MT nD τ sig Unit (Elt F) ℕ (UR sig nD τ) ℕ))

/-- At a first column tile the accumulator is zeroed before the tile's product is added, so what it held does not matter. -/
theorem run1_A (hc0 : cond1_0 i) (hc1 : ¬cond1_1 i) :
    iprop(owns (c : Thread nD τ) arg2 fullShare x0 ∗ owns (c : Thread nD τ) arg3 fullShare x1 ∗ (∃ d, owns (c : Thread nD τ) arg9 fullShare d)
        ∗ (iprop(owns (c : Thread nD τ) arg2 fullShare x0 ∗ owns (c : Thread nD τ) arg3 fullShare x1 ∗ owns (c : Thread nD τ) arg9 fullShare (accStep x0 x1 i k1_pay1)) -∗ K ⟨⟩))
      ⊢ wp frame (wpE (defs₀ (F := F)) Variants.none c none) E (cc1__sage_conv_kernel i arg2 harg2 arg3 harg3 arg4 harg4 arg5 harg5 arg6 harg6 arg7 harg7 arg8 harg8 arg9 harg9) K := by
  simp only [cc1__sage_conv_kernel_eq_skeleton, owns_eq_rep]; unfold cc1__sage_conv_kernel_skel
  iintro ⟨H0, H1, ⟨%ds, HS⟩, Hk⟩
  sl_exec (disch := first | exact hc0 | exact hc1)
  sl_step
  iapply Hk
  iframe H0 H1
  rw [← owns_eq_rep]; unfold owns
  iexists _; isplitr
  swap; · iexact HS
  ipureintro
  sl_unfold_run_names
  rw [read_writes_unit _ _ off0]
  unfold accStep
  simp only [View.readAt_eq_ld, View.read_rep, View.ld_unit_zero (S := S1024x2048) off0, View.readCov_unit_zero (S := S1024x256) _ off0]
  try rfl

theorem run1_B (hc0 : ¬cond1_0 i) (hc1 : ¬cond1_1 i) :
    iprop(owns (c : Thread nD τ) arg2 fullShare x0 ∗ owns (c : Thread nD τ) arg3 fullShare x1 ∗ owns (c : Thread nD τ) arg9 fullShare xs
        ∗ (iprop(owns (c : Thread nD τ) arg2 fullShare x0 ∗ owns (c : Thread nD τ) arg3 fullShare x1 ∗ owns (c : Thread nD τ) arg9 fullShare (accStep x0 x1 i xs)) -∗ K ⟨⟩))
      ⊢ wp frame (wpE (defs₀ (F := F)) Variants.none c none) E (cc1__sage_conv_kernel i arg2 harg2 arg3 harg3 arg4 harg4 arg5 harg5 arg6 harg6 arg7 harg7 arg8 harg8 arg9 harg9) K := by
  simp only [cc1__sage_conv_kernel_eq_skeleton, owns_eq_rep]; unfold cc1__sage_conv_kernel_skel
  iintro ⟨H0, H1, HS, Hk⟩
  sl_exec (disch := first | exact hc0 | exact hc1)
  sl_step
  iapply Hk
  iframe H0 H1
  rw [← owns_eq_rep]; unfold owns
  iexists _; isplitr
  swap; · iexact HS
  ipureintro
  sl_unfold_run_names
  rw [read_writes_unit _ _ off0]
  unfold accStep
  simp only [View.readAt_eq_ld, View.read_rep, View.ld_unit_zero (S := S1024x2048) off0, View.ld_unit_zero (S := S1024x256) off0]
  try rfl

/-- At a last column tile the output block is computed from the new accumulator. -/
theorem run1_C (hc0 : ¬cond1_0 i) (hc1 : cond1_1 i) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xo ∗ owns (c : Thread nD τ) arg9 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (k1_pay3 (View.ld x0 (rI i hc1)) (accStep x0 x1 i xs) x2 x3 x4 x5)
            ∗ owns (c : Thread nD τ) arg9 fullShare (accStep x0 x1 i xs)) -∗ K ⟨⟩))
      ⊢ wp frame (wpE (defs₀ (F := F)) Variants.none c none) E (cc1__sage_conv_kernel i arg2 harg2 arg3 harg3 arg4 harg4 arg5 harg5 arg6 harg6 arg7 harg7 arg8 harg8 arg9 harg9) K := by
  simp only [cc1__sage_conv_kernel_eq_skeleton, owns_eq_rep]; unfold cc1__sage_conv_kernel_skel
  iintro ⟨H0, H1, H2, H3, H4, H5, H6, HS, Hk⟩
  sl_exec (disch := first | exact hc0 | exact hc1)
  sl_step
  iapply Hk
  iframe H0 H1 H2 H3 H4 H5
  rw [← owns_eq_rep, ← owns_eq_rep]; unfold owns
  isplitl [H6]
  all_goals (iexists _; isplitr)
  any_goals first | iexact H6 | iexact HS
  all_goals
    ipureintro
    sl_unfold_run_names
    rw [read_writes_unit _ _ off0]
    unfold accStep
    simp only [View.readAt_eq_ld, View.read_rep, View.ld_unit_zero (S := S1024x2048) off0, View.ld_unit_zero (S := S1024x256) off0, View.ld_unit_zero (S := S1024x1) off0, View.ld_unit_zero (S := S256x512) off0, View.ld_unit_zero (S := S1x512) off0, View.readCov_unit_zero (S := S1024x256) _ off0]
    try rfl
end

end Cert.KernelIdeal.Hand

end
-- ==== Proof.KI.R1.lean ====
import proofs.«426621_j13099650253560_2_alg».proof.Proof.KI.R1b

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1 (c : Dev nD) : ∀ w : Fin cfg1.W, w ≠ 6 → ∀ (t : Fin cfg1.N) (d), (dat1 V c).before w t d = (dat1 V c).after w t
  | ⟨0, _⟩, _, t, d | ⟨1, _⟩, _, t, d | ⟨2, _⟩, _, t, d | ⟨3, _⟩, _, t, d | ⟨4, _⟩, _, t, d | ⟨5, _⟩, _, t, d =>
    ((dat1 V c).before_in_eq_fetched _ rfl (fun _ => rfl) (fun _ _ _ => rfl) (fun _ => rfl) t d).trans rfl
  | ⟨6, _⟩, h, _, _ => absurd rfl h

theorem leaves1 (c : Dev nD) (w : Fin cfg1.W) (t : Fin cfg1.N) (hl : cfg1.idle w (cfg1.grid.coords t) = false) :
    (dat1 V c).leavesExact w t = owns (c : Thread nD τ) ((cfg1.win w).stage (cfg1.slots t w)) fullShare ((dat1 V c).after w t) := by
  unfold Dat.leavesExact; rw [hl]

theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t ∗ (dat1 V c).leavesExact 6 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [leaves1 V c 0 t rfl, leaves1 V c 1 t rfl, leaves1 V c 2 t rfl, leaves1 V c 3 t rfl, leaves1 V c 4 t rfl, leaves1 V c 5 t rfl,
    show (dat1 V c).owesAt () t.succ = (dat1 V c).owesAt () t.castSucc from rfl,
    show (dat1 V c).Φ t.succ = PhiS1 V c (t.val + 1) t.isLt from rfl, PhiS1_succ]
  simp (disch := decide) only [before1 V c, after1_0, after1_1, after1_2, after1_3, after1_4, after1_5]
  by_cases h0 : t.val % 5 = 0
  · have hc1 : ¬cond1_1 (grid1.coords t) := fun h => by have := (hcond1_1 t).mp h; omega
    have hΦ : (dat1 V c).Φ t.castSucc ⊢ Pipeline.ΦA spec1 c := by
      by_cases hz : t.val = 0
      · rw [PhiS1_castSucc, PhiS1_zero V c _ _ hz]
      · exact Phi_out1 V c _ (by simpa using hz)
    rw [PhiA1_eq] at hΦ
    rw [Dat.leavesExact_idle (dat1 V c) 6 t (idleAt1_6 t hc1) (noFlush1_6 t hc1), acc_zero V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    icases hΦ $$ HΦ with ⟨⟨HS, HR⟩, Hg⟩
    iapply (run1_A c (grid1.coords t) (iblk1 V c 0 t) (iblk1 V c 1 t) Set.univ _ ((hcond1_0 t).mpr h0) hc1)
    iframe H0 H1 HS
    iintro ⟨H0, H1, HS⟩
    iframe
    iexists _; iexact H6
  · have hc0 : ¬cond1_0 (grid1.coords t) := fun h => h0 ((hcond1_0 t).mp h)
    rw [acc_succ V c t h0, PhiS1_castSucc V c t, PhiS1_pos V c _ _ fun h => h0 (by rw [h])]
    by_cases h1 : t.val % 5 = 4
    · have hc1 := (hcond1_1 t).mpr h1
      rw [leaves1 V c 6 t (liveAt1_6 t hc1), after1_6 V c t h1]
      unfold outVal
      rw [acc_succ V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (run1_C c (grid1.coords t) (iblk1 V c 0 t) (iblk1 V c 1 t) (iblk1 V c 2 t) (iblk1 V c 3 t) (iblk1 V c 4 t) (iblk1 V c 5 t) _ ((dat1 V c).before 6 t d6) Set.univ _ hc0 hc1)
      iframe H0 H1 H2 H3 H4 H5 H6 HS
      iintro ⟨H0, H1, H2, H3, H4, H5, H6, HS⟩
      iframe
    · have hc1 : ¬cond1_1 (grid1.coords t) := fun h => h1 ((hcond1_1 t).mp h)
      rw [Dat.leavesExact_idle (dat1 V c) 6 t (idleAt1_6 t hc1) (noFlush1_6 t hc1)]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (run1_B c (grid1.coords t) (iblk1 V c 0 t) (iblk1 V c 1 t) _ Set.univ _ hc0 hc1)
      iframe H0 H1 HS
      iintro ⟨H0, H1, HS⟩
      iframe
      iexists _; iexact H6

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
import proofs.«426621_j13099650253560_2_alg».proof.Proof.Gen.KernelIdeal.Launch
import proofs.«426621_j13099650253560_2_alg».proof.Proof.Gen.KernelIdeal.Skeleton
import proofs.«426621_j13099650253560_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rr2 : Rect S1x512 := Rect.unit (s := S1x512) ![0, 0] S1x512.size inb_S1x512_S1x512_0_0
abbrev rb2 : Rect S1024x512 := Rect.unit (s := S1024x512) ![0, 0] S1024x512.size inb_S1024x512_S1024x512_0_0

def out2_5 (x0 : Vec F S1024x512 .f32) (x1 x2 x3 x4 : Vec F S1x512 .f32) : Vec F S1024x512 .bf16 :=
  View.canon [⟨rb2, k2_pay1 (View.ld x1 rr2) (View.ld x2 rr2) (View.ld x3 rr2) (View.ld x4 rr2) (View.ld x0 rb2)⟩]

-- The body reads each input whole and writes the output whole once, so what it leaves is a function of the inputs alone.
theorem sound_kernel2 (c : Dev nD) (t : Fin cfg2.N) (x0 : Vec F S1024x512 .f32) (x1 x2 x3 x4 : Vec F S1x512 .f32) (R₁ R₂ : sProp 𝕄) :
    iprop(R₁ ∗ R₂ ∗ owns c (st2_0 t) fullShare x0 ∗ owns c (st2_1 t) fullShare x1
        ∗ owns c (st2_2 t) fullShare x2 ∗ owns c (st2_3 t) fullShare x3
        ∗ owns c (st2_4 t) fullShare x4 ∗ ∃ d, owns c (st2_5 t) fullShare d)
      ⊢ wp frame (wpE (defs₀ (F := F)) Variants.none c none) Set.univ (bodyAt2 t) fun _ =>
        iprop(R₁ ∗ R₂ ∗ owns c (st2_0 t) fullShare x0 ∗ owns c (st2_1 t) fullShare x1
          ∗ owns c (st2_2 t) fullShare x2 ∗ owns c (st2_3 t) fullShare x3
          ∗ owns c (st2_4 t) fullShare x4 ∗ owns c (st2_5 t) fullShare (out2_5 x0 x1 x2 x3 x4)) := by
  unfold bodyAt2
  simp only [cc2__norm_relu_kernel_eq_skeleton, owns_eq_rep]; unfold cc2__norm_relu_kernel_skel
  iintro ⟨HR₁, HR₂, H0, H1, H2, H3, H4, %d, H5⟩
  sl_exec
  sl_step
  iframe HR₁ HR₂ H0 H1 H2 H3 H4
  rw [← owns_eq_rep]; unfold owns
  iexists _; isplitr; swap; · iexact H5
  ipureintro; sl_unfold_run_names; simp only [View.readAt_rep]
  exact View.read_writes_eq_canon _ _ _ (View.cover_of_tiled _ S1024x512.size (by rfl))

def dat2 (V : (c : Dev nD) → (b : Ref sig .tc) → Buf (Elt F) ((c : Thread nD τ).loc b)) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem share2 (c : Dev nD) (w : Fin cfg2.W) : (dat2 V c).share w = fullShare :=
  (dat2 V c).share_full (fun _ => rfl) w

theorem recorded2 (c : Dev nD) (t : Fin (cfg2.N + 1)) : (dat2 V c).recorded t = Set.univ := rfl

theorem owed2 (c : Dev nD) (t : Fin (cfg2.N + 1)) : (dat2 V c).owed t = 0 := rfl

theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

theorem before2 (c : Dev nD) (w : Fin cfg2.W) (hw : (cfg2.win w).isOut = false) (t : Fin cfg2.N) (d) :
    (dat2 V c).before w t d = (dat2 V c).after w t :=
  match w, hw with
  | ⟨0, _⟩, _ | ⟨1, _⟩, _ | ⟨2, _⟩, _ | ⟨3, _⟩, _ | ⟨4, _⟩, _ =>
    ((dat2 V c).before_in_eq_fetched _ rfl (fun _ => rfl) (fun _ _ _ => rfl) (fun _ => rfl) t d).trans rfl
  | ⟨5, _⟩, hw => nomatch hw
  | ⟨_ + 6, h⟩, _ => absurd h (by show ¬ _ < 6; omega)

theorem body_obligation2 (c : Dev nD) : BodyObligation (dat2 (F := F) V c) (defs₀ (F := F)) Variants.none () Set.univ := fun t => by
  rw [bigSep_W2, bigSep_W2]
  simp only [before2 V c 0 rfl, before2 V c 1 rfl, before2 V c 2 rfl, before2 V c 3 rfl, before2 V c 4 rfl]
  dsimp only [dat2]
  iintro ⟨HΦ, Ho, ⟨%_, H0⟩, ⟨%_, H1⟩, ⟨%_, H2⟩, ⟨%_, H3⟩, ⟨%_, H4⟩, %_, H5⟩
  iapply (sound_kernel2 c t _ _ _ _ _ _ _)
  iframe HΦ H0 H1 H2 H3 H4
  isplitl [Ho]; · iexact Ho
  iexists _; iexact H5

theorem hin2 (c : Dev nD) : Pipeline.ΦA spec2 c ⊢ (dat2 V c).Φ 0 := .rfl

theorem hout2 (c : Dev nD) : (dat2 V c).Φ (Fin.last cfg2.N) ⊢ Pipeline.ΦA spec2 c := .rfl

end Cert.KernelIdeal.Hand

end
-- ==== Proof.KI.R3a.lean ====
import proofs.«426621_j13099650253560_2_alg».proof.Proof.Gen.KernelIdeal.Launch
import proofs.«426621_j13099650253560_2_alg».proof.Proof.Gen.KernelIdeal.Skeleton
import proofs.«426621_j13099650253560_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond3_0 (i : grid3.Coords) : Prop :=
  (Scalar.cmpi .ne (Scalar.extui (Scalar.cmpi .eq (BitVec.ofNat 32 (i 1).val) 0#32)) 0#32) = 1#1

theorem hcond3_0 : ∀ t : Fin cfg3.N, cond3_0 (grid3.coords t) ↔ t.val % 5 = 0 :=
  (by decide +kernel : ∀ t : Fin grid3.N, cond3_0 (grid3.coords t) ↔ t.val % 5 = 0)

abbrev cond3_1 (i : grid3.Coords) : Prop := k3_cond2 i = 1#1

theorem hcond3_1 : ∀ t : Fin cfg3.N, cond3_1 (grid3.coords t) ↔ t.val % 5 = 4 :=
  (by decide +kernel : ∀ t : Fin grid3.N, cond3_1 (grid3.coords t) ↔ t.val % 5 = 4)

abbrev rK3 (i : grid3.Coords) : Rect S10240x512 := Rect.unit (s := S10240x512) (k3_off1 i) S2048x512.size (k3_off1_inb i)

abbrev rI3 (i : grid3.Coords) (h : cond3_1 i) : Rect S10240x512 := Rect.unit (s := S10240x512) (k3_off2 i) S1024x512.size (k3_off2_inb i h)

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def accStep3 (x0 : Vec F S10240x512 .bf16) (x1 : Vec F S1024x2048 .bf16) (i : grid3.Coords) (a : Vec F S1024x512 .f32) : Vec F S1024x512 .f32 :=
  k3_pay2 (View.ld x0 (rK3 i)) x1 a

def accAt3 (c : Dev nD) : (n : ℕ) → n < cfg3.N → Vec F S1024x512 .f32
  | 0, hn => accStep3 (iblk3 V c 0 ⟨0, hn⟩) (iblk3 V c 1 ⟨0, hn⟩) (grid3.coords ⟨0, hn⟩) k3_pay1
  | n + 1, hn => accStep3 (iblk3 V c 0 ⟨n + 1, hn⟩) (iblk3 V c 1 ⟨n + 1, hn⟩) (grid3.coords ⟨n + 1, hn⟩)
      (if (n + 1) % 5 = 0 then k3_pay1 else accAt3 c n (Nat.lt_of_succ_lt hn))

theorem acc3_zero (c : Dev nD) (t : Fin cfg3.N) (hk : t.val % 5 = 0) :
    accAt3 V c t.val t.isLt = accStep3 (iblk3 V c 0 t) (iblk3 V c 1 t) (grid3.coords t) k3_pay1 := by
  obtain ⟨n, hn⟩ := t
  cases n with
  | zero => rfl
  | succ n => exact (congrArg (accStep3 _ _ _) (if_pos hk))

theorem acc3_succ (c : Dev nD) (t : Fin cfg3.N) (hk : ¬t.val % 5 = 0) :
    accAt3 V c t.val t.isLt = accStep3 (iblk3 V c 0 t) (iblk3 V c 1 t) (grid3.coords t)
      (accAt3 V c (t.val - 1) (Nat.lt_of_le_of_lt (Nat.sub_le _ _) t.isLt)) := by
  obtain ⟨n, hn⟩ := t
  cases n with
  | zero => exact absurd (Nat.zero_mod _) hk
  | succ n => exact (congrArg (accStep3 _ _ _) (if_neg hk))

def outVal3 (c : Dev nD) (t : Fin cfg3.N) (h : cond3_1 (grid3.coords t)) : Vec F S1024x512 .f32 :=
  k3_pay3 (View.ld (iblk3 V c 0 t) (rI3 (grid3.coords t) h)) (accAt3 V c t.val t.isLt) (iblk3 V c 2 t)
    (iblk3 V c 3 t) (iblk3 V c 4 t) (iblk3 V c 5 t) (iblk3 V c 6 t) (iblk3 V c 7 t) (iblk3 V c 8 t)

def outAt3 (c : Dev nD) (t : Fin cfg3.N) : Vec F S1024x512 .f32 :=
  if h : cond3_1 (grid3.coords t) then outVal3 V c t h else View.canon []

abbrev scM3 : Memref sig .tc .vmem S1024x512 .f32 := Memref.whole cc3_scratch0

abbrev restBut3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop(iprop(∃ d, owns (c : Thread nD τ) scM3 fullShare d) ∗ restBut3 c) ∗ (∃ r, prngReg c r)) := by
  unfold Pipeline.ΦA; rw [scopedRest3_split]; simp only [scM3, owns_whole]; try rfl

def PhiS3 (c : Dev nD) : (n : ℕ) → n ≤ cfg3.N → sProp 𝕄
  | 0, _ => Pipeline.ΦA spec3 c
  | n + 1, hn => iprop(iprop(owns (c : Thread nD τ) scM3 fullShare (accAt3 V c n hn) ∗ restBut3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (accAt3 V c n hn) ∗ restBut3 c) ∗ (∃ r, prngReg c r)) := rfl

theorem PhiS3_pos (c : Dev nD) (n : ℕ) (h : n ≤ cfg3.N) (hz : n ≠ 0) :
    PhiS3 V c n h = iprop(iprop(owns (c : Thread nD τ) scM3 fullShare (accAt3 V c (n - 1) (by omega)) ∗ restBut3 c) ∗ (∃ r, prngReg c r)) := by
  cases n with
  | zero => exact absurd rfl hz
  | succ n => rfl

def dat3 (V : (c : Dev nD) → (b : Ref sig .tc) → Buf (Elt F) ((c : Thread nD τ).loc b)) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => outAt3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := rfl

theorem share3 (c : Dev nD) (w : Fin cfg3.W) : (dat3 V c).share w = fullShare :=
  (dat3 V c).share_full (fun _ => rfl) w

theorem owed3 (c : Dev nD) (t : Fin (cfg3.N + 1)) : (dat3 V c).owed t = 0 := rfl

theorem recorded3 (c : Dev nD) (t : Fin (cfg3.N + 1)) : (dat3 V c).recorded t = Set.univ := rfl

theorem after3_9 (c : Dev nD) (t : Fin cfg3.N) (hk : t.val % 5 = 4) :
    (dat3 V c).after 9 t = outVal3 V c t ((hcond3_1 t).mpr hk) := dif_pos _

theorem PhiS3_castSucc (c : Dev nD) (t : Fin cfg3.N) :
    (dat3 V c).Φ t.castSucc = PhiS3 V c t.val (Nat.le_of_lt t.isLt) := by
  dsimp only [dat3]; simp only [Fin.coe_castSucc]

theorem hin3 (c : Dev nD) : Pipeline.ΦA spec3 c ⊢ (dat3 V c).Φ 0 := .rfl

theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HR⟩, Hg⟩
  iframe
  iexists _; iexact HS0

theorem hout3 (c : Dev nD) : (dat3 V c).Φ (Fin.last cfg3.N) ⊢ Pipeline.ΦA spec3 c :=
  Phi_out3 V c _ (by rw [Fin.val_last]; have : cfg3.N = 50 := N_3; omega)

end Cert.KernelIdeal.Hand

end
-- ==== Proof.KI.R3.lean ====
import proofs.«426621_j13099650253560_2_alg».proof.Proof.KI.R3a
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem idleAt3_9 : ∀ t : Fin cfg3.N, ¬cond3_1 (grid3.coords t) → cfg3.idle 9 (grid3.coords t) = true := by decide +kernel
theorem noFlush3_9 : ∀ t : Fin cfg3.N, ¬cond3_1 (grid3.coords t) → (cfg3.win 9).flush t = false := by decide +kernel
theorem liveAt3_9 : ∀ t : Fin cfg3.N, cond3_1 (grid3.coords t) → cfg3.idle 9 (grid3.coords t) = false := by decide +kernel

theorem before3 (c : Dev nD) : ∀ w : Fin cfg3.W, w.val < 9 → ∀ (t : Fin cfg3.N) (d), (dat3 V c).before w t d = (dat3 V c).after w t
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ =>
    (dat3 V c).before_in_eq_fetched _ rfl (fun _ => rfl) (fun _ _ _ => rfl) (fun _ => rfl)
  | ⟨9, _⟩, h => absurd h (Nat.lt_irrefl 9)

theorem leaves3 (c : Dev nD) : ∀ w : Fin cfg3.W, w.val < 9 → ∀ t : Fin cfg3.N,
    (dat3 V c).leavesExact w t = owns (c : Thread nD τ) ((cfg3.win w).stage (cfg3.slots t w)) fullShare ((dat3 V c).after w t)
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ => fun _ => rfl
  | ⟨9, _⟩, h => absurd h (Nat.lt_irrefl 9)

theorem zeros2 : (![0, 0] : Fin 2 → ℕ) = fun _ => 0 := funext fun a => by fin_cases a <;> rfl

-- A store through the whole rectangle, last, covers every index whatever was stored before.
theorem coverAcc3 (w : Vec F S1024x512 .f32) (L : List (View.Piece (Elt F) S1024x512 .f32)) (y : S1024x512.Idx) :
    ∃ pc ∈ ((⟨Rect.unit (s := S1024x512) ![0, 0] S1024x512.size inb_S1024x512_S1024x512_0_0, w⟩ : View.Piece (Elt F) S1024x512 .f32) :: L), y ∈ pc.1.set :=
  ⟨_, List.mem_cons_self, View.mem_set_unit_zero zeros2 inb_S1024x512_S1024x512_0_0 y⟩

section Body
variable (c : Dev nD) (i : grid3.Coords) (arg2 : Memref sig .tc .vmem S10240x512 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x256 .f32) (harg8 : arg8.IsWhole) (arg9 : Memref sig .tc .vmem S256x512 .bf16) (harg9 : arg9.IsWhole) (arg10 : Memref sig .tc .vmem S1x512 .f32) (harg10 : arg10.IsWhole) (arg11 : Memref sig .tc .vmem S1024x512 .f32) (harg11 : arg11.IsWhole) (arg12 : Memref sig .tc .vmem S1024x512 .f32) (harg12 : arg12.IsWhole)
  (x0 : Vec F S10240x512 .bf16) (x1 : Vec F S1024x2048 .bf16) (x2 : Vec F S1024x1 .f32) (x3 : Vec F S512x512 .bf16) (x4 : Vec F S512x512 .bf16) (x5 : Vec F S1x512 .f32) (x6 : Vec F S1024x256 .f32) (x7 : Vec F S256x512 .bf16) (x8 : Vec F S1x512 .f32) (xs : Vec F S1024x512 .f32)

-- A first column tile overwrites the accumulator with zero before accumulating, so what it held does not matter.
theorem run3_A (hc0 : cond3_0 i) (hc1 : ¬cond3_1 i) (E : Set ℕ) (K : PUnit → sProp 𝕄) :
    iprop(owns (c : Thread nD τ) arg2 fullShare x0 ∗ owns (c : Thread nD τ) arg3 fullShare x1 ∗ (∃ d, owns (c : Thread nD τ) arg12 fullShare d)
        ∗ (iprop(owns (c : Thread nD τ) arg2 fullShare x0 ∗ owns (c : Thread nD τ) arg3 fullShare x1 ∗ owns (c : Thread nD τ) arg12 fullShare (accStep3 x0 x1 i k3_pay1)) -∗ K ⟨⟩))
      ⊢ wp frame (wpE (defs₀ (F := F)) Variants.none c none) E (cc3__sage_conv_shortcut_kernel i arg2 harg2 arg3 harg3 arg4 harg4 arg5 harg5 arg6 harg6 arg7 harg7 arg8 harg8 arg9 harg9 arg10 harg10 arg11 harg11 arg12 harg12) K := by
  simp only [cc3__sage_conv_shortcut_kernel_eq_skeleton, owns_eq_rep]; unfold cc3__sage_conv_shortcut_kernel_skel
  iintro ⟨H0, H1, ⟨%ds, HS⟩, Hk⟩
  sl_exec (disch := first | exact hc0 | exact hc1)
  sl_step
  iapply Hk
  iframe H0 H1
  rw [← owns_eq_rep]; unfold owns
  iexists _; isplitr
  swap; · iexact HS
  ipureintro
  sl_unfold_run_names
  rw [View.read_writes_eq_canon _ _ _ (coverAcc3 _ _), View.canon_cons_unit_zero zeros2]
  unfold accStep3
  simp only [View.readAt_eq_ld, View.read_rep, View.ld_unit_zero (S := S1024x2048) zeros2, View.ld_unit_zero (S := S1024x512) zeros2, View.readCov_unit_zero (S := S1024x512) _ zeros2]
  try rfl

-- A middle column tile accumulates onto what the accumulator held.
theorem run3_B (hc0 : ¬cond3_0 i) (hc1 : ¬cond3_1 i) (E : Set ℕ) (K : PUnit → sProp 𝕄) :
    iprop(owns (c : Thread nD τ) arg2 fullShare x0 ∗ owns (c : Thread nD τ) arg3 fullShare x1 ∗ owns (c : Thread nD τ) arg12 fullShare xs
        ∗ (iprop(owns (c : Thread nD τ) arg2 fullShare x0 ∗ owns (c : Thread nD τ) arg3 fullShare x1 ∗ owns (c : Thread nD τ) arg12 fullShare (accStep3 x0 x1 i xs)) -∗ K ⟨⟩))
      ⊢ wp frame (wpE (defs₀ (F := F)) Variants.none c none) E (cc3__sage_conv_shortcut_kernel i arg2 harg2 arg3 harg3 arg4 harg4 arg5 harg5 arg6 harg6 arg7 harg7 arg8 harg8 arg9 harg9 arg10 harg10 arg11 harg11 arg12 harg12) K := by
  simp only [cc3__sage_conv_shortcut_kernel_eq_skeleton, owns_eq_rep]; unfold cc3__sage_conv_shortcut_kernel_skel
  iintro ⟨H0, H1, HS, Hk⟩
  sl_exec (disch := first | exact hc0 | exact hc1)
  sl_step
  iapply Hk
  iframe H0 H1
  rw [← owns_eq_rep]; unfold owns
  iexists _; isplitr
  swap; · iexact HS
  ipureintro
  sl_unfold_run_names
  rw [View.read_writes_eq_canon _ _ _ (coverAcc3 _ _), View.canon_unit_zero zeros2]
  unfold accStep3
  simp only [View.readAt_eq_ld, View.read_rep, View.ld_unit_zero (S := S1024x2048) zeros2, View.ld_unit_zero (S := S1024x512) zeros2]
  try rfl

-- A last column tile accumulates likewise, and its epilogue reads that accumulation back and stores over the whole output block.
theorem run3_C (hc0 : ¬cond3_0 i) (hc1 : cond3_1 i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
        ∗ (∃ d, owns (c : Thread nD τ) arg11 fullShare d) ∗ owns (c : Thread nD τ) arg12 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ owns (c : Thread nD τ) arg11 fullShare (k3_pay3 (View.ld x0 (rI3 i hc1)) (accStep3 x0 x1 i xs) x2 x3 x4 x5 x6 x7 x8)
            ∗ owns (c : Thread nD τ) arg12 fullShare (accStep3 x0 x1 i xs)) -∗ K ⟨⟩))
      ⊢ wp frame (wpE (defs₀ (F := F)) Variants.none c none) E (cc3__sage_conv_shortcut_kernel i arg2 harg2 arg3 harg3 arg4 harg4 arg5 harg5 arg6 harg6 arg7 harg7 arg8 harg8 arg9 harg9 arg10 harg10 arg11 harg11 arg12 harg12) K := by
  simp only [cc3__sage_conv_shortcut_kernel_eq_skeleton, owns_eq_rep]; unfold cc3__sage_conv_shortcut_kernel_skel
  iintro ⟨H0, H1, H2, H3, H4, H5, H6, H7, H8, ⟨%d9, H9⟩, HS, Hk⟩
  sl_exec (disch := first | exact hc0 | exact hc1)
  sl_step
  iapply Hk
  iframe H0 H1 H2 H3 H4 H5 H6 H7 H8
  rw [← owns_eq_rep, ← owns_eq_rep]; unfold owns
  isplitl [H9]
  · iexists _; isplitr
    swap; · iexact H9
    ipureintro
    sl_unfold_run_names
    rw [View.read_writes_eq_canon _ _ _ (coverAcc3 _ _), View.canon_unit_zero zeros2]
    unfold accStep3
    simp only [View.readAt_eq_ld, View.read_rep, View.ld_unit_zero (S := S1024x2048) zeros2, View.ld_unit_zero (S := S1024x512) zeros2, View.ld_unit_zero (S := S1024x1) zeros2, View.ld_unit_zero (S := S512x512) zeros2, View.ld_unit_zero (S := S1x512) zeros2, View.ld_unit_zero (S := S1024x256) zeros2, View.ld_unit_zero (S := S256x512) zeros2, View.readCov_unit_zero (S := S1024x512) _ zeros2]
    try rfl
  iexists _; isplitr
  swap; · iexact HS
  ipureintro
  sl_unfold_run_names
  rw [View.read_writes_eq_canon _ _ _ (coverAcc3 _ _), View.canon_unit_zero zeros2]
  unfold accStep3
  simp only [View.readAt_eq_ld, View.read_rep, View.ld_unit_zero (S := S1024x2048) zeros2, View.ld_unit_zero (S := S1024x512) zeros2]
  try rfl

end Body

theorem Phi_any3 (c : Dev nD) (t : Fin (cfg3.N + 1)) : (dat3 V c).Φ t ⊢ Pipeline.ΦA spec3 c := by
  by_cases ht : t.val = 0
  · rw [show (dat3 V c).Φ t = PhiS3 V c t.val (Nat.le_of_lt_succ t.isLt) from rfl, PhiS3_zero V c _ _ ht]
    try exact Idealize.SL.BI.Entails.refl _
  · exact Phi_out3 V c t ht

theorem sound_body3 (c : Dev nD) (t : Fin cfg3.N) :
    iprop((dat3 V c).Φ t.castSucc ∗ (dat3 V c).owesAt () t.castSucc
        ∗ bigSep Finset.univ fun w : Fin cfg3.W => iprop(∃ d, owns (c : Thread nD τ) ((cfg3.win w).stage (cfg3.slots t w)) fullShare ((dat3 V c).before w t d)))
      ⊢ wp frame (wpE (defs₀ (F := F)) Variants.none c none) Set.univ (bodyAt3 t) fun _ =>
        iprop((dat3 V c).Φ t.succ ∗ (dat3 V c).owesAt () t.succ ∗ bigSep Finset.univ fun w : Fin cfg3.W => (dat3 V c).leavesExact w t) := by
  rw [bigSep_W3, bigSep_W3]
  unfold bodyAt3
  simp (disch := decide) only [before3, leaves3]
  rw [show (dat3 V c).owesAt () t.succ = (dat3 V c).owesAt () t.castSucc from rfl]
  rw [show (dat3 V c).Φ t.succ = PhiS3 V c (t.val + 1) t.isLt from rfl, PhiS3_succ]
  by_cases h0 : t.val % 5 = 0
  · have hc0 : cond3_0 (grid3.coords t) := (hcond3_0 t).mpr h0
    have hc1 : ¬cond3_1 (grid3.coords t) := fun h => by have := (hcond3_1 t).mp h; omega
    rw [Dat.leavesExact_idle (dat3 V c) 9 t (idleAt3_9 t hc1) (noFlush3_9 t hc1), acc3_zero V c t h0]
    refine (sep_mono_left (Phi_any3 V c t.castSucc)).trans ?_
    rw [PhiA3_eq]
    iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run3_A c (grid3.coords t) _ _ _ _ _ _ _ _ _ _ _ _ _ _ _ _ _ _ _ _ _ _ _ _ hc0 hc1 Set.univ _)
    isplitl [H0]; · iexact H0
    isplitl [H1]; · iexact H1
    isplitl [HS]; · iexists _; iexact HS
    iintro ⟨H0, H1, HS⟩
    iframe
    isplitl [HS]; · iexact HS
    iexists _; iexact H9
  · have hz : t.val ≠ 0 := fun e => h0 (by rw [e])
    have hc0 : ¬cond3_0 (grid3.coords t) := fun h => h0 ((hcond3_0 t).mp h)
    rw [acc3_succ V c t h0, PhiS3_castSucc V c t, PhiS3_pos V c _ _ hz]
    by_cases h1 : t.val % 5 = 4
    · have hc1 : cond3_1 (grid3.coords t) := (hcond3_1 t).mpr h1
      rw [show (dat3 V c).leavesExact 9 t = owns (c : Thread nD τ) (st3_9 t) fullShare ((dat3 V c).after 9 t) from by
        unfold Dat.leavesExact; rw [liveAt3_9 t hc1], after3_9 V c t h1]
      unfold outVal3
      rw [acc3_succ V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run3_C c (grid3.coords t) _ _ _ _ _ _ _ _ _ _ _ _ _ _ _ _ _ _ _ _ _ _ _ _ _ _ _ _ _ _ _ _ hc0 hc1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS]; · iexact HS
      iintro ⟨H0, H1, H2, H3, H4, H5, H6, H7, H8, H9, HS⟩
      iframe
      isplitl [HS]; · iexact HS
      iexact H9
    · have hc1 : ¬cond3_1 (grid3.coords t) := fun h => h1 ((hcond3_1 t).mp h)
      rw [Dat.leavesExact_idle (dat3 V c) 9 t (idleAt3_9 t hc1) (noFlush3_9 t hc1)]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run3_B c (grid3.coords t) _ _ _ _ _ _ _ _ _ _ _ _ _ _ _ _ _ _ _ _ _ _ _ _ _ hc0 hc1 Set.univ _)
      isplitl [H0]; · iexact H0
      isplitl [H1]; · iexact H1
      isplitl [HS]; · iexact HS
      iintro ⟨H0, H1, HS⟩
      iframe
      isplitl [HS]; · iexact HS
      iexists _; iexact H9

theorem body_obligation3 (c : Dev nD) : BodyObligation (dat3 (F := F) V c) (defs₀ (F := F)) Variants.none () Set.univ := fun t => by
  exact sound_body3 V c t

end Cert.KernelIdeal.Hand

end
-- ==== Proof.KI.RunFold.lean ====
import proofs.«426621_j13099650253560_2_alg».proof.Proof.KI.R0
import proofs.«426621_j13099650253560_2_alg».proof.Proof.KI.R1a
import proofs.«426621_j13099650253560_2_alg».proof.Proof.KI.R2
import proofs.«426621_j13099650253560_2_alg».proof.Proof.KI.R3a
import proofs.«426621_j13099650253560_2_alg».proof.Proof.Gen.KernelIdeal.Regions

noncomputable section

namespace Cert.KernelIdeal.Hand

open Cert.KernelIdeal Cert.KernelIdeal.Gen
open Idealize.ShloMosaic Idealize.ShloMosaic.TcCoe Idealize.ShloMosaic.Rounds
open Idealize.ShloMosaic.Pipeline (Dat Cfg)

variable {F : FTy → Type} [FloatOps F]

variable (m : (ℓ : Loc nD τ sig) → Buf (Elt F) ℓ) (ρ : Dev nD → PrngReg)

section Exit

variable {cfg : Cfg sig Λ₀} (W : Dev nD → Valuation τ sig (Elt F))
  (dat : (c : Dev nD) → Dat τ (Elt F) Unit ℕ (UR sig nD τ) ℕ cfg c) (c : Dev nD)

def exitOf : Valuation τ sig (Elt F) := Pipeline.withArrays cfg.spec c (W c) fun w => (dat c).arrAt w cfg.N

variable (hinj : Function.Injective (Pipeline.arrRef cfg.spec))
include hinj in
theorem exitOf_arr (w : Fin cfg.W) :
    exitOf W dat c (Proc.devRef .tc (Pipeline.arrRef cfg.spec w)) = (dat c).arrAt w cfg.N :=
  Pipeline.withArrays_arr _ hinj c _ _ w

theorem exitOf_of_ne (b : Ref sig .tc) (hb : ∀ w, Pipeline.arrRef cfg.spec w ≠ b) :
    exitOf W dat c (Proc.devRef .tc b) = W c (Proc.devRef .tc b) :=
  Pipeline.withArrays_of_ne _ c _ _ b hb

include hinj in
theorem exitOf_in (hA : ∀ w, (dat c).A w = W c (Proc.devRef .tc (Pipeline.arrRef cfg.spec w))) (w : Fin cfg.W)
    (hw : (cfg.win w).isOut = false) :
    exitOf W dat c (Proc.devRef .tc (Pipeline.arrRef cfg.spec w)) = W c (Proc.devRef .tc (Pipeline.arrRef cfg.spec w)) :=
  (exitOf_arr W dat c hinj w).trans (((dat c).arrAt_in w hw _).trans (hA w))

end Exit

variable (c : Dev nD) (r : Ref sig .tc)

abbrev W0 : Dev nD → Valuation τ sig (Elt F) := fun c b => m ((c : Dev nD), b)
abbrev W1 : Dev nD → Valuation τ sig (Elt F) := fun c => StableHlo.after hostOps0 (W0 m c)
theorem W1_of (h : r ∉ hostOps0_W) : W1 m c (Proc.devRef .tc r) = W0 m c (Proc.devRef .tc r) :=
  StableHlo.after_of_writes_sub hostOps0 _ hostOps0_writes h
abbrev W2 : Dev nD → Valuation τ sig (Elt F) := fun c => StableHlo.after hostOps0_1 (W1 m c)
theorem W2_of (h : r ∉ hostOps0_1_W) : W2 m c (Proc.devRef .tc r) = W1 m c (Proc.devRef .tc r) :=
  StableHlo.after_of_writes_sub hostOps0_1 _ hostOps0_1_writes h
abbrev W3 : Dev nD → Valuation τ sig (Elt F) := fun c => StableHlo.after hostOps0_2 (W2 m c)
theorem W3_of (h : r ∉ hostOps0_2_W) : W3 m c (Proc.devRef .tc r) = W2 m c (Proc.devRef .tc r) :=
  StableHlo.after_of_writes_sub hostOps0_2 _ hostOps0_2_writes h
abbrev W4 : Dev nD → Valuation τ sig (Elt F) := fun c => StableHlo.after hostOps0_3 (W3 m c)
theorem W4_of (h : r ∉ hostOps0_3_W) : W4 m c (Proc.devRef .tc r) = W3 m c (Proc.devRef .tc r) :=
  StableHlo.after_of_writes_sub hostOps0_3 _ hostOps0_3_writes h
abbrev W5 : Dev nD → Valuation τ sig (Elt F) := fun c => StableHlo.after hostOps0_4 (W4 m c)
theorem W5_of (h : r ∉ hostOps0_4_W) : W5 m c (Proc.devRef .tc r) = W4 m c (Proc.devRef .tc r) :=
  StableHlo.after_of_writes_sub hostOps0_4 _ hostOps0_4_writes h
abbrev W6 : Dev nD → Valuation τ sig (Elt F) := fun c => StableHlo.after hostOps0_5 (W5 m c)
theorem W6_of (h : r ∉ hostOps0_5_W) : W6 m c (Proc.devRef .tc r) = W5 m c (Proc.devRef .tc r) :=
  StableHlo.after_of_writes_sub hostOps0_5 _ hostOps0_5_writes h
abbrev W7 : Dev nD → Valuation τ sig (Elt F) := fun c => StableHlo.after hostOps0_6 (W6 m c)
theorem W7_of (h : r ∉ hostOps0_6_W) : W7 m c (Proc.devRef .tc r) = W6 m c (Proc.devRef .tc r) :=
  StableHlo.after_of_writes_sub hostOps0_6 _ hostOps0_6_writes h
abbrev W8 : Dev nD → Valuation τ sig (Elt F) := fun c => StableHlo.after hostOps0_7 (W7 m c)
theorem W8_of (h : r ∉ hostOps0_7_W) : W8 m c (Proc.devRef .tc r) = W7 m c (Proc.devRef .tc r) :=
  StableHlo.after_of_writes_sub hostOps0_7 _ hostOps0_7_writes h
abbrev W9 : Dev nD → Valuation τ sig (Elt F) := fun c => StableHlo.after hostOps0_8 (W8 m c)
theorem W9_of (h : r ∉ hostOps0_8_W) : W9 m c (Proc.devRef .tc r) = W8 m c (Proc.devRef .tc r) :=
  StableHlo.after_of_writes_sub hostOps0_8 _ hostOps0_8_writes h
abbrev Vin0 : (c : Dev nD) → (b : Ref sig .tc) → Buf (Elt F) ((c : Thread nD τ).loc b) := fun c b => W9 m c b
def W10 : Valuation τ sig (Elt F) := exitOf (W9 m) (dat0 (Vin0 m)) c
theorem W10_of_ne (b : Ref sig .tc) (hb : ∀ w, Pipeline.arrRef spec0 w ≠ b) :
    W10 m c (Proc.devRef .tc b) = W9 m c (Proc.devRef .tc b) :=
  exitOf_of_ne _ _ c b hb
theorem W10_out : W10 m c (Proc.devRef .tc main_v42) = (dat0 (Vin0 m) c).arrAt 5 cfg0.N :=
  exitOf_arr _ _ c launch0.win.arr_inj 5
theorem W10_in (w : Fin cfg0.W) (hw : (cfg0.win w).isOut = false) :
    W10 m c (Proc.devRef .tc (Pipeline.arrRef spec0 w)) = W9 m c (Proc.devRef .tc (Pipeline.arrRef spec0 w)) :=
  exitOf_in _ _ c launch0.win.arr_inj (A_eq0 _ c) w hw
abbrev W11 : Dev nD → Valuation τ sig (Elt F) := fun c => StableHlo.after hostOps1 (W10 m c)
theorem W11_of (h : r ∉ hostOps1_W) : W11 m c (Proc.devRef .tc r) = W10 m c (Proc.devRef .tc r) :=
  StableHlo.after_of_writes_sub hostOps1 _ hostOps1_writes h
abbrev Vin1 : (c : Dev nD) → (b : Ref sig .tc) → Buf (Elt F) ((c : Thread nD τ).loc b) := fun c b => W11 m c b
def W12 : Valuation τ sig (Elt F) := exitOf (W11 m) (dat1 (Vin1 m)) c
theorem W12_of_ne (b : Ref sig .tc) (hb : ∀ w, Pipeline.arrRef spec1 w ≠ b) :
    W12 m c (Proc.devRef .tc b) = W11 m c (Proc.devRef .tc b) :=
  exitOf_of_ne _ _ c b hb
theorem W12_out : W12 m c (Proc.devRef .tc main_v45) = (dat1 (Vin1 m) c).arrAt 6 cfg1.N :=
  exitOf_arr _ _ c launch1.win.arr_inj 6
theorem W12_in (w : Fin cfg1.W) (hw : (cfg1.win w).isOut = false) :
    W12 m c (Proc.devRef .tc (Pipeline.arrRef spec1 w)) = W11 m c (Proc.devRef .tc (Pipeline.arrRef spec1 w)) :=
  exitOf_in _ _ c launch1.win.arr_inj (A_eq1 _ c) w hw
abbrev W13 : Dev nD → Valuation τ sig (Elt F) := fun c => StableHlo.after hostOps2 (W12 m c)
theorem W13_of (h : r ∉ hostOps2_W) : W13 m c (Proc.devRef .tc r) = W12 m c (Proc.devRef .tc r) :=
  StableHlo.after_of_writes_sub hostOps2 _ hostOps2_writes h
abbrev W14 : Dev nD → Valuation τ sig (Elt F) := fun c => StableHlo.after hostOps2_1 (W13 m c)
theorem W14_of (h : r ∉ hostOps2_1_W) : W14 m c (Proc.devRef .tc r) = W13 m c (Proc.devRef .tc r) :=
  StableHlo.after_of_writes_sub hostOps2_1 _ hostOps2_1_writes h
abbrev W15 : Dev nD → Valuation τ sig (Elt F) := fun c => StableHlo.after hostOps2_2 (W14 m c)
theorem W15_of (h : r ∉ hostOps2_2_W) : W15 m c (Proc.devRef .tc r) = W14 m c (Proc.devRef .tc r) :=
  StableHlo.after_of_writes_sub hostOps2_2 _ hostOps2_2_writes h
abbrev Vin2 : (c : Dev nD) → (b : Ref sig .tc) → Buf (Elt F) ((c : Thread nD τ).loc b) := fun c b => W15 m c b
def W16 : Valuation τ sig (Elt F) := exitOf (W15 m) (dat2 (Vin2 m)) c
theorem W16_of_ne (b : Ref sig .tc) (hb : ∀ w, Pipeline.arrRef spec2 w ≠ b) :
    W16 m c (Proc.devRef .tc b) = W15 m c (Proc.devRef .tc b) :=
  exitOf_of_ne _ _ c b hb
theorem W16_out : W16 m c (Proc.devRef .tc main_v57) = (dat2 (Vin2 m) c).arrAt 5 cfg2.N :=
  exitOf_arr _ _ c launch2.win.arr_inj 5
abbrev W17 : Dev nD → Valuation τ sig (Elt F) := fun c => StableHlo.after hostOps3 (W16 m c)
theorem W17_of (h : r ∉ hostOps3_W) : W17 m c (Proc.devRef .tc r) = W16 m c (Proc.devRef .tc r) :=
  StableHlo.after_of_writes_sub hostOps3 _ hostOps3_writes h
abbrev Vin3 : (c : Dev nD) → (b : Ref sig .tc) → Buf (Elt F) ((c : Thread nD τ).loc b) := fun c b => W17 m c b
def W18 : Valuation τ sig (Elt F) := exitOf (W17 m) (dat3 (Vin3 m)) c
theorem W18_of_ne (b : Ref sig .tc) (hb : ∀ w, Pipeline.arrRef spec3 w ≠ b) :
    W18 m c (Proc.devRef .tc b) = W17 m c (Proc.devRef .tc b) :=
  exitOf_of_ne _ _ c b hb
theorem W18_out : W18 m c (Proc.devRef .tc main_v61) = (dat3 (Vin3 m) c).arrAt 9 cfg3.N :=
  exitOf_arr _ _ c launch3.win.arr_inj 9
abbrev W19 : Dev nD → Valuation τ sig (Elt F) := fun c => StableHlo.after hostOps4 (W18 m c)

def Wfin (ρ : Dev nD → PrngReg) (c : Dev nD) : Valuation τ sig (Elt F) := W19 m c

abbrev mainArgs : List (Ref sig .tc) :=
  [main_arg0, main_arg1, main_arg2, main_arg3, main_arg4, main_arg5, main_arg6, main_arg7, main_arg8, main_arg9, main_arg10, main_arg11, main_arg12, main_arg13]

/-- No host stretch writes an argument and none is a window's array of a region, so the fold at it walks back to the launch memory. -/
theorem Wfin_arg (hr : r ∈ mainArgs) : Wfin m ρ c (Proc.devRef .tc r) = m ((c : Thread nD τ).loc r) := by
  refine (StableHlo.after_of_writes_sub hostOps4 _ hostOps4_writes ?_).trans <|
    (W18_of_ne m c r ?_).trans <|
    (W17_of m c r ?_).trans <|
    (W16_of_ne m c r ?_).trans <|
    (W15_of m c r ?_).trans <|
    (W14_of m c r ?_).trans <|
    (W13_of m c r ?_).trans <|
    (W12_of_ne m c r ?_).trans <|
    (W11_of m c r ?_).trans <|
    (W10_of_ne m c r ?_).trans <|
    (W9_of m c r ?_).trans <|
    (W8_of m c r ?_).trans <|
    (W7_of m c r ?_).trans <|
    (W6_of m c r ?_).trans <|
    (W5_of m c r ?_).trans <|
    (W4_of m c r ?_).trans <|
    (W3_of m c r ?_).trans <|
    (W2_of m c r ?_).trans <|
    (W1_of m c r ?_).trans rfl
  all_goals revert r; decide

end Cert.KernelIdeal.Hand

end
-- ==== Proof.KI.Run.lean ====
import proofs.«426621_j13099650253560_2_alg».proof.Proof.KI.R0
import proofs.«426621_j13099650253560_2_alg».proof.Proof.KI.R1
import proofs.«426621_j13099650253560_2_alg».proof.Proof.KI.R2
import proofs.«426621_j13099650253560_2_alg».proof.Proof.KI.R3
import proofs.«426621_j13099650253560_2_alg».proof.Proof.Gen.KernelIdeal.Regions
import proofs.«426621_j13099650253560_2_alg».proof.Proof.KI.RunFold

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 4) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev T (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W19 m c) ∗ ∃ r, prngReg c r)

section Owes
variable {cfg : Pipeline.Cfg sig Λ₀} {c : Dev nD} (dat : Dat τ (Elt F) Unit ℕ (UR sig nD τ) ℕ cfg c) (t : Fin (cfg.N + 1))
  (h0 : dat.owed t = 0)
include h0

theorem owesAt_intro (hr : dat.recorded t = Set.univ) :
    iprop(∃ W, owes (c : Thread nD τ) (0 : CellTallies nD τ sig Unit) W) ⊢ (dat.owesAt () t : sProp 𝕄) := by
  unfold Pipeline.Dat.owesAt Pipeline.owesWithin Pipeline.Dat.bound
  rw [h0, hr]
  iintro ⟨%W, HO⟩
  iexists W
  isplitr; · ipureintro; exact fun _ _ => Or.inl trivial
  iexact HO
theorem owesAt_elim :
    (dat.owesAt () t : sProp 𝕄) ⊢ iprop(∃ W, owes (c : Thread nD τ) (0 : CellTallies nD τ sig Unit) W) := by
  unfold Pipeline.Dat.owesAt Pipeline.owesWithin
  rw [h0]
  iintro ⟨%W, -, HO⟩
  iexists W
  iexact HO
end Owes

set_option backward.isDefEq.respectTransparency.types false in
def reg (p : Fin 4) (W : Dev nD → Valuation τ sig (Elt F)) (launch : Pipeline.LaunchFacts (nD := nD) (τ := τ) cfgs p)
    (hbody : ∀ c, BodyObligation (pdats m p c) (defs₀ (F := F)) Variants.none () Set.univ)
    (hA : ∀ c w, (pdats m p c).A w = W c (Proc.devRef .tc (Pipeline.arrRef (cfgs p).spec w)))
    (hshare : ∀ c w, (pdats m p c).share w = fullShare)
    (howed : ∀ c t, (pdats m p c).owed t = 0)
    (hrec : ∀ c t, (pdats m p c).recorded t = Set.univ)
    (hin : ∀ c, Pipeline.ΦA (cfgs p).spec c ⊢ (pdats m p c).Φ 0)
    (hout : ∀ c, (pdats m p c).Φ (Fin.last (cfgs p).N) ⊢ Pipeline.ΦA (cfgs p).spec c) :
    Pipeline.RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre := T W
  post := T (exitOf W (pdats m p))
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]
    have hsplit := Pipeline.arrays_of_unscopedBufs (pcfgs (F := F)) adm (pdats m) launch.win launch.arr_whole c
      (hshare c) (fun b => W c b) (hA c)
    rw [Pipeline.unscopedBufs_held] at hsplit
    have howes := owesAt_intro (pdats m p c) 0 (howed c 0) (hrec c 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply howes; iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (pcfgs (F := F)) adm launch.win launch.arr_whole c (pdats m) (hshare c) (fun b => W c b) (fun b => exitOf W (pdats m p) c b)
      ((pdats m p c).arrAt · (cfgs p).N) (fun w => (exitOf_arr W (pdats m p) c launch.win.arr_inj w).symm)
      fun b hb => exitOf_of_ne W (pdats m p) c b fun w e => hb (Finset.mem_image.mpr ⟨w, Finset.mem_univ _, e⟩)
    rw [Pipeline.unscopedBufs_held] at hjoin
    have howes := owesAt_elim (pdats m p c) (Fin.last (cfgs p).N) (howed c _)
    iintro ⟨Ha, HO, HY, Hrest⟩
    imodintro
    isplitl [Ha Hrest]
    · iapply hjoin; isplitl [Ha] <;> iassumption
    isplitl [HY]; · iexact HY
    iapply howes; iexact HO

abbrev reg0 := reg m 0 (W9 m) launch0 (body_obligation0 _) (A_eq0 _) (share0 _) (owed0 _) (recorded0 _) (hin0 _) (hout0 _)
abbrev reg1 := reg m 1 (W11 m) launch1 (body_obligation1 _) (A_eq1 _) (share1 _) (owed1 _) (recorded1 _) (hin1 _) (hout1 _)
abbrev reg2 := reg m 2 (W15 m) launch2 (body_obligation2 _) (A_eq2 _) (share2 _) (owed2 _) (recorded2 _) (hin2 _) (hout2 _)
abbrev reg3 := reg m 3 (W17 m) launch3 (body_obligation3 _) (A_eq3 _) (share3 _) (owed3 _) (recorded3 _) (hin3 _) (hout3 _)

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .host (hseg hostOps0_7 hostOps0_7_sub hostOps0_7_fresh (W7 m)),
    .host (hseg hostOps0_8 hostOps0_8_sub hostOps0_8_fresh (W8 m)),
    .region (reg0 m),
    .host (hseg hostOps1 hostOps1_sub hostOps1_fresh (W10 m)),
    .region (reg1 m),
    .host (hseg hostOps2 hostOps2_sub hostOps2_fresh (W12 m)),
    .host (hseg hostOps2_1 hostOps2_1_sub hostOps2_1_fresh (W13 m)),
    .host (hseg hostOps2_2 hostOps2_2_sub hostOps2_2_fresh (W14 m)),
    .region (reg2 m),
    .host (hseg hostOps3 hostOps3_sub hostOps3_fresh (W16 m)),
    .region (reg3 m),
    .host (hseg hostOps4 hostOps4_sub hostOps4_fresh (W18 m)) ]

theorem main_run (c : Dev nD) : main (F := F) c = Pipeline.Seg.run (segs m) :=
  (main_chain c).trans (Pipeline.Seg.run_eq_chain (segs m)).symm

theorem last_state (c : Dev nD) :
    T (W19 m) c ⊢ (iprop(Tₙ m c ∗ ∃ W, owes (c : Thread nD τ) (0 : CellTallies nD τ sig Unit) W) : sProp 𝕄) := by
  iintro ⟨Hh, Hp, HO⟩
  isplitl [Hh Hp]
  · isplitl [Hh] <;> iassumption
  iexact HO

set_option backward.isDefEq.respectTransparency.types false in
theorem run_main : θ_run defs (onTc (τ := τ) (main (F := F))) ⟨m, fun _ => 0, ρ⟩
    (fun r => ∀ c : Dev nD, ∀ b ∈ Pipeline.ucRefs τ sig, r.2.mem ((c : Thread nD τ).1, b) = Wfin m ρ c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, last_state m⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m c b)
    (hfin := fun c s' => by
      iintro ⟨⟨Hh, -⟩, HSI⟩
      unfold StableHlo.held
      imodintro
      iapply (pointsTo_read_all (Pipeline.ucRefs τ sig) (fun b => (((c : Thread nD τ)).1, b)) (W19 m c) s')
      isplitl [Hh] <;> iassumption)
    (hQ := fun s h => h)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => by
    and_intros <;> exact (h c _ (mem_uc _ (by decide))).trans (Wfin_arg m ρ c _ (by decide))) (run_main m ρ)

end Cert.KernelIdeal.Hand

end
-- ==== Proof.Ref.Run.lean ====
import proofs.«426621_j13099650253560_2_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 rfl shapeCasts_S1x320000_S320000,
    StableHlo.nullary main_cst (constant S_ .f32 0x00000000#32),
    StableHlo.binary main_arg0 main_cst main_v4 ((fun x v => Host.reduceAdd x v reducesTo_S10000x256_S256_d0 h_S_) : (⟨S10000x256, .f32⟩ : BufTy).Contents (Elt F) → (⟨S_, .f32⟩ : BufTy).Contents (Elt F) → (⟨S256, .f32⟩ : BufTy).Contents (Elt F)),
    StableHlo.nullary main_cst_0 (constant S_ .f32 0x461C4000#32),
    StableHlo.unary main_cst_0 main_v5 (broadcastInDim S256 ![] bcast_S_S256 : (⟨S_, .f32⟩ : BufTy).Contents (Elt F) → (⟨S256, .f32⟩ : BufTy).Contents (Elt F)),
    StableHlo.binary main_v4 main_v5 main_v6 (Host.divf : (⟨S256, .f32⟩ : BufTy).Contents (Elt F) → (⟨S256, .f32⟩ : BufTy).Contents (Elt F) → (⟨S256, .f32⟩ : BufTy).Contents (Elt F)),
    StableHlo.nullary main_c (constantI S_ 32 0#32),
    StableHlo.TRef.nullary main_call0.cst (constant S_ .f32 0x00000000#32),
    StableHlo.TRef.binary (.of main_arg0 : StableHlo.TRef sig ⟨S10000x256, .f32⟩) main_call0.cst main_call0.v0 (fun x v => Host.reduceAdd x v reducesTo_S10000x256_S256_d0 h_S_),
    StableHlo.TRef.unary main_call0.v0 main_call0.v1 (broadcastInDim S1x256 ![1] bcast_S256_S1x256_1),
    StableHlo.TRef.nullary main_call0.cst_0 (constant S_ .f32 0x461C4000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S10000x256 ![0, 1] bcast_S1x256_S10000x256_0_1),
    StableHlo.TRef.binary (.of main_arg0 : StableHlo.TRef sig ⟨S10000x256, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x461C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S10000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v6 main_v8 (broadcastInDim S1x256 ![1] bcast_S256_S1x256_1 : (⟨S256, .f32⟩ : BufTy).Contents (Elt F) → (⟨S1x256, .f32⟩ : BufTy).Contents (Elt F)),
    StableHlo.unary main_v8 main_v9 (broadcastInDim S10000x256 ![0, 1] bcast_S1x256_S10000x256_0_1 : (⟨S1x256, .f32⟩ : BufTy).Contents (Elt F) → (⟨S10000x256, .f32⟩ : BufTy).Contents (Elt F)),
    StableHlo.binary main_arg0 main_v9 main_v10 (subf : (⟨S10000x256, .f32⟩ : BufTy).Contents (Elt F) → (⟨S10000x256, .f32⟩ : BufTy).Contents (Elt F) → (⟨S10000x256, .f32⟩ : BufTy).Contents (Elt F)),
    StableHlo.nullary main_cst_1 (constant S_ .f32 0x3727C5AC#32),
    StableHlo.unary main_cst_1 main_v11 (broadcastInDim S256 ![] bcast_S_S256 : (⟨S_, .f32⟩ : BufTy).Contents (Elt F) → (⟨S256, .f32⟩ : BufTy).Contents (Elt F)),
    StableHlo.binary main_v7 main_v11 main_v12 (addf : (⟨S256, .f32⟩ : BufTy).Contents (Elt F) → (⟨S256, .f32⟩ : BufTy).Contents (Elt F) → (⟨S256, .f32⟩ : BufTy).Contents (Elt F)),
    StableHlo.unary main_v12 main_v13 (Host.rsqrt : (⟨S256, .f32⟩ : BufTy).Contents (Elt F) → (⟨S256, .f32⟩ : BufTy).Contents (Elt F)),
    StableHlo.unary main_v13 main_v14 (broadcastInDim S1x256 ![1] bcast_S256_S1x256_1 : (⟨S256, .f32⟩ : BufTy).Contents (Elt F) → (⟨S1x256, .f32⟩ : BufTy).Contents (Elt F)),
    StableHlo.unary main_v14 main_v15 (broadcastInDim S10000x256 ![0, 1] bcast_S1x256_S10000x256_0_1 : (⟨S1x256, .f32⟩ : BufTy).Contents (Elt F) → (⟨S10000x256, .f32⟩ : BufTy).Contents (Elt F)),
    StableHlo.binary main_v10 main_v15 main_v16 (mulf : (⟨S10000x256, .f32⟩ : BufTy).Contents (Elt F) → (⟨S10000x256, .f32⟩ : BufTy).Contents (Elt F) → (⟨S10000x256, .f32⟩ : BufTy).Contents (Elt F)),
    StableHlo.unary main_arg2 main_v17 (broadcastInDim S1x256 ![1] bcast_S256_S1x256_1 : (⟨S256, .f32⟩ : BufTy).Contents (Elt F) → (⟨S1x256, .f32⟩ : BufTy).Contents (Elt F)),
    StableHlo.unary main_v17 main_v18 (broadcastInDim S10000x256 ![0, 1] bcast_S1x256_S10000x256_0_1 : (⟨S1x256, .f32⟩ : BufTy).Contents (Elt F) → (⟨S10000x256, .f32⟩ : BufTy).Contents (Elt F)),
    StableHlo.binary main_v16 main_v18 main_v19 (mulf : (⟨S10000x256, .f32⟩ : BufTy).Contents (Elt F) → (⟨S10000x256, .f32⟩ : BufTy).Contents (Elt F) → (⟨S10000x256, .f32⟩ : BufTy).Contents (Elt F)),
    StableHlo.unary main_arg3 main_v20 (broadcastInDim S1x256 ![1] bcast_S256_S1x256_1 : (⟨S256, .f32⟩ : BufTy).Contents (Elt F) → (⟨S1x256, .f32⟩ : BufTy).Contents (Elt F)),
    StableHlo.unary main_v20 main_v21 (broadcastInDim S10000x256 ![0, 1] bcast_S1x256_S10000x256_0_1 : (⟨S1x256, .f32⟩ : BufTy).Contents (Elt F) → (⟨S10000x256, .f32⟩ : BufTy).Contents (Elt F)),
    StableHlo.binary main_v19 main_v21 main_v22 (addf : (⟨S10000x256, .f32⟩ : BufTy).Contents (Elt F) → (⟨S10000x256, .f32⟩ : BufTy).Contents (Elt F) → (⟨S10000x256, .f32⟩ : BufTy).Contents (Elt F)),
    StableHlo.TRef.nullary main_call1.cst (constant S_ .f32 0x00000000#32),
    StableHlo.TRef.unary main_call1.cst main_call1.v0 (broadcastInDim S10000x256 ![] bcast_S_S10000x256),
    StableHlo.TRef.binary (.of main_v22 : StableHlo.TRef sig ⟨S10000x256, .f32⟩) main_call1.v0 main_call1.v1 maximumf ]

abbrev ops1 : List (HloOp τ sig (Elt F)) :=
  [ StableHlo.nullary main_c_2 (constantI S_ 32 0#32),
    StableHlo.unary main_c_2 main_v24 (broadcastInDim S320000 ![] bcast_S_S320000 : (⟨S_, .i32⟩ : BufTy).Contents (Elt F) → (⟨S320000, .i32⟩ : BufTy).Contents (Elt F)),
    StableHlo.binary main_v1 main_v24 main_v25 (cmpi .slt : (⟨S320000, .i32⟩ : BufTy).Contents (Elt F) → (⟨S320000, .i32⟩ : BufTy).Contents (Elt F) → (⟨S320000, .i1⟩ : BufTy).Contents (Elt F)),
    StableHlo.nullary main_c_3 (constantI S_ 32 10000#32),
    StableHlo.unary main_c_3 main_v26 (broadcastInDim S320000 ![] bcast_S_S320000 : (⟨S_, .i32⟩ : BufTy).Contents (Elt F) → (⟨S320000, .i32⟩ : BufTy).Contents (Elt F)),
    StableHlo.binary main_v1 main_v26 main_v27 (addi : (⟨S320000, .i32⟩ : BufTy).Contents (Elt F) → (⟨S320000, .i32⟩ : BufTy).Contents (Elt F) → (⟨S320000, .i32⟩ : BufTy).Contents (Elt F)),
    StableHlo.ternary main_v25 main_v27 main_v1 main_v28 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v28 main_v29 (broadcastInDim S320000x1 ![0] bcast_S320000_S320000x1_0 : (⟨S320000, .i32⟩ : BufTy).Contents (Elt F) → (⟨S320000x1, .i32⟩ : BufTy).Contents (Elt F)),
    StableHlo.binary main_v23 main_v29 main_v30 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)),
    StableHlo.nullary main_cst_4 (constant S_ .f32 0x00000000#32),
    StableHlo.unary main_cst_4 main_v31 (broadcastInDim S10000x256 ![] bcast_S_S10000x256 : (⟨S_, .f32⟩ : BufTy).Contents (Elt F) → (⟨S10000x256, .f32⟩ : BufTy).Contents (Elt F)),
    StableHlo.unary main_v3 main_v32 (broadcastInDim S320000x1 ![0] bcast_S320000_S320000x1_0 : (⟨S320000, .i32⟩ : BufTy).Contents (Elt F) → (⟨S320000x1, .i32⟩ : BufTy).Contents (Elt F)),
    StableHlo.ternary main_v31 main_v32 main_v30 main_v33 ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)),
    StableHlo.nullary main_cst_5 (constant S_ .f32 0x3F800000#32),
    StableHlo.unary main_cst_5 main_v34 (broadcastInDim S320000x1 ![] bcast_S_S320000x1 : (⟨S_, .f32⟩ : BufTy).Contents (Elt F) → (⟨S320000x1, .f32⟩ : BufTy).Contents (Elt F)),
    StableHlo.nullary main_cst_6 (constant S_ .f32 0x00000000#32),
    StableHlo.unary main_cst_6 main_v35 (broadcastInDim S10000x1 ![] bcast_S_S10000x1 : (⟨S_, .f32⟩ : BufTy).Contents (Elt F) → (⟨S10000x1, .f32⟩ : BufTy).Contents (Elt F)),
    StableHlo.unary main_v3 main_v36 (broadcastInDim S320000x1 ![0] bcast_S320000_S320000x1_0 : (⟨S320000, .i32⟩ : BufTy).Contents (Elt F) → (⟨S320000x1, .i32⟩ : BufTy).Contents (Elt F)),
    StableHlo.ternary main_v35 main_v36 main_v34 main_v37 ((fun x i u => Host.scatterAdd scatter_S10000x1_S320000x1_S320000x1_1_0_0_1 x i u) : (⟨S10000x1, .f32⟩ : BufTy).Contents (Elt F) → (⟨S320000x1, .i32⟩ : BufTy).Contents (Elt F) → (⟨S320000x1, .f32⟩ : BufTy).Contents (Elt F) → (⟨S10000x1, .f32⟩ : BufTy).Contents (Elt F)),
    StableHlo.nullary main_cst_7 (constant S_ .f32 0x3F800000#32),
    StableHlo.unary main_cst_7 main_v38 (broadcastInDim S10000x1 ![] bcast_S_S10000x1 : (⟨S_, .f32⟩ : BufTy).Contents (Elt F) → (⟨S10000x1, .f32⟩ : BufTy).Contents (Elt F)),
    StableHlo.binary main_v37 main_v38 main_v39 (maximumf : (⟨S10000x1, .f32⟩ : BufTy).Contents (Elt F) → (⟨S10000x1, .f32⟩ : BufTy).Contents (Elt F) → (⟨S10000x1, .f32⟩ : BufTy).Contents (Elt F)),
    StableHlo.unary main_v39 main_v40 (broadcastInDim S10000x256 ![0, 1] bcast_S10000x1_S10000x256_0_1 : (⟨S10000x1, .f32⟩ : BufTy).Contents (Elt F) → (⟨S10000x256, .f32⟩ : BufTy).Contents (Elt F)),
    StableHlo.binary main_v33 main_v40 main_v41 (Host.divf : (⟨S10000x256, .f32⟩ : BufTy).Contents (Elt F) → (⟨S10000x256, .f32⟩ : BufTy).Contents (Elt F) → (⟨S10000x256, .f32⟩ : BufTy).Contents (Elt F)),
    StableHlo.binary main_v41 main_arg4 main_v42 ((fun l r => Host.dotGeneral dot_S10000x256_S256x512_S10000x512_1_0_0_1_n_n none l r) : (⟨S10000x256, .f32⟩ : BufTy).Contents (Elt F) → (⟨S256x512, .f32⟩ : BufTy).Contents (Elt F) → (⟨S10000x512, .f32⟩ : BufTy).Contents (Elt F)),
    StableHlo.unary main_arg6 main_v43 (broadcastInDim S1x512 ![1] bcast_S512_S1x512_1 : (⟨S512, .f32⟩ : BufTy).Contents (Elt F) → (⟨S1x512, .f32⟩ : BufTy).Contents (Elt F)),
    StableHlo.unary main_v43 main_v44 (broadcastInDim S10000x512 ![0, 1] bcast_S1x512_S10000x512_0_1 : (⟨S1x512, .f32⟩ : BufTy).Contents (Elt F) → (⟨S10000x512, .f32⟩ : BufTy).Contents (Elt F)),
    StableHlo.binary main_v42 main_v44 main_v45 (addf : (⟨S10000x512, .f32⟩ : BufTy).Contents (Elt F) → (⟨S10000x512, .f32⟩ : BufTy).Contents (Elt F) → (⟨S10000x512, .f32⟩ : BufTy).Contents (Elt F)),
    StableHlo.binary main_v23 main_arg5 main_v46 ((fun l r => Host.dotGeneral dot_S10000x256_S256x512_S10000x512_1_0_0_1_n_n none l r) : (⟨S10000x256, .f32⟩ : BufTy).Contents (Elt F) → (⟨S256x512, .f32⟩ : BufTy).Contents (Elt F) → (⟨S10000x512, .f32⟩ : BufTy).Contents (Elt F)),
    StableHlo.binary main_v45 main_v46 main_v47 (addf : (⟨S10000x512, .f32⟩ : BufTy).Contents (Elt F) → (⟨S10000x512, .f32⟩ : BufTy).Contents (Elt F) → (⟨S10000x512, .f32⟩ : BufTy).Contents (Elt F)),
    StableHlo.nullary main_cst_8 (constant S_ .f32 0x00000000#32),
    StableHlo.binary main_v47 main_cst_8 main_v48 ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F)) ]

abbrev ops2 : List (HloOp τ sig (Elt F)) :=
  [ StableHlo.nullary main_cst_9 (constant S_ .f32 0x461C4000#32),
    StableHlo.unary main_cst_9 main_v49 (broadcastInDim S512 ![] bcast_S_S512 : (⟨S_, .f32⟩ : BufTy).Contents (Elt F) → (⟨S512, .f32⟩ : BufTy).Contents (Elt F)),
    StableHlo.binary main_v48 main_v49 main_v50 (Host.divf : (⟨S512, .f32⟩ : BufTy).Contents (Elt F) → (⟨S512, .f32⟩ : BufTy).Contents (Elt F) → (⟨S512, .f32⟩ : BufTy).Contents (Elt F)),
    StableHlo.nullary main_c_10 (constantI S_ 32 0#32),
    StableHlo.TRef.nullary main_call2.cst (constant S_ .f32 0x00000000#32),
    StableHlo.TRef.binary (.of main_v47 : StableHlo.TRef sig ⟨S10000x512, .f32⟩) main_call2.cst main_call2.v0 (fun x v => Host.reduceAdd x v reducesTo_S10000x512_S512_d0 h_S_),
    StableHlo.TRef.unary main_call2.v0 main_call2.v1 (broadcastInDim S1x512 ![1] bcast_S512_S1x512_1),
    StableHlo.TRef.nullary main_call2.cst_0 (constant S_ .f32 0x461C4000#32),
    StableHlo.TRef.unary main_call2.cst_0 main_call2.v2 (broadcastInDim S1x512 ![] bcast_S_S1x512),
    StableHlo.TRef.binary main_call2.v1 main_call2.v2 main_call2.v3 Host.divf,
    StableHlo.TRef.unary main_call2.v3 main_call2.v4 (broadcastInDim S10000x512 ![0, 1] bcast_S1x512_S10000x512_0_1),
    StableHlo.TRef.binary (.of main_v47 : StableHlo.TRef sig ⟨S10000x512, .f32⟩) main_call2.v4 main_call2.v5 subf,
    StableHlo.TRef.binary main_call2.v5 main_call2.v5 main_call2.v6 mulf,
    StableHlo.TRef.unary (.of main_c_10 : StableHlo.TRef sig ⟨S_, .i32⟩) main_call2.v7 (sitofp .f32),
    StableHlo.TRef.nullary main_call2.cst_1 (constant S_ .f32 0x461C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S10000x512_S512_d0 h_S_),
    StableHlo.TRef.unary main_call2.v8 main_call2.v10 (broadcastInDim S512 ![] bcast_S_S512),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S512 ![] bcast_S_S512),
    StableHlo.TRef.ternary main_call2.v12 main_call2.v11 main_call2.call0.v1 main_call2.call0.v2 (fun p a b => select (broadcastInDim S512 ![] bcast_S_S512 p) a b),
    StableHlo.unary main_v50 main_v52 (broadcastInDim S1x512 ![1] bcast_S512_S1x512_1 : (⟨S512, .f32⟩ : BufTy).Contents (Elt F) → (⟨S1x512, .f32⟩ : BufTy).Contents (Elt F)),
    StableHlo.unary main_v52 main_v53 (broadcastInDim S10000x512 ![0, 1] bcast_S1x512_S10000x512_0_1 : (⟨S1x512, .f32⟩ : BufTy).Contents (Elt F) → (⟨S10000x512, .f32⟩ : BufTy).Contents (Elt F)),
    StableHlo.binary main_v47 main_v53 main_v54 (subf : (⟨S10000x512, .f32⟩ : BufTy).Contents (Elt F) → (⟨S10000x512, .f32⟩ : BufTy).Contents (Elt F) → (⟨S10000x512, .f32⟩ : BufTy).Contents (Elt F)),
    StableHlo.nullary main_cst_11 (constant S_ .f32 0x3727C5AC#32),
    StableHlo.unary main_cst_11 main_v55 (broadcastInDim S512 ![] bcast_S_S512 : (⟨S_, .f32⟩ : BufTy).Contents (Elt F) → (⟨S512, .f32⟩ : BufTy).Contents (Elt F)),
    StableHlo.binary main_v51 main_v55 main_v56 (addf : (⟨S512, .f32⟩ : BufTy).Contents (Elt F) → (⟨S512, .f32⟩ : BufTy).Contents (Elt F) → (⟨S512, .f32⟩ : BufTy).Contents (Elt F)),
    StableHlo.unary main_v56 main_v57 (Host.rsqrt : (⟨S512, .f32⟩ : BufTy).Contents (Elt F) → (⟨S512, .f32⟩ : BufTy).Contents (Elt F)),
    StableHlo.unary main_v57 main_v58 (broadcastInDim S1x512 ![1] bcast_S512_S1x512_1 : (⟨S512, .f32⟩ : BufTy).Contents (Elt F) → (⟨S1x512, .f32⟩ : BufTy).Contents (Elt F)),
    StableHlo.unary main_v58 main_v59 (broadcastInDim S10000x512 ![0, 1] bcast_S1x512_S10000x512_0_1 : (⟨S1x512, .f32⟩ : BufTy).Contents (Elt F) → (⟨S10000x512, .f32⟩ : BufTy).Contents (Elt F)),
    StableHlo.binary main_v54 main_v59 main_v60 (mulf : (⟨S10000x512, .f32⟩ : BufTy).Contents (Elt F) → (⟨S10000x512, .f32⟩ : BufTy).Contents (Elt F) → (⟨S10000x512, .f32⟩ : BufTy).Contents (Elt F)),
    StableHlo.unary main_arg7 main_v61 (broadcastInDim S1x512 ![1] bcast_S512_S1x512_1 : (⟨S512, .f32⟩ : BufTy).Contents (Elt F) → (⟨S1x512, .f32⟩ : BufTy).Contents (Elt F)),
    StableHlo.unary main_v61 main_v62 (broadcastInDim S10000x512 ![0, 1] bcast_S1x512_S10000x512_0_1 : (⟨S1x512, .f32⟩ : BufTy).Contents (Elt F) → (⟨S10000x512, .f32⟩ : BufTy).Contents (Elt F)),
    StableHlo.binary main_v60 main_v62 main_v63 (mulf : (⟨S10000x512, .f32⟩ : BufTy).Contents (Elt F) → (⟨S10000x512, .f32⟩ : BufTy).Contents (Elt F) → (⟨S10000x512, .f32⟩ : BufTy).Contents (Elt F)),
    StableHlo.unary main_arg8 main_v64 (broadcastInDim S1x512 ![1] bcast_S512_S1x512_1 : (⟨S512, .f32⟩ : BufTy).Contents (Elt F) → (⟨S1x512, .f32⟩ : BufTy).Contents (Elt F)),
    StableHlo.unary main_v64 main_v65 (broadcastInDim S10000x512 ![0, 1] bcast_S1x512_S10000x512_0_1 : (⟨S1x512, .f32⟩ : BufTy).Contents (Elt F) → (⟨S10000x512, .f32⟩ : BufTy).Contents (Elt F)),
    StableHlo.binary main_v63 main_v65 main_v66 (addf : (⟨S10000x512, .f32⟩ : BufTy).Contents (Elt F) → (⟨S10000x512, .f32⟩ : BufTy).Contents (Elt F) → (⟨S10000x512, .f32⟩ : BufTy).Contents (Elt F)),
    StableHlo.TRef.nullary main_call3.cst (constant S_ .f32 0x00000000#32),
    StableHlo.TRef.unary main_call3.cst main_call3.v0 (broadcastInDim S10000x512 ![] bcast_S_S10000x512),
    StableHlo.TRef.binary (.of main_v66 : StableHlo.TRef sig ⟨S10000x512, .f32⟩) main_call3.v0 main_call3.v1 maximumf ]

abbrev ops3 : List (HloOp τ sig (Elt F)) :=
  [ StableHlo.nullary main_c_12 (constantI S_ 32 0#32),
    StableHlo.unary main_c_12 main_v68 (broadcastInDim S320000 ![] bcast_S_S320000 : (⟨S_, .i32⟩ : BufTy).Contents (Elt F) → (⟨S320000, .i32⟩ : BufTy).Contents (Elt F)),
    StableHlo.binary main_v1 main_v68 main_v69 (cmpi .slt : (⟨S320000, .i32⟩ : BufTy).Contents (Elt F) → (⟨S320000, .i32⟩ : BufTy).Contents (Elt F) → (⟨S320000, .i1⟩ : BufTy).Contents (Elt F)),
    StableHlo.nullary main_c_13 (constantI S_ 32 10000#32),
    StableHlo.unary main_c_13 main_v70 (broadcastInDim S320000 ![] bcast_S_S320000 : (⟨S_, .i32⟩ : BufTy).Contents (Elt F) → (⟨S320000, .i32⟩ : BufTy).Contents (Elt F)),
    StableHlo.binary main_v1 main_v70 main_v71 (addi : (⟨S320000, .i32⟩ : BufTy).Contents (Elt F) → (⟨S320000, .i32⟩ : BufTy).Contents (Elt F) → (⟨S320000, .i32⟩ : BufTy).Contents (Elt F)),
    StableHlo.ternary main_v69 main_v71 main_v1 main_v72 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v72 main_v73 (broadcastInDim S320000x1 ![0] bcast_S320000_S320000x1_0 : (⟨S320000, .i32⟩ : BufTy).Contents (Elt F) → (⟨S320000x1, .i32⟩ : BufTy).Contents (Elt F)),
    StableHlo.binary main_v67 main_v73 main_v74 ((fun x i => Host.gather gather_S10000x512_S320000x1_S320000x512_1_0_n_n_0_1_1512 x i) : (⟨S10000x512, .f32⟩ : BufTy).Contents (Elt F) → (⟨S320000x1, .i32⟩ : BufTy).Contents (Elt F) → (⟨S320000x512, .f32⟩ : BufTy).Contents (Elt F)),
    StableHlo.nullary main_cst_14 (constant S_ .f32 0x00000000#32),
    StableHlo.unary main_cst_14 main_v75 (broadcastInDim S10000x512 ![] bcast_S_S10000x512 : (⟨S_, .f32⟩ : BufTy).Contents (Elt F) → (⟨S10000x512, .f32⟩ : BufTy).Contents (Elt F)),
    StableHlo.unary main_v3 main_v76 (broadcastInDim S320000x1 ![0] bcast_S320000_S320000x1_0 : (⟨S320000, .i32⟩ : BufTy).Contents (Elt F) → (⟨S320000x1, .i32⟩ : BufTy).Contents (Elt F)),
    StableHlo.ternary main_v75 main_v76 main_v74 main_v77 ((fun x i u => Host.scatterAdd scatter_S10000x512_S320000x1_S320000x512_1_0_0_1 x i u) : (⟨S10000x512, .f32⟩ : BufTy).Contents (Elt F) → (⟨S320000x1, .i32⟩ : BufTy).Contents (Elt F) → (⟨S320000x512, .f32⟩ : BufTy).Contents (Elt F) → (⟨S10000x512, .f32⟩ : BufTy).Contents (Elt F)),
    StableHlo.nullary main_cst_15 (constant S_ .f32 0x3F800000#32),
    StableHlo.unary main_cst_15 main_v78 (broadcastInDim S320000x1 ![] bcast_S_S320000x1 : (⟨S_, .f32⟩ : BufTy).Contents (Elt F) → (⟨S320000x1, .f32⟩ : BufTy).Contents (Elt F)),
    StableHlo.nullary main_cst_16 (constant S_ .f32 0x00000000#32),
    StableHlo.unary main_cst_16 main_v79 (broadcastInDim S10000x1 ![] bcast_S_S10000x1 : (⟨S_, .f32⟩ : BufTy).Contents (Elt F) → (⟨S10000x1, .f32⟩ : BufTy).Contents (Elt F)),
    StableHlo.unary main_v3 main_v80 (broadcastInDim S320000x1 ![0] bcast_S320000_S320000x1_0 : (⟨S320000, .i32⟩ : BufTy).Contents (Elt F) → (⟨S320000x1, .i32⟩ : BufTy).Contents (Elt F)),
    StableHlo.ternary main_v79 main_v80 main_v78 main_v81 ((fun x i u => Host.scatterAdd scatter_S10000x1_S320000x1_S320000x1_1_0_0_1 x i u) : (⟨S10000x1, .f32⟩ : BufTy).Contents (Elt F) → (⟨S320000x1, .i32⟩ : BufTy).Contents (Elt F) → (⟨S320000x1, .f32⟩ : BufTy).Contents (Elt F) → (⟨S10000x1, .f32⟩ : BufTy).Contents (Elt F)),
    StableHlo.nullary main_cst_17 (constant S_ .f32 0x3F800000#32),
    StableHlo.unary main_cst_17 main_v82 (broadcastInDim S10000x1 ![] bcast_S_S10000x1 : (⟨S_, .f32⟩ : BufTy).Contents (Elt F) → (⟨S10000x1, .f32⟩ : BufTy).Contents (Elt F)),
    StableHlo.binary main_v81 main_v82 main_v83 (maximumf : (⟨S10000x1, .f32⟩ : BufTy).Contents (Elt F) → (⟨S10000x1, .f32⟩ : BufTy).Contents (Elt F) → (⟨S10000x1, .f32⟩ : BufTy).Contents (Elt F)),
    StableHlo.unary main_v83 main_v84 (broadcastInDim S10000x512 ![0, 1] bcast_S10000x1_S10000x512_0_1 : (⟨S10000x1, .f32⟩ : BufTy).Contents (Elt F) → (⟨S10000x512, .f32⟩ : BufTy).Contents (Elt F)),
    StableHlo.binary main_v77 main_v84 main_v85 (Host.divf : (⟨S10000x512, .f32⟩ : BufTy).Contents (Elt F) → (⟨S10000x512, .f32⟩ : BufTy).Contents (Elt F) → (⟨S10000x512, .f32⟩ : BufTy).Contents (Elt F)),
    StableHlo.binary main_v85 main_arg9 main_v86 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)),
    StableHlo.unary main_arg11 main_v87 (broadcastInDim S1x512 ![1] bcast_S512_S1x512_1 : (⟨S512, .f32⟩ : BufTy).Contents (Elt F) → (⟨S1x512, .f32⟩ : BufTy).Contents (Elt F)),
    StableHlo.unary main_v87 main_v88 (broadcastInDim S10000x512 ![0, 1] bcast_S1x512_S10000x512_0_1 : (⟨S1x512, .f32⟩ : BufTy).Contents (Elt F) → (⟨S10000x512, .f32⟩ : BufTy).Contents (Elt F)),
    StableHlo.binary main_v86 main_v88 main_v89 (addf : (⟨S10000x512, .f32⟩ : BufTy).Contents (Elt F) → (⟨S10000x512, .f32⟩ : BufTy).Contents (Elt F) → (⟨S10000x512, .f32⟩ : BufTy).Contents (Elt F)),
    StableHlo.binary main_v67 main_arg10 main_v90 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)),
    StableHlo.binary main_v89 main_v90 main_v91 (addf : (⟨S10000x512, .f32⟩ : BufTy).Contents (Elt F) → (⟨S10000x512, .f32⟩ : BufTy).Contents (Elt F) → (⟨S10000x512, .f32⟩ : BufTy).Contents (Elt F)),
    StableHlo.binary main_arg0 main_arg12 main_v92 ((fun l r => Host.dotGeneral dot_S10000x256_S256x512_S10000x512_1_0_0_1_n_n none l r) : (⟨S10000x256, .f32⟩ : BufTy).Contents (Elt F) → (⟨S256x512, .f32⟩ : BufTy).Contents (Elt F) → (⟨S10000x512, .f32⟩ : BufTy).Contents (Elt F)),
    StableHlo.unary main_arg13 main_v93 (broadcastInDim S1x512 ![1] bcast_S512_S1x512_1 : (⟨S512, .f32⟩ : BufTy).Contents (Elt F) → (⟨S1x512, .f32⟩ : BufTy).Contents (Elt F)),
    StableHlo.unary main_v93 main_v94 (broadcastInDim S10000x512 ![0, 1] bcast_S1x512_S10000x512_0_1 : (⟨S1x512, .f32⟩ : BufTy).Contents (Elt F) → (⟨S10000x512, .f32⟩ : BufTy).Contents (Elt F)),
    StableHlo.binary main_v92 main_v94 main_v95 (addf : (⟨S10000x512, .f32⟩ : BufTy).Contents (Elt F) → (⟨S10000x512, .f32⟩ : BufTy).Contents (Elt F) → (⟨S10000x512, .f32⟩ : BufTy).Contents (Elt F)),
    StableHlo.binary main_v95 main_v91 main_v96 (addf : (⟨S10000x512, .f32⟩ : BufTy).Contents (Elt F) → (⟨S10000x512, .f32⟩ : BufTy).Contents (Elt F) → (⟨S10000x512, .f32⟩ : BufTy).Contents (Elt F)) ]

abbrev ops : List (HloOp τ sig (Elt F)) := (ops0 ++ ops1) ++ (ops2 ++ ops3)

theorem main_part0_eq (c : Dev nD) : main_part0 (F := F) c = seq (ops0 ++ ops1) := by
  rw [seq_append]
  simp only [main_part0, fn_var.body, fn_where.body, fn_relu.body, seq, bind_assoc, pure_bind]
  first | done | rfl

theorem main_part1_eq (c : Dev nD) : main_part1 (F := F) c = seq (ops2 ++ ops3) := by
  rw [seq_append]
  simp only [main_part1, fn_var_0.body, fn_where_1.body, fn_relu_2.body, seq, bind_assoc, pure_bind]
  first | done | rfl

theorem main_eq (c : Dev nD) : main (F := F) c = seq ops := by
  rw [show (ops : List (HloOp τ sig (Elt F))) = (ops0 ++ ops1) ++ (ops2 ++ ops3) from rfl, seq_append (ops0 ++ ops1) (ops2 ++ ops3),
    ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation is one of the five library forms, each of which names TensorCore references only and allocates nothing. -/
theorem ops0_sub : (ops0 : List (HloOp τ sig (Elt F))).Forall fun op => op.bufs ⊆ tcRefs τ sig := by
  and_intros <;> simp only [List.Forall, unary_bufs_sub, binary_bufs_sub, nullary_bufs_sub, ternary_bufs_sub, reshape_bufs_sub]
theorem ops0_fresh : (ops0 : List (HloOp τ sig (Elt F))).Forall fun op => op.fresh = ∅ := by
  and_intros <;> rfl
theorem ops1_sub : (ops1 : List (HloOp τ sig (Elt F))).Forall fun op => op.bufs ⊆ tcRefs τ sig := by
  and_intros <;> simp only [List.Forall, unary_bufs_sub, binary_bufs_sub, nullary_bufs_sub, ternary_bufs_sub, reshape_bufs_sub]
theorem ops1_fresh : (ops1 : List (HloOp τ sig (Elt F))).Forall fun op => op.fresh = ∅ := by
  and_intros <;> rfl
theorem ops2_sub : (ops2 : List (HloOp τ sig (Elt F))).Forall fun op => op.bufs ⊆ tcRefs τ sig := by
  and_intros <;> simp only [List.Forall, unary_bufs_sub, binary_bufs_sub, nullary_bufs_sub, ternary_bufs_sub, reshape_bufs_sub]
theorem ops2_fresh : (ops2 : List (HloOp τ sig (Elt F))).Forall fun op => op.fresh = ∅ := by
  and_intros <;> rfl
theorem ops3_sub : (ops3 : List (HloOp τ sig (Elt F))).Forall fun op => op.bufs ⊆ tcRefs τ sig := by
  and_intros <;> simp only [List.Forall, unary_bufs_sub, binary_bufs_sub, nullary_bufs_sub, ternary_bufs_sub, reshape_bufs_sub]
theorem ops3_fresh : (ops3 : List (HloOp τ sig (Elt F))).Forall fun op => op.fresh = ∅ := by
  and_intros <;> rfl

theorem ops_sub : (ops : List (HloOp τ sig (Elt F))).Forall fun op => op.bufs ⊆ tcRefs τ sig :=
  List.forall_append.mpr ⟨List.forall_append.mpr ⟨ops0_sub, ops1_sub⟩, List.forall_append.mpr ⟨ops2_sub, ops3_sub⟩⟩

theorem ops_fresh : ∀ op ∈ (ops : List (HloOp τ sig (Elt F))), op.fresh = ∅ :=
  List.forall_iff_forall_mem.mp <|
    List.forall_append.mpr ⟨List.forall_append.mpr ⟨ops0_fresh, ops1_fresh⟩, List.forall_append.mpr ⟨ops2_fresh, ops3_fresh⟩⟩

section Keep
variable (V : Valuation τ sig (Elt F)) (r : Ref sig .tc)

abbrev ops0_W : List (Ref sig .tc) :=
  [main_v0, main_v1, main_v2, main_v3, main_cst, main_v4, main_cst_0, main_v5,
    main_v6, main_c, main_call0_cst, main_call0_v0, main_call0_v1, main_call0_cst_0, main_call0_v2, main_call0_v3,
    main_call0_v4, main_call0_v5, main_call0_v6, main_call0_v7, main_call0_cst_1, main_call0_v8, main_call0_cst_2, main_call0_v9,
    main_call0_v10, main_call0_v11, main_call0_cst_3, main_call0_v12, main_call0_cst_4, main_call0_call0_v0, main_call0_call0_v1, main_v7,
    main_v8, main_v9, main_v10, main_cst_1, main_v11, main_v12, main_v13, main_v14,
    main_v15, main_v16, main_v17, main_v18, main_v19, main_v20, main_v21, main_v22,
    main_call1_cst, main_call1_v0, main_v23]

theorem ops0_writes : (ops0 : List (HloOp τ sig (Elt F))).Forall fun op =>
    op.writes ⊆ (ops0_W.map (Proc.devRef (τ := τ) .tc)).toFinset := by
  and_intros <;> exact Finset.singleton_subset_iff.mpr (List.mem_toFinset.mpr (List.mem_map_of_mem (by decide)))

theorem ops0_keep (h : r ∉ ops0_W) : after ops0 V (Proc.devRef .tc r) = V (Proc.devRef .tc r) :=
  after_of_writes_sub ops0 V ops0_writes h

abbrev ops1_W : List (Ref sig .tc) :=
  [main_c_2, main_v24, main_v25, main_c_3, main_v26, main_v27, main_v28, main_v29,
    main_v30, main_cst_4, main_v31, main_v32, main_v33, main_cst_5, main_v34, main_cst_6,
    main_v35, main_v36, main_v37, main_cst_7, main_v38, main_v39, main_v40, main_v41,
    main_v42, main_v43, main_v44, main_v45, main_v46, main_v47, main_cst_8, main_v48]

theorem ops1_writes : (ops1 : List (HloOp τ sig (Elt F))).Forall fun op =>
    op.writes ⊆ (ops1_W.map (Proc.devRef (τ := τ) .tc)).toFinset := by
  and_intros <;> exact Finset.singleton_subset_iff.mpr (List.mem_toFinset.mpr (List.mem_map_of_mem (by decide)))

theorem ops1_keep (h : r ∉ ops1_W) : after ops1 V (Proc.devRef .tc r) = V (Proc.devRef .tc r) :=
  after_of_writes_sub ops1 V ops1_writes h

abbrev ops2_W : List (Ref sig .tc) :=
  [main_cst_9, main_v49, main_v50, main_c_10, main_call2_cst, main_call2_v0, main_call2_v1, main_call2_cst_0,
    main_call2_v2, main_call2_v3, main_call2_v4, main_call2_v5, main_call2_v6, main_call2_v7, main_call2_cst_1, main_call2_v8,
    main_call2_cst_2, main_call2_v9, main_call2_v10, main_call2_v11, main_call2_cst_3, main_call2_v12, main_call2_cst_4, main_call2_call0_v0,
    main_call2_call0_v1, main_v51, main_v52, main_v53, main_v54, main_cst_11, main_v55, main_v56,
    main_v57, main_v58, main_v59, main_v60, main_v61, main_v62, main_v63, main_v64,
    main_v65, main_v66, main_call3_cst, main_call3_v0, main_v67]

theorem ops2_writes : (ops2 : List (HloOp τ sig (Elt F))).Forall fun op =>
    op.writes ⊆ (ops2_W.map (Proc.devRef (τ := τ) .tc)).toFinset := by
  and_intros <;> exact Finset.singleton_subset_iff.mpr (List.mem_toFinset.mpr (List.mem_map_of_mem (by decide)))

theorem ops2_keep (h : r ∉ ops2_W) : after ops2 V (Proc.devRef .tc r) = V (Proc.devRef .tc r) :=
  after_of_writes_sub ops2 V ops2_writes h

abbrev ops3_W : List (Ref sig .tc) :=
  [main_c_12, main_v68, main_v69, main_c_13, main_v70, main_v71, main_v72, main_v73,
    main_v74, main_cst_14, main_v75, main_v76, main_v77, main_cst_15, main_v78, main_cst_16,
    main_v79, main_v80, main_v81, main_cst_17, main_v82, main_v83, main_v84, main_v85,
    main_v86, main_v87, main_v88, main_v89, main_v90, main_v91, main_v92, main_v93,
    main_v94, main_v95, main_v96]

theorem ops3_writes : (ops3 : List (HloOp τ sig (Elt F))).Forall fun op =>
    op.writes ⊆ (ops3_W.map (Proc.devRef (τ := τ) .tc)).toFinset := by
  and_intros <;> exact Finset.singleton_subset_iff.mpr (List.mem_toFinset.mpr (List.mem_map_of_mem (by decide)))

theorem ops3_keep (h : r ∉ ops3_W) : after ops3 V (Proc.devRef .tc r) = V (Proc.devRef .tc r) :=
  after_of_writes_sub ops3 V ops3_writes h

theorem after_ops : after ops V = after ops3 (after ops2 (after ops1 (after ops0 V))) := by
  simp only [ops, StableHlo.after_append]

theorem ops_keep (h0 : r ∉ ops0_W) (h1 : r ∉ ops1_W) (h2 : r ∉ ops2_W) (h3 : r ∉ ops3_W) :
    after ops V (Proc.devRef .tc r) = V (Proc.devRef .tc r) := by
  rw [after_ops, ops3_keep _ r h3, ops2_keep _ r h2, ops1_keep _ r h1, ops0_keep _ r h0]

end Keep

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v96) = StableHlo.after ops (fun b => m (c, b)) (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => by
      refine ⟨h c main_v96, ?_⟩
      and_intros <;> exact (h c _).trans (ops_keep _ _ (by decide) (by decide) (by decide) (by decide)))
    (run_seq scopedRefs_eq scopedSems_eq defs main (fun _ => ops) main_eq (fun _ => ops_sub) m ρ (fun _ => ops_fresh))

end Cert.ReferenceIdeal.Hand

end
-- ==== Proof.Ref.Stages.lean ====
import proofs.«426621_j13099650253560_2_alg».proof.ReferenceIdeal
import proofs.«426621_j13099650253560_2_alg».proof.Proof.Gen.ReferenceIdeal

noncomputable section

namespace Cert.ReferenceIdeal.Hand

open Idealize.ShloMosaic Idealize.SL.Sem
open Cert.ReferenceIdeal Cert.ReferenceIdeal.Facts₀

variable {F : FTy → Type} [FloatOps F]

def stMean256 (x : FVec F S10000x256 .f32) : FVec F S256 .f32 :=
  Host.divf (Host.reduceAdd x (constant S_ .f32 0x00000000#32) reducesTo_S10000x256_S256_d0 h_S_)
    (broadcastInDim S256 ![] bcast_S_S256 (constant S_ .f32 0x461C4000#32))

def stVar256 (x : FVec F S10000x256 .f32) : FVec F S256 .f32 :=
  let d : FVec F S10000x256 .f32 :=
    subf x (broadcastInDim S10000x256 ![0, 1] bcast_S1x256_S10000x256_0_1
      (Host.divf
        (broadcastInDim S1x256 ![1] bcast_S256_S1x256_1
          (Host.reduceAdd x (constant S_ .f32 0x00000000#32) reducesTo_S10000x256_S256_d0 h_S_))
        (broadcastInDim S1x256 ![] bcast_S_S1x256 (constant S_ .f32 0x461C4000#32))))
  let m : FVec F S_ .f32 := subf (constant S_ .f32 0x461C4000#32) (sitofp .f32 (constantI S_ 32 0#32))
  select (broadcastInDim S256 ![] bcast_S_S256 (cmpf .ogt m (constant S_ .f32 0x00000000#32)))
    (Host.divf (Host.reduceAdd (mulf d d) (constant S_ .f32 0x00000000#32) reducesTo_S10000x256_S256_d0 h_S_)
      (broadcastInDim S256 ![] bcast_S_S256 m))
    (broadcastInDim S256 ![] bcast_S_S256 (id (constant S_ .f32 0x7FC00000#32)))

def stBnRelu256 (x : FVec F S10000x256 .f32) (mu var g b : FVec F S256 .f32) : FVec F S10000x256 .f32 :=
  maximumf
    (addf
      (mulf
        (mulf (subf x (broadcastInDim S10000x256 ![0, 1] bcast_S1x256_S10000x256_0_1 (broadcastInDim S1x256 ![1] bcast_S256_S1x256_1 mu)))
          (broadcastInDim S10000x256 ![0, 1] bcast_S1x256_S10000x256_0_1 (broadcastInDim S1x256 ![1] bcast_S256_S1x256_1 (Host.rsqrt (addf var (broadcastInDim S256 ![] bcast_S_S256 (constant S_ .f32 0x3727C5AC#32)))))))
        (broadcastInDim S10000x256 ![0, 1] bcast_S1x256_S10000x256_0_1 (broadcastInDim S1x256 ![1] bcast_S256_S1x256_1 g)))
      (broadcastInDim S10000x256 ![0, 1] bcast_S1x256_S10000x256_0_1 (broadcastInDim S1x256 ![1] bcast_S256_S1x256_1 b)))
    (broadcastInDim S10000x256 ![] bcast_S_S10000x256 (constant S_ .f32 0x00000000#32))

def stSrc (e : IVec S2x320000 32) : IVec S320000x1 32 :=
  let s : IVec S320000 32 :=
    shapeCast S320000 (extractStridedSlice S1x320000 ![0, 0] e slices_S2x320000_S1x320000_0_0)
      shapeCasts_S1x320000_S320000
  broadcastInDim S320000x1 ![0] bcast_S320000_S320000x1_0
    (select (cmpi .slt s (broadcastInDim S320000 ![] bcast_S_S320000 (constantI S_ 32 0#32)))
      (addi s (broadcastInDim S320000 ![] bcast_S_S320000 (constantI S_ 32 10000#32)))
      s)

def stDst (e : IVec S2x320000 32) : IVec S320000x1 32 :=
  broadcastInDim S320000x1 ![0] bcast_S320000_S320000x1_0
    (shapeCast S320000 (extractStridedSlice S1x320000 ![1, 0] e slices_S2x320000_S1x320000_1_0)
      shapeCasts_S1x320000_S320000)

def stSage256 (h : FVec F S10000x256 .f32) (e : IVec S2x320000 32) (wl wr : FVec F S256x512 .f32)
    (b : FVec F S512 .f32) : FVec F S10000x512 .f32 :=
  addf
    (addf
      (Host.dotGeneral dot_S10000x256_S256x512_S10000x512_1_0_0_1_n_n none
        (Host.divf
          (Host.scatterAdd scatter_S10000x256_S320000x1_S320000x256_1_0_0_1
            (broadcastInDim S10000x256 ![] bcast_S_S10000x256 (constant S_ .f32 0x00000000#32))
            (stDst e)
            (Host.gather gather_S10000x256_S320000x1_S320000x256_1_0_n_n_0_1_1256 h (stSrc e)))
          (broadcastInDim S10000x256 ![0, 1] bcast_S10000x1_S10000x256_0_1
            (maximumf
              (Host.scatterAdd scatter_S10000x1_S320000x1_S320000x1_1_0_0_1
                (broadcastInDim S10000x1 ![] bcast_S_S10000x1 (constant S_ .f32 0x00000000#32))
                (stDst e)
                (broadcastInDim S320000x1 ![] bcast_S_S320000x1 (constant S_ .f32 0x3F800000#32)))
              (broadcastInDim S10000x1 ![] bcast_S_S10000x1 (constant S_ .f32 0x3F800000#32)))))
        wl)
      (broadcastInDim S10000x512 ![0, 1] bcast_S1x512_S10000x512_0_1
        (broadcastInDim S1x512 ![1] bcast_S512_S1x512_1 b)))
    (Host.dotGeneral dot_S10000x256_S256x512_S10000x512_1_0_0_1_n_n none h wr)

def stMean512 (x : FVec F S10000x512 .f32) : FVec F S512 .f32 :=
  Host.divf (Host.reduceAdd x (constant S_ .f32 0x00000000#32) reducesTo_S10000x512_S512_d0 h_S_)
    (broadcastInDim S512 ![] bcast_S_S512 (constant S_ .f32 0x461C4000#32))

def stVar512 (x : FVec F S10000x512 .f32) : FVec F S512 .f32 :=
  let d : FVec F S10000x512 .f32 :=
    subf x (broadcastInDim S10000x512 ![0, 1] bcast_S1x512_S10000x512_0_1
      (Host.divf
        (broadcastInDim S1x512 ![1] bcast_S512_S1x512_1
          (Host.reduceAdd x (constant S_ .f32 0x00000000#32) reducesTo_S10000x512_S512_d0 h_S_))
        (broadcastInDim S1x512 ![] bcast_S_S1x512 (constant S_ .f32 0x461C4000#32))))
  let m : FVec F S_ .f32 := subf (constant S_ .f32 0x461C4000#32) (sitofp .f32 (constantI S_ 32 0#32))
  select (broadcastInDim S512 ![] bcast_S_S512 (cmpf .ogt m (constant S_ .f32 0x00000000#32)))
    (Host.divf (Host.reduceAdd (mulf d d) (constant S_ .f32 0x00000000#32) reducesTo_S10000x512_S512_d0 h_S_)
      (broadcastInDim S512 ![] bcast_S_S512 m))
    (broadcastInDim S512 ![] bcast_S_S512 (id (constant S_ .f32 0x7FC00000#32)))

def stBnRelu512 (x : FVec F S10000x512 .f32) (mu var g b : FVec F S512 .f32) : FVec F S10000x512 .f32 :=
  maximumf
    (addf
      (mulf
        (mulf (subf x (broadcastInDim S10000x512 ![0, 1] bcast_S1x512_S10000x512_0_1 (broadcastInDim S1x512 ![1] bcast_S512_S1x512_1 mu)))
          (broadcastInDim S10000x512 ![0, 1] bcast_S1x512_S10000x512_0_1 (broadcastInDim S1x512 ![1] bcast_S512_S1x512_1 (Host.rsqrt (addf var (broadcastInDim S512 ![] bcast_S_S512 (constant S_ .f32 0x3727C5AC#32)))))))
        (broadcastInDim S10000x512 ![0, 1] bcast_S1x512_S10000x512_0_1 (broadcastInDim S1x512 ![1] bcast_S512_S1x512_1 g)))
      (broadcastInDim S10000x512 ![0, 1] bcast_S1x512_S10000x512_0_1 (broadcastInDim S1x512 ![1] bcast_S512_S1x512_1 b)))
    (broadcastInDim S10000x512 ![] bcast_S_S10000x512 (constant S_ .f32 0x00000000#32))

def stSage512 (h : FVec F S10000x512 .f32) (e : IVec S2x320000 32) (wl wr : FVec F S512x512 .f32)
    (b : FVec F S512 .f32) : FVec F S10000x512 .f32 :=
  addf
    (addf
      (Host.dotGeneral dot_S10000x512_S512x512_S10000x512_1_0_0_1_n_n none
        (Host.divf
          (Host.scatterAdd scatter_S10000x512_S320000x1_S320000x512_1_0_0_1
            (broadcastInDim S10000x512 ![] bcast_S_S10000x512 (constant S_ .f32 0x00000000#32))
            (stDst e)
            (Host.gather gather_S10000x512_S320000x1_S320000x512_1_0_n_n_0_1_1512 h (stSrc e)))
          (broadcastInDim S10000x512 ![0, 1] bcast_S10000x1_S10000x512_0_1
            (maximumf
              (Host.scatterAdd scatter_S10000x1_S320000x1_S320000x1_1_0_0_1
                (broadcastInDim S10000x1 ![] bcast_S_S10000x1 (constant S_ .f32 0x00000000#32))
                (stDst e)
                (broadcastInDim S320000x1 ![] bcast_S_S320000x1 (constant S_ .f32 0x3F800000#32)))
              (broadcastInDim S10000x1 ![] bcast_S_S10000x1 (constant S_ .f32 0x3F800000#32)))))
        wl)
      (broadcastInDim S10000x512 ![0, 1] bcast_S1x512_S10000x512_0_1
        (broadcastInDim S1x512 ![1] bcast_S512_S1x512_1 b)))
    (Host.dotGeneral dot_S10000x512_S512x512_S10000x512_1_0_0_1_n_n none h wr)

def stShortcut (x : FVec F S10000x256 .f32) (w : FVec F S256x512 .f32) (b : FVec F S512 .f32) :
    FVec F S10000x512 .f32 :=
  addf (Host.dotGeneral dot_S10000x256_S256x512_S10000x512_1_0_0_1_n_n none x w)
    (broadcastInDim S10000x512 ![0, 1] bcast_S1x512_S10000x512_0_1
      (broadcastInDim S1x512 ![1] bcast_S512_S1x512_1 b))

def stOut (a0 : FVec F S10000x256 .f32) (a1 : IVec S2x320000 32) (a2 a3 : FVec F S256 .f32)
    (a4 a5 : FVec F S256x512 .f32) (a6 a7 a8 : FVec F S512 .f32) (a9 a10 : FVec F S512x512 .f32)
    (a11 : FVec F S512 .f32) (a12 : FVec F S256x512 .f32) (a13 : FVec F S512 .f32) :
    FVec F S10000x512 .f32 :=
  let h0 := stBnRelu256 a0 (stMean256 a0) (stVar256 a0) a2 a3
  let o0 := stSage256 h0 a1 a4 a5 a6
  let h1 := stBnRelu512 o0 (stMean512 o0) (stVar512 o0) a7 a8
  addf (stShortcut a0 a12 a13) (stSage512 h1 a1 a9 a10 a11)

end Cert.ReferenceIdeal.Hand

end
-- ==== Proof.Ref.RunVal.lean ====
import proofs.«426621_j13099650253560_2_alg».proof.Proof.Ref.Run
import proofs.«426621_j13099650253560_2_alg».proof.Proof.Ref.Stages

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F] (V W : Valuation τ sig (Elt F)) (r : Ref sig .tc)

def flat0 (e : IVec S2x320000 32) : IVec S320000 32 :=
  shapeCast S320000 (extractStridedSlice S1x320000 ![0, 0] e slices_S2x320000_S1x320000_0_0) shapeCasts_S1x320000_S320000

def flat1 (e : IVec S2x320000 32) : IVec S320000 32 :=
  shapeCast S320000 (extractStridedSlice S1x320000 ![1, 0] e slices_S2x320000_S1x320000_1_0) shapeCasts_S1x320000_S320000

theorem keep12 (h1 : r ∉ ops1_W) (h2 : r ∉ ops2_W) :
    after ops2 (after ops1 W) (Proc.devRef .tc r) = W (Proc.devRef .tc r) := by
  rw [ops2_keep _ r h2, ops1_keep _ r h1]

theorem keep012 (h0 : r ∉ ops0_W) (h1 : r ∉ ops1_W) (h2 : r ∉ ops2_W) :
    after ops2 (after ops1 (after ops0 V)) (Proc.devRef .tc r) = V (Proc.devRef .tc r) := by
  rw [keep12 _ r h1 h2, ops0_keep _ r h0]

theorem keep01 (h0 : r ∉ ops0_W) (h1 : r ∉ ops1_W) :
    after ops1 (after ops0 V) (Proc.devRef .tc r) = V (Proc.devRef .tc r) := by
  rw [ops1_keep _ r h1, ops0_keep _ r h0]

theorem c0_v1 :
    after ops0 V (Proc.devRef .tc main_v1) = flat0 (V (Proc.devRef .tc main_arg1)) := by
  after_results_simp <;> rfl

theorem c0_v3 :
    after ops0 V (Proc.devRef .tc main_v3) = flat1 (V (Proc.devRef .tc main_arg1)) := by
  after_results_simp <;> rfl

section
attribute [local irreducible] Host.reduceAdd Host.gather Host.scatterAdd

theorem c0_v23 :
    after ops0 V (Proc.devRef .tc main_v23)
      = stBnRelu256 (V (Proc.devRef .tc main_arg0)) (stMean256 (V (Proc.devRef .tc main_arg0))) (stVar256 (V (Proc.devRef .tc main_arg0)))
          (V (Proc.devRef .tc main_arg2)) (V (Proc.devRef .tc main_arg3)) := by
  after_results_simp <;> (try simp only [TRef.ofBuf, TRef.toBuf, cast_eq]) <;> rfl

theorem c2_v67 (X : FVec F S10000x512 .f32)
    (h47 : W (Proc.devRef .tc main_v47) = X)
    (h48 : W (Proc.devRef .tc main_v48) = Host.reduceAdd X (constant S_ .f32 0x00000000#32) reducesTo_S10000x512_S512_d0 h_S_) :
    after ops2 W (Proc.devRef .tc main_v67)
      = stBnRelu512 X (stMean512 X) (stVar512 X) (W (Proc.devRef .tc main_arg7)) (W (Proc.devRef .tc main_arg8)) := by
  after_results_simp
  (try simp only [TRef.ofBuf, TRef.toBuf, cast_eq])
  rw [h48, h47]
  rfl

variable (e : IVec S2x320000 32)
    (hs : W (Proc.devRef .tc main_v1) = flat0 e) (hd : W (Proc.devRef .tc main_v3) = flat1 e)
include hs hd

theorem c1_v47 :
    after ops1 W (Proc.devRef .tc main_v47)
      = stSage256 (W (Proc.devRef .tc main_v23)) e (W (Proc.devRef .tc main_arg4)) (W (Proc.devRef .tc main_arg5)) (W (Proc.devRef .tc main_arg6)) := by
  after_results_simp
  rw [hs, hd]
  rfl

theorem c1_v48 :
    after ops1 W (Proc.devRef .tc main_v48)
      = Host.reduceAdd (stSage256 (W (Proc.devRef .tc main_v23)) e (W (Proc.devRef .tc main_arg4)) (W (Proc.devRef .tc main_arg5)) (W (Proc.devRef .tc main_arg6)))
          (constant S_ .f32 0x00000000#32) reducesTo_S10000x512_S512_d0 h_S_ := by
  after_results_simp
  rw [hs, hd]
  rfl

theorem c3_v96 :
    after ops3 W (Proc.devRef .tc main_v96)
      = addf (stShortcut (W (Proc.devRef .tc main_arg0)) (W (Proc.devRef .tc main_arg12)) (W (Proc.devRef .tc main_arg13)))
          (stSage512 (W (Proc.devRef .tc main_v67)) e (W (Proc.devRef .tc main_arg9)) (W (Proc.devRef .tc main_arg10)) (W (Proc.devRef .tc main_arg11))) := by
  after_results_simp
  rw [hs, hd]
  rfl

end

theorem out_at (m : (ℓ : Loc nD τ sig) → Buf (Elt F) ℓ) (c : Dev nD) :
    StableHlo.after ops (fun b => m (c, b)) (Proc.devRef .tc main_v96)
      = stOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  let U : Valuation τ sig (Elt F) := fun b => m (c, b)
  show StableHlo.after ops U _ = _
  rw [after_ops]
  have hs1 := c0_v1 U
  have hd1 := c0_v3 U
  have hs3 := (keep12 (after ops0 U) main_v1 (by decide) (by decide)).trans hs1
  have hd3 := (keep12 (after ops0 U) main_v3 (by decide) (by decide)).trans hd1
  have e47 := c1_v47 (after ops0 U) _ hs1 hd1
  have e48 := c1_v48 (after ops0 U) _ hs1 hd1
  have e67 := c2_v67 (after ops1 (after ops0 U)) _ e47 e48
  have e96 := c3_v96 (after ops2 (after ops1 (after ops0 U))) _ hs3 hd3
  rw [e96, e67, c0_v23 U,
    keep012 U main_arg0 (by decide) (by decide) (by decide), keep012 U main_arg9 (by decide) (by decide) (by decide),
    keep012 U main_arg10 (by decide) (by decide) (by decide), keep012 U main_arg11 (by decide) (by decide) (by decide),
    keep012 U main_arg12 (by decide) (by decide) (by decide), keep012 U main_arg13 (by decide) (by decide) (by decide),
    keep01 U main_arg7 (by decide) (by decide), keep01 U main_arg8 (by decide) (by decide),
    ops0_keep U main_arg4 (by decide), ops0_keep U main_arg5 (by decide), ops0_keep U main_arg6 (by decide)]
  rfl

end Cert.ReferenceIdeal.Hand
-- ==== Proof.LibRowGather2.lean ====
import Idealize.ShloMosaic.Lib.ValueIdx

noncomputable section

namespace Cert.RowGather2

open Idealize.ShloMosaic Idealize.ShloMosaic.ValueIdx

abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

variable {α : Type} {N C R w : Nat}
  (wf : GatherDims.WF ⟨2, ![N, C]⟩ ⟨2, ![R, 1]⟩ ⟨2, ![R, C]⟩ [1] [0] [] [0] [] 1 ![1, C])
  (idx : IVec ⟨2, ![R, 1]⟩ w) (r : Fin R) (c : Fin C)

/-- Axis 0 is collapsed and indexed: no batching or offset coordinate, the start the clamped index entry. -/
theorem operandIdx_row :
    ((rowDims N C R wf).operandIdx (ix2 r c) idx (0 : Fin 2)).val = min (idx (ix2 r (0 : Fin 1))).toInt.toNat (N - 1) := by
  show (rowDims N C R wf).start (ix2 r c) idx 0 + (rowDims N C R wf).batchCoord (ix2 r c) 0
      + (rowDims N C R wf).offCoord (ix2 r c) 0 = _
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos (List.mem_singleton.mpr rfl)]
  exact congrArg (fun k => min (idx k).toInt.toNat (N - 1)) (funext fun | ⟨0, _⟩ => rfl | ⟨1, _⟩ => rfl)

/-- Axis 1 is the offset axis: start and batching coordinate 0, the offset the result's column. -/
theorem operandIdx_col :
    ((rowDims N C R wf).operandIdx (ix2 r c) idx (1 : Fin 2)).val = c.val := by
  have h1 : ¬ (1 : Fin 2) ∈ [(0 : Fin 2)] := fun h => absurd (congrArg Fin.val (List.mem_singleton.mp h)) Nat.one_ne_zero
  show (rowDims N C R wf).start (ix2 r c) idx 1 + (rowDims N C R wf).batchCoord (ix2 r c) 1
      + (rowDims N C R wf).offCoord (ix2 r c) 1 = _
  rw [GatherDims.batchCoord_eq_zero _ _ _ List.not_mem_nil, Nat.add_zero]
  unfold GatherDims.start GatherDims.offCoord
  rw [dif_neg h1, Nat.zero_add, dif_pos ((GatherDims.mem_sKept _ _).mpr ⟨h1, List.not_mem_nil⟩)]
  rfl

theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N C R wf) x idx (ix2 r c)
      = x (ix2 ⟨min (idx (ix2 r (0 : Fin 1))).toInt.toNat (N - 1), by omega⟩ c) :=
  congrArg x (funext fun
    | ⟨0, _⟩ => Fin.ext (operandIdx_row wf idx r c)
    | ⟨1, _⟩ => Fin.ext (operandIdx_col wf idx r c))

end Cert.RowGather2
-- ==== Proof.LibScatter.lean ====
import Idealize.ShloMosaic.Lib.ValueIdx
import Idealize.ShloMosaic.PureOps.Ideal
import Idealize.ShloMosaic.PureOps.Contract

noncomputable section

namespace Cert.Scatter

open Idealize.ShloMosaic

variable {s si u : Shape} (d : ScatterDims s si u) {w : Nat} (idx : IVec si w)

/-- The landing index exists when every start plus window coordinate is in range, and is then that sum on every axis. -/
theorem resultIdx?_eq_some_iff (j : u.Idx) (i : s.Idx) :
    d.resultIdx? j idx = some i ↔ ∀ a, d.start j idx a + (d.window j a : Int) = ((i a).val : Int) := by
  unfold ScatterDims.resultIdx?
  constructor
  · intro hEq
    split at hEq
    · rename_i h
      intro a
      have h1 : (d.start j idx a + (d.window j a : Int)).toNat = (i a).val :=
        congrArg (fun f : s.Idx => (f a).val) (Option.some.inj hEq)
      have := (h a).1
      omega
    · exact absurd hEq (by simp)
  · intro h
    have hall : ∀ a, 0 ≤ d.start j idx a + (d.window j a : Int)
        ∧ d.start j idx a + (d.window j a : Int) < (s.size a : Int) := fun a => by
      rw [h a]; have := (i a).isLt; omega
    rw [dif_pos hall]
    exact congrArg some (funext fun a => Fin.ext (by
      show (d.start j idx a + (d.window j a : Int)).toNat = (i a).val
      rw [h a]; omega))

/-- The updates landing at i are counted by a parameter e, through g with inverse g' on them: the sum over them is the sum over e. -/
theorem scatterAdd_apply {φ : FTy} (x : FVec Ideal s φ) (upd : FVec Ideal u φ) (i : s.Idx)
    {ι : Type} [Fintype ι] (q : ι → Prop) [DecidablePred q] (g : ι → u.Idx) (g' : u.Idx → ι)
    (hgg' : ∀ e, g' (g e) = e) (hg'g : ∀ j, d.resultIdx? j idx = some i → g (g' j) = j)
    (hq : ∀ e, d.resultIdx? (g e) idx = some i ↔ q e) :
    Host.scatterAdd d x idx upd i = x i + ∑ e ∈ Finset.univ.filter q, upd (g e) := by
  unfold Host.scatterAdd
  rw [Ideal.hostScatterAdd_def]
  unfold Ideal.hostScatterAdd
  refine congrArg (x i + ·) (Finset.sum_nbij' g' g ?_ ?_ ?_ ?_ ?_)
  · intro j hj
    rw [Finset.mem_filter] at hj ⊢
    exact ⟨Finset.mem_univ _, (hq _).mp (by rw [hg'g j hj.2]; exact hj.2)⟩
  · intro e he
    rw [Finset.mem_filter] at he ⊢
    exact ⟨Finset.mem_univ _, (hq e).mpr he.2⟩
  · intro j hj
    exact hg'g j (Finset.mem_filter.mp hj).2
  · intro e _
    exact hgg' e
  · intro j hj
    rw [hg'g j (Finset.mem_filter.mp hj).2]

end Cert.Scatter
-- ==== Proof.LibRowScatter.lean ====
import proofs.«426621_j13099650253560_2_alg».proof.Proof.LibScatter

noncomputable section

namespace Cert.RowScatter

open Idealize.ShloMosaic Idealize.ShloMosaic.ValueIdx

abbrev rowDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N C R w : Nat}
  (wf : ScatterDims.WF ⟨2, ![N, C]⟩ ⟨2, ![R, 1]⟩ ⟨2, ![R, C]⟩ [1] [0] [0] 1)
  (idx : IVec ⟨2, ![R, 1]⟩ w) (j : (⟨2, ![R, C]⟩ : Shape).Idx)

theorem start_row : (rowDims N C R wf).start j idx (0 : Fin 2) = (idx (ix2 (j 0) (0 : Fin 1))).toInt := by
  unfold ScatterDims.start
  rw [dif_pos (List.mem_singleton.mpr rfl)]
  exact congrArg (fun k => (idx k).toInt) (funext fun | ⟨0, _⟩ => rfl | ⟨1, _⟩ => rfl)

theorem start_col : (rowDims N C R wf).start j idx (1 : Fin 2) = 0 :=
  dif_neg fun h => absurd (congrArg Fin.val (List.mem_singleton.mp h)) Nat.one_ne_zero

theorem window_row : (rowDims N C R wf).window j (0 : Fin 2) = 0 :=
  dif_neg (by simp [ScatterDims.sKept, Shape.kept])

theorem window_col : (rowDims N C R wf).window j (1 : Fin 2) = (j 1).val :=
  dif_pos (by simp [ScatterDims.sKept, Shape.kept])

/-- Axis 0 is the scattered axis (start the index entry, window 0); axis 1 the window axis (start 0, window the column). -/
theorem resultIdx?_eq_some_iff (i : (⟨2, ![N, C]⟩ : Shape).Idx) :
    (rowDims N C R wf).resultIdx? j idx = some i
      ↔ (idx (ix2 (j 0) (0 : Fin 1))).toInt = ((i 0).val : Int) ∧ (j 1).val = (i 1).val := by
  rw [Cert.Scatter.resultIdx?_eq_some_iff, Fin.forall_fin_two, start_row, start_col, window_row, window_col]
  omega

theorem scatterAdd_rows_apply {N C R w : Nat} {φ : FTy}
    (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ)
    (i : Fin N) (c : Fin C) :
    Host.scatterAdd (rowDims N C R wf) x idx upd (ix2 i c)
      = x (ix2 i c) + ∑ e ∈ Finset.univ.filter (fun e : Fin R => (idx (ix2 e (0 : Fin 1))).toInt = (i.val : Int)),
          upd (ix2 e c) :=
  Cert.Scatter.scatterAdd_apply _ idx x upd (ix2 i c) _ (fun e => ix2 e c) (fun j => j 0) (fun _ => rfl)
    (fun j hj => by
      have h1 : j 1 = c := Fin.ext ((resultIdx?_eq_some_iff wf idx j _).mp hj).2
      rw [← h1]; exact (eq_ix2 j).symm)
    (fun e => (resultIdx?_eq_some_iff wf idx (ix2 e c) (ix2 i c)).trans (and_iff_left rfl))

end Cert.RowScatter
-- ==== Proof.LibDot2.lean ====
import Idealize.ShloMosaic.Lib.StackMember

noncomputable section

open scoped BigOperators

namespace Cert.Dot2

open Idealize.ShloMosaic Idealize.ShloMosaic.ValueIdx

variable {m k n : Nat} {φ₁ φ₂ : FTy} {D : DotDims ⟨2, ![m, k]⟩ ⟨2, ![k, n]⟩ ⟨2, ![m, n]⟩}
  (prec : Option ContractPrecision) (A : FVec Ideal ⟨2, ![m, k]⟩ φ₁) (B : FVec Ideal ⟨2, ![k, n]⟩ φ₂)
  (a : Fin m) (b : Fin n) (hD : D = DotDims.plain m k n)
include hD

/-- D has the plain product's axis lists, so it is the plain product: row a of A against column b of B. -/
theorem dotGeneral_apply :
    Host.dotGeneral D prec A B (ix2 a b) = ∑ c : Fin k, A (ix2 a c) * B (ix2 c b) :=
  hD ▸ StackMember.dotGeneral_plain_apply prec A B a b

/-- Accumulating into zero adds nothing to the product. -/
theorem matmul_zero_apply :
    matmul D prec A B (constant ⟨2, ![m, n]⟩ .f32 0x00000000#32) (ix2 a b) = ∑ c : Fin k, A (ix2 a c) * B (ix2 c b) :=
  (congrFun (matmul_zero_eq_dotGeneral D prec A B) _).trans (dotGeneral_apply prec A B a b hD)

end Cert.Dot2
-- ==== Proof.Ref.Vals.lean ====
import proofs.«426621_j13099650253560_2_alg».proof.Proof.Ref.Stages
import proofs.«426621_j13099650253560_2_alg».proof.Proof.LibRowGather2
import proofs.«426621_j13099650253560_2_alg».proof.Proof.LibRowScatter
import proofs.«426621_j13099650253560_2_alg».proof.Proof.LibDot2
import Idealize.ShloMosaic.Lib.ValueLayout
import Idealize.ShloMosaic.Lib.IdealHost

noncomputable section

open scoped BigOperators

namespace Cert.ReferenceIdeal.Hand

open Idealize.ShloMosaic Idealize.SL.Sem Idealize.ShloMosaic.ValueIdx
open Cert.ReferenceIdeal Cert.ReferenceIdeal.Facts₀ Cert.Dot2

theorem hostRsqrt_apply {s : Shape} {φ : FTy} (v : FVec Ideal s φ) (i : s.Idx) :
    Host.rsqrt v i = Ideal.rsqrt (v i) := rfl

theorem row256_apply {α : Type} (v : S256.Idx → α) (r : Fin 10000) (c : Fin 256) :
    broadcastInDim S10000x256 ![0, 1] bcast_S1x256_S10000x256_0_1
      (broadcastInDim S1x256 ![1] bcast_S256_S1x256_1 v) (ix2 r c) = v (ix1 c) :=
  (broadcastInDim_apply _ _ _ (ix2 r c) (ix2 (0 : Fin 1) c) fun | ⟨0, _⟩ => rfl | ⟨1, _⟩ => rfl).trans
    (broadcastInDim_apply _ _ _ _ (ix1 c) fun | ⟨0, _⟩ => rfl)

theorem row512_apply {α : Type} (v : S512.Idx → α) (r : Fin 10000) (c : Fin 512) :
    broadcastInDim S10000x512 ![0, 1] bcast_S1x512_S10000x512_0_1
      (broadcastInDim S1x512 ![1] bcast_S512_S1x512_1 v) (ix2 r c) = v (ix1 c) :=
  (broadcastInDim_apply _ _ _ (ix2 r c) (ix2 (0 : Fin 1) c) fun | ⟨0, _⟩ => rfl | ⟨1, _⟩ => rfl).trans
    (broadcastInDim_apply _ _ _ _ (ix1 c) fun | ⟨0, _⟩ => rfl)

/-- Both axes are kept: the row axis has the result's extent, the column axis the one position 0. -/
theorem col_apply {α : Type} {w : ℕ} (h : S10000x1.BroadcastsInDim ⟨2, ![10000, w]⟩ ![0, 1]) (v : S10000x1.Idx → α)
    (r : Fin 10000) (c : Fin w) : broadcastInDim ⟨2, ![10000, w]⟩ ![0, 1] h v (ix2 r c) = v (ix2 r (0 : Fin 1)) :=
  broadcastInDim_apply _ h v (ix2 r c) (ix2 r (0 : Fin 1)) fun | ⟨0, _⟩ => rfl | ⟨1, _⟩ => rfl

theorem bnRelu256_apply (x : FVec Ideal S10000x256 .f32) (mu var g b : FVec Ideal S256 .f32)
    (r : Fin 10000) (c : Fin 256) :
    stBnRelu256 (F := Ideal) x mu var g b (ix2 r c)
      = max ((((x (ix2 r c) - mu (ix1 c)) * Ideal.rsqrt (var (ix1 c) + Ideal.ofBits .f32 0x3727C5AC#32))
          * g (ix1 c)) + b (ix1 c)) 0 := by
  unfold stBnRelu256
  rw [maximumf_apply, addf_apply, mulf_apply, mulf_apply, subf_apply, row256_apply, row256_apply, row256_apply,
    row256_apply, hostRsqrt_apply, addf_apply, broadcastInDim_scalar_apply, broadcastInDim_scalar_apply,
    constant_apply, constant_apply, Ideal.ofBits_zero_f32]

theorem bnRelu512_apply (x : FVec Ideal S10000x512 .f32) (mu var g b : FVec Ideal S512 .f32)
    (r : Fin 10000) (c : Fin 512) :
    stBnRelu512 (F := Ideal) x mu var g b (ix2 r c)
      = max ((((x (ix2 r c) - mu (ix1 c)) * Ideal.rsqrt (var (ix1 c) + Ideal.ofBits .f32 0x3727C5AC#32))
          * g (ix1 c)) + b (ix1 c)) 0 := by
  unfold stBnRelu512
  rw [maximumf_apply, addf_apply, mulf_apply, mulf_apply, subf_apply, row512_apply, row512_apply, row512_apply,
    row512_apply, hostRsqrt_apply, addf_apply, broadcastInDim_scalar_apply, broadcastInDim_scalar_apply,
    constant_apply, constant_apply, Ideal.ofBits_zero_f32]

theorem shortcut_apply (x : FVec Ideal S10000x256 .f32) (w : FVec Ideal S256x512 .f32) (b : FVec Ideal S512 .f32)
    (i : Fin 10000) (o : Fin 512) :
    stShortcut (F := Ideal) x w b (ix2 i o) = (∑ f : Fin 256, x (ix2 i f) * w (ix2 f o)) + b (ix1 o) := by
  unfold stShortcut
  rw [addf_apply, dotGeneral_apply, row512_apply]
  rfl

theorem dst_apply (e : IVec S2x320000 32) (j : Fin 320000) :
    stDst e (ix2 j (0 : Fin 1)) = e (ix2 (1 : Fin 2) j) :=
  (broadcastInDim_apply _ _ _ (ix2 j (0 : Fin 1)) (ix1 j) fun | ⟨0, _⟩ => rfl).trans
    ((shapeCast_1a_a_apply _ _ j).trans (slice2_axis0_apply 1 e _ (0 : Fin 1) j (1 : Fin 2) rfl))

/-- Were the comparison's bit 1, the word would be negative. -/
theorem cmpi_slt_zero_of_nonneg (x : BitVec 32) (h : 0 ≤ x.toInt) : IntOp.cmpi .slt x 0#32 = 0#1 :=
  eq_zero_of_ne_one fun h1 => absurd (IntOp.cmpi_slt.mp h1) (not_lt.mpr h)

theorem src_apply (e : IVec S2x320000 32) (j : Fin 320000) (h0 : 0 ≤ (e (ix2 (0 : Fin 2) j)).toInt) :
    stSrc e (ix2 j (0 : Fin 1)) = e (ix2 (0 : Fin 2) j) := by
  simp only [stSrc]
  refine (broadcastInDim_apply _ _ _ (ix2 j (0 : Fin 1)) (ix1 j) fun | ⟨0, _⟩ => rfl).trans ?_
  rw [select_apply]
  show Scalar.select (IntOp.cmpi .slt _ (broadcastInDim S320000 ![] bcast_S_S320000 (constantI S_ 32 0#32) (ix1 j))) _ _ = _
  rw [shapeCast_1a_a_apply, slice2_axis0_apply 0 e _ (0 : Fin 1) j (0 : Fin 2) rfl, broadcastInDim_scalar_apply,
    constantI_apply, cmpi_slt_zero_of_nonneg _ h0, select_zero]

theorem cnt_apply (e : IVec S2x320000 32) (i : Fin 10000) :
    Host.scatterAdd scatter_S10000x1_S320000x1_S320000x1_1_0_0_1
      (broadcastInDim S10000x1 ![] bcast_S_S10000x1 (constant (F := Ideal) S_ .f32 0x00000000#32))
      (stDst e) (broadcastInDim S320000x1 ![] bcast_S_S320000x1 (constant (F := Ideal) S_ .f32 0x3F800000#32))
      (ix2 i (0 : Fin 1))
      = ∑ j ∈ Finset.univ.filter (fun j : Fin 320000 => (e (ix2 (1 : Fin 2) j)).toInt = (i.val : Int)), (1 : EReal) := by
  refine (Cert.RowScatter.scatterAdd_rows_apply scatter_S10000x1_S320000x1_S320000x1_1_0_0_1_wf _ _ _ i (0 : Fin 1)).trans ?_
  rw [broadcastInDim_scalar_apply, constant_apply, Ideal.ofBits_zero_f32, zero_add]
  simp only [dst_apply]
  refine Finset.sum_congr rfl fun j _ => ?_
  rw [broadcastInDim_scalar_apply, constant_apply, Ideal.ofBits_one_f32]

/-- The scatter sums over the edges into row i; an in-range source is its own clamp, so the gather reads that row. -/
theorem aggr_apply {C : ℕ} (swf : ScatterDims.WF ⟨2, ![10000, C]⟩ S320000x1 ⟨2, ![320000, C]⟩ [1] [0] [0] 1)
    (gwf : GatherDims.WF ⟨2, ![10000, C]⟩ S320000x1 ⟨2, ![320000, C]⟩ [1] [0] [] [0] [] 1 ![1, C])
    (hz : S_.BroadcastsInDim ⟨2, ![10000, C]⟩ ![]) (h : FVec Ideal ⟨2, ![10000, C]⟩ .f32) (e : IVec S2x320000 32)
    (hidx : ∀ (r : Fin 2) (j : Fin 320000), 0 ≤ (e (ix2 r j)).toInt ∧ (e (ix2 r j)).toInt < 10000)
    (i : Fin 10000) (f : Fin C) :
    Host.scatterAdd (Cert.RowScatter.rowDims 10000 C 320000 swf)
      (broadcastInDim ⟨2, ![10000, C]⟩ ![] hz (constant (F := Ideal) S_ .f32 0x00000000#32))
      (stDst e) (Host.gather (Cert.RowGather2.rowDims 10000 C 320000 gwf) h (stSrc e)) (ix2 i f)
      = ∑ j ∈ Finset.univ.filter (fun j : Fin 320000 => (e (ix2 (1 : Fin 2) j)).toInt = (i.val : Int)),
          h (ix2 ⟨(e (ix2 (0 : Fin 2) j)).toInt.toNat, by have := hidx 0 j; omega⟩ f) := by
  refine (Cert.RowScatter.scatterAdd_rows_apply swf _ _ _ i f).trans ?_
  rw [broadcastInDim_scalar_apply, constant_apply, Ideal.ofBits_zero_f32, zero_add]
  simp only [dst_apply]
  refine Finset.sum_congr rfl fun j _ => ?_
  refine (Cert.RowGather2.gather_rows_apply (by omega) gwf h (stSrc e) j f).trans ?_
  refine congrArg (fun k => h (ix2 k f)) (Fin.ext ?_)
  show min (stSrc e (ix2 j (0 : Fin 1))).toInt.toNat (10000 - 1) = (e (ix2 (0 : Fin 2) j)).toInt.toNat
  rw [src_apply e j (hidx 0 j).1]
  have := hidx 0 j
  omega

theorem sage256_apply (h : FVec Ideal S10000x256 .f32) (e : IVec S2x320000 32)
    (wl wr : FVec Ideal S256x512 .f32) (b : FVec Ideal S512 .f32)
    (hidx : ∀ (r : Fin 2) (j : Fin 320000), 0 ≤ (e (ix2 r j)).toInt ∧ (e (ix2 r j)).toInt < 10000)
    (i : Fin 10000) (o : Fin 512) :
    stSage256 (F := Ideal) h e wl wr b (ix2 i o)
      = ((∑ f : Fin 256,
            Ideal.div
              (∑ j ∈ Finset.univ.filter (fun j : Fin 320000 => (e (ix2 (1 : Fin 2) j)).toInt = (i.val : Int)),
                h (ix2 ⟨(e (ix2 (0 : Fin 2) j)).toInt.toNat, by have := hidx 0 j; omega⟩ f))
              (max (∑ j ∈ Finset.univ.filter (fun j : Fin 320000 => (e (ix2 (1 : Fin 2) j)).toInt = (i.val : Int)),
                (1 : EReal)) 1)
            * wl (ix2 f o))
          + b (ix1 o))
        + ∑ f : Fin 256, h (ix2 i f) * wr (ix2 f o) := by
  unfold stSage256
  rw [addf_apply, addf_apply, dotGeneral_apply, dotGeneral_apply, row512_apply]
  · refine congrArg (fun t : EReal => t + b (ix1 o) + ∑ f : Fin 256, h (ix2 i f) * wr (ix2 f o))
      (Finset.sum_congr rfl fun f _ => ?_)
    refine congrArg (fun t : EReal => t * wl (ix2 f o)) ?_
    refine (hostDivf_apply _ _ _).trans (congrArg₂ Ideal.div (aggr_apply _ _ _ h e hidx i f) ?_)
    rw [col_apply, maximumf_apply, cnt_apply e i, broadcastInDim_scalar_apply, constant_apply, Ideal.ofBits_one_f32]
  all_goals rfl

theorem sage512_apply (h : FVec Ideal S10000x512 .f32) (e : IVec S2x320000 32)
    (wl wr : FVec Ideal S512x512 .f32) (b : FVec Ideal S512 .f32)
    (hidx : ∀ (r : Fin 2) (j : Fin 320000), 0 ≤ (e (ix2 r j)).toInt ∧ (e (ix2 r j)).toInt < 10000)
    (i : Fin 10000) (o : Fin 512) :
    stSage512 (F := Ideal) h e wl wr b (ix2 i o)
      = ((∑ f : Fin 512,
            Ideal.div
              (∑ j ∈ Finset.univ.filter (fun j : Fin 320000 => (e (ix2 (1 : Fin 2) j)).toInt = (i.val : Int)),
                h (ix2 ⟨(e (ix2 (0 : Fin 2) j)).toInt.toNat, by have := hidx 0 j; omega⟩ f))
              (max (∑ j ∈ Finset.univ.filter (fun j : Fin 320000 => (e (ix2 (1 : Fin 2) j)).toInt = (i.val : Int)),
                (1 : EReal)) 1)
            * wl (ix2 f o))
          + b (ix1 o))
        + ∑ f : Fin 512, h (ix2 i f) * wr (ix2 f o) := by
  unfold stSage512
  rw [addf_apply, addf_apply, dotGeneral_apply, dotGeneral_apply, row512_apply]
  · refine congrArg (fun t : EReal => t + b (ix1 o) + ∑ f : Fin 512, h (ix2 i f) * wr (ix2 f o))
      (Finset.sum_congr rfl fun f _ => ?_)
    refine congrArg (fun t : EReal => t * wl (ix2 f o)) ?_
    refine (hostDivf_apply _ _ _).trans (congrArg₂ Ideal.div (aggr_apply _ _ _ h e hidx i f) ?_)
    rw [col_apply, maximumf_apply, cnt_apply e i, broadcastInDim_scalar_apply, constant_apply, Ideal.ofBits_one_f32]
  all_goals rfl

end Cert.ReferenceIdeal.Hand
-- ==== Proof.Spec.Adj.lean ====
import Mathlib.Data.EReal.Operations
import Mathlib.Algebra.BigOperators.Fin
import Mathlib.Data.Fintype.BigOperators
import Mathlib.Logic.Equiv.Fin.Basic

namespace Cert.Spec

open Finset

/-- A sum of ones is its number of terms, and a natural multiple in the extended reals is a product. -/
theorem ones_mul {ι : Type} (S : Finset ι) (h : EReal) :
    (∑ _e ∈ S, (1 : EReal)) * h = ∑ _e ∈ S, h := by
  rw [sum_const, sum_const, EReal.nsmul_eq_mul, EReal.nsmul_eq_mul, mul_one]

/-- The edges into i, grouped by their source j: those from j are counted by the matrix entry (i, j). -/
theorem adj_sum {E N : ℕ} (p q : Fin E → ℤ) (hq : ∀ e, 0 ≤ q e ∧ q e < (N : ℤ))
    (H : Fin N → EReal) (i : ℤ) :
    ∑ j : Fin N, (∑ _e ∈ univ.filter (fun e : Fin E => p e = i ∧ q e = (j.val : ℤ)), (1 : EReal)) * H j
      = ∑ e ∈ univ.filter (fun e : Fin E => p e = i),
          H ⟨(q e).toNat, by have := hq e; omega⟩ := by
  rw [← Finset.sum_fiberwise (univ.filter (fun e : Fin E => p e = i))
    (fun e : Fin E => (⟨(q e).toNat, by have := hq e; omega⟩ : Fin N))]
  refine Finset.sum_congr rfl (fun j _ => ?_)
  rw [ones_mul, Finset.filter_filter]
  refine Finset.sum_congr (Finset.filter_congr fun e _ => and_congr_right fun _ => ?_) fun e he => ?_
  · have := hq e
    rw [Fin.ext_iff]
    show _ ↔ (q e).toNat = j.val
    omega
  · rw [(Finset.mem_filter.mp he).2.2]

/-- Beyond the first N positions the padded factor is 0; the first N are the image of Fin N. -/
theorem pad_sum {N P : ℕ} (hNP : N ≤ P) (a : Fin N → EReal) (g : Fin P → EReal) :
    ∑ j : Fin P, (if h : j.val < N then a ⟨j.val, h⟩ else 0) * g j
      = ∑ j : Fin N, a j * g (Fin.castLE hNP j) := by
  refine (Finset.sum_subset (Finset.subset_univ (univ.map (Fin.castLEEmb hNP))) fun j _ hj => ?_).symm.trans
    ((Finset.sum_map _ _ _).trans (Finset.sum_congr rfl fun j _ => ?_))
  · rw [dif_neg fun h => hj (Finset.mem_map.mpr ⟨⟨j.val, h⟩, mem_univ _, Fin.ext rfl⟩), zero_mul]
  · exact congrArg (· * _) (dif_pos j.isLt)

theorem blk_lt {B K P : ℕ} (hP : P = K * B) {k l : ℕ} (hk : k < K) (hl : l < B) :
    k * B + l < P := by
  subst hP
  calc k * B + l < k * B + B := Nat.add_lt_add_left hl _
    _ = (k + 1) * B := (Nat.succ_mul _ _).symm
    _ ≤ K * B := Nat.mul_le_mul_right _ hk

/-- Position k * B + l runs over Fin (K * B) once as (k, l) runs over Fin K × Fin B. -/
theorem blocks_sum (B K : ℕ) (f : Fin (K * B) → EReal) :
    ∑ k : Fin K, ∑ l : Fin B, f ⟨k.val * B + l.val, blk_lt rfl k.isLt l.isLt⟩ = ∑ j, f j := by
  rw [← Equiv.sum_comp finProdFinEquiv f, Fintype.sum_prod_type]
  refine Finset.sum_congr rfl (fun k _ => Finset.sum_congr rfl (fun l _ => congrArg f (Fin.ext ?_)))
  simp only [finProdFinEquiv, Equiv.coe_fn_mk]
  rw [Nat.mul_comm, Nat.add_comm]

/-- An accumulator that starts at 0 and adds g k at step k holds, after K steps, the sum of the g k. -/
theorem acc_fold (K : ℕ) (g : ∀ k, k < K → EReal) (acc : ℕ → EReal) (h0 : acc 0 = 0)
    (hs : ∀ k (hk : k < K), acc (k + 1) = acc k + g k hk) : acc K = ∑ k : Fin K, g k.val k.isLt := by
  have key : ∀ n (hn : n ≤ K), acc n = ∑ k : Fin n, g k.val (lt_of_lt_of_le k.isLt hn) := by
    intro n
    induction n with
    | zero => intro _; simp [h0]
    | succ n ih =>
      intro hn
      rw [hs n hn, ih (Nat.le_of_succ_le hn), Fin.sum_univ_castSucc]
      rfl
  exact key K le_rfl

end Cert.Spec
-- ==== Proof.Spec.Adj2.lean ====
import proofs.«426621_j13099650253560_2_alg».proof.Proof.Spec.Adj

namespace Cert.Spec

open Finset

/-- The fold is the sum over all P positions, of which only the first N count, and those are the edges into i. -/
theorem agg_acc {E N P : ℕ} (B K : ℕ) (hP : P = K * B) (hNP : N ≤ P)
    (src dst : Fin E → ℤ) (hsrc : ∀ e, 0 ≤ src e ∧ src e < (N : ℤ)) (i : ℤ)
    (Ap Hp : Fin P → EReal) (H : Fin N → EReal)
    (hA : ∀ j : Fin P, Ap j = if h : j.val < N then
        ∑ _e ∈ univ.filter (fun e : Fin E => dst e = i ∧ src e = (j.val : ℤ)), (1 : EReal)
        else 0)
    (hH : ∀ j : Fin N, Hp (Fin.castLE hNP j) = H j)
    (acc : ℕ → EReal) (h0 : acc 0 = 0)
    (hs : ∀ k (hk : k < K), acc (k + 1) = acc k + ∑ l : Fin B,
        Ap ⟨k * B + l.val, blk_lt hP hk l.isLt⟩ * Hp ⟨k * B + l.val, blk_lt hP hk l.isLt⟩) :
    acc K = ∑ e ∈ univ.filter (fun e : Fin E => dst e = i),
        H ⟨(src e).toNat, by have := hsrc e; omega⟩ := by
  subst hP
  refine (acc_fold K _ acc h0 hs).trans ((blocks_sum B K fun j => Ap j * Hp j).trans ?_)
  rw [Finset.sum_congr rfl fun j _ => by rw [hA j], ← adj_sum dst src hsrc H i]
  refine (pad_sum hNP (fun j : Fin N => ∑ _e ∈ univ.filter
    (fun e : Fin E => dst e = i ∧ src e = (j.val : ℤ)), (1 : EReal)) Hp).trans ?_
  exact Finset.sum_congr rfl fun j _ => by rw [hH j]

end Cert.Spec
-- ==== Proof.Spec.Layer.lean ====
import proofs.«426621_j13099650253560_2_alg».proof.Proof.Spec.Adj2
import Idealize.ShloMosaic.PureOps.Ideal

namespace Cert.Spec

open Finset Idealize.ShloMosaic

/-- The divisor is at least 1, so not 0, and the quotient is the product with its inverse. -/
theorem mul_recip_max_cnt {ι : Type} (S : Finset ι) (x : EReal) :
    x * Ideal.div 1 (max (∑ _e ∈ S, (1 : EReal)) 1)
      = Ideal.div x (max (∑ _e ∈ S, (1 : EReal)) 1) := by
  have h : max (∑ _e ∈ S, (1 : EReal)) 1 ≠ 0 := (lt_of_lt_of_le zero_lt_one (le_max_right _ _)).ne'
  unfold Ideal.div
  rw [if_neg h, if_neg h, one_mul]

noncomputable def sageRow {N E C D : ℕ} (src dst : Fin E → ℤ) (hsrc : ∀ e, 0 ≤ src e ∧ src e < (N : ℤ))
    (H : Fin N → Fin C → EReal) (wl wr : Fin C → Fin D → EReal) (bl : Fin D → EReal)
    (i : Fin N) (o : Fin D) : EReal :=
  ((∑ f, Ideal.div
        (∑ e ∈ univ.filter (fun e : Fin E => dst e = (i.val : ℤ)),
          H ⟨(src e).toNat, by have := hsrc e; omega⟩ f)
        (max (∑ _e ∈ univ.filter (fun e : Fin E => dst e = (i.val : ℤ)), (1 : EReal)) 1)
      * wl f o) + bl o)
    + ∑ f, H i f * wr f o

/-- Feature by feature the fold is the sum over the edges into i, and the scale is the reciprocal of their clamped number. -/
theorem sage_layer {N P E C D : ℕ} (B K : ℕ) (hP : P = K * B) (hNP : N ≤ P)
    (src dst : Fin E → ℤ) (hsrc : ∀ e, 0 ≤ src e ∧ src e < (N : ℤ)) (i : Fin N)
    (Ap : Fin P → EReal)
    (hA : ∀ j : Fin P, Ap j = if h : j.val < N then
        ∑ _e ∈ univ.filter (fun e : Fin E => dst e = (i.val : ℤ) ∧ src e = (j.val : ℤ)),
          (1 : EReal)
        else 0)
    (Hp : Fin P → Fin C → EReal) (H : Fin N → Fin C → EReal)
    (hH : ∀ (j : Fin N) f, Hp (Fin.castLE hNP j) f = H j f)
    (inv : EReal)
    (hinv : inv = Ideal.div 1
      (max (∑ _e ∈ univ.filter (fun e : Fin E => dst e = (i.val : ℤ)), (1 : EReal)) 1))
    (acc : ℕ → Fin C → EReal) (h0 : ∀ f, acc 0 f = 0)
    (hs : ∀ k (hk : k < K) f, acc (k + 1) f = acc k f + ∑ l : Fin B,
        Ap ⟨k * B + l.val, blk_lt hP hk l.isLt⟩ * Hp ⟨k * B + l.val, blk_lt hP hk l.isLt⟩ f)
    (wl wr : Fin C → Fin D → EReal) (b : Fin D → EReal) (o : Fin D) :
    ((∑ f, (acc K f * inv) * wl f o) + b o) + ∑ f, Hp (Fin.castLE hNP i) f * wr f o
      = sageRow src dst hsrc H wl wr b i o := by
  unfold sageRow
  refine congrArg₂ (· + ·) (congrArg (· + b o) (Finset.sum_congr rfl fun f _ => ?_))
    (Finset.sum_congr rfl fun f _ => by rw [hH i f])
  rw [hinv, mul_recip_max_cnt, agg_acc B K hP hNP src dst hsrc (i.val : ℤ) Ap (fun j => Hp j f) (fun j => H j f) hA
    (fun j => hH j f) (fun n => acc n f) (h0 f) (fun k hk => hs k hk f)]

end Cert.Spec
-- ==== Proof.Spec.Net.lean ====
import proofs.«426621_j13099650253560_2_alg».proof.Proof.Spec.Layer

namespace Cert.Spec

open Finset Idealize.ShloMosaic

noncomputable section

def bnr (eps x mu var g b : EReal) : EReal :=
  max ((((x - mu) * Ideal.rsqrt (var + eps)) * g) + b) 0

theorem bnr_congr {eps x x' mu mu' var var' g g' b b' : EReal}
    (hx : x = x') (hmu : mu = mu') (hvar : var = var') (hg : g = g') (hb : b = b') :
    bnr eps x mu var g b = bnr eps x' mu' var' g' b' := by
  rw [hx, hmu, hvar, hg, hb]

def netRow {N E C0 C1 C2 : ℕ} (eps : EReal) (src dst : Fin E → ℤ)
    (hsrc : ∀ e, 0 ≤ src e ∧ src e < (N : ℤ))
    (X : Fin N → Fin C0 → EReal) (m0 v0 g0 b0 : Fin C0 → EReal)
    (wl0 wr0 : Fin C0 → Fin C1 → EReal) (bl0 : Fin C1 → EReal)
    (mu1 var1 : (Fin N → Fin C1 → EReal) → Fin C1 → EReal) (g1 b1 : Fin C1 → EReal)
    (wl1 wr1 : Fin C1 → Fin C2 → EReal) (bl1 : Fin C2 → EReal)
    (wsc : Fin C0 → Fin C2 → EReal) (bsc : Fin C2 → EReal)
    (i : Fin N) (o : Fin C2) : EReal :=
  ((∑ f, X i f * wsc f o) + bsc o)
    + sageRow src dst hsrc
        (fun i f => bnr eps
          (sageRow src dst hsrc (fun i f => bnr eps (X i f) (m0 f) (v0 f) (g0 f) (b0 f))
            wl0 wr0 bl0 i f)
          (mu1 (sageRow src dst hsrc (fun i f => bnr eps (X i f) (m0 f) (v0 f) (g0 f) (b0 f))
            wl0 wr0 bl0) f)
          (var1 (sageRow src dst hsrc (fun i f => bnr eps (X i f) (m0 f) (v0 f) (g0 f) (b0 f))
            wl0 wr0 bl0) f)
          (g1 f) (b1 f))
        wl1 wr1 bl1 i o

theorem net_rows {N P E C0 C1 C2 : ℕ} (B K : ℕ) (hP : P = K * B) (hNP : N ≤ P) (eps : EReal)
    (src dst : Fin E → ℤ) (hsrc : ∀ e, 0 ≤ src e ∧ src e < (N : ℤ))
    (Ap : Fin N → Fin P → EReal)
    (hA : ∀ (i : Fin N) (j : Fin P), Ap i j = if h : j.val < N then
        ∑ _e ∈ univ.filter (fun e : Fin E => dst e = (i.val : ℤ) ∧ src e = (j.val : ℤ)),
          (1 : EReal)
        else 0)
    (inv : Fin N → EReal)
    (hinv : ∀ i : Fin N, inv i = Ideal.div 1
      (max (∑ _e ∈ univ.filter (fun e : Fin E => dst e = (i.val : ℤ)), (1 : EReal)) 1))
    (Xp : Fin P → Fin C0 → EReal) (X : Fin N → Fin C0 → EReal)
    (hX : ∀ i f, Xp (Fin.castLE hNP i) f = X i f)
    (m0 v0 g0 b0 : Fin C0 → EReal)
    (H0p : Fin P → Fin C0 → EReal)
    (hH0p : ∀ (i : Fin N) f, H0p (Fin.castLE hNP i) f
      = bnr eps (Xp (Fin.castLE hNP i) f) (m0 f) (v0 f) (g0 f) (b0 f))
    (acc0 : Fin N → ℕ → Fin C0 → EReal) (h00 : ∀ i f, acc0 i 0 f = 0)
    (hs0 : ∀ i k (hk : k < K) f, acc0 i (k + 1) f = acc0 i k f + ∑ l : Fin B,
        Ap i ⟨k * B + l.val, blk_lt hP hk l.isLt⟩
          * H0p ⟨k * B + l.val, blk_lt hP hk l.isLt⟩ f)
    (wl0 wr0 : Fin C0 → Fin C1 → EReal) (bl0 : Fin C1 → EReal)
    (O0p : Fin P → Fin C1 → EReal)
    (hO0p : ∀ (i : Fin N) o, O0p (Fin.castLE hNP i) o
      = ((∑ f, (acc0 i K f * inv i) * wl0 f o) + bl0 o)
        + ∑ f, H0p (Fin.castLE hNP i) f * wr0 f o)
    (mu1 var1 : (Fin N → Fin C1 → EReal) → Fin C1 → EReal) (g1 b1 : Fin C1 → EReal)
    (H1p : Fin P → Fin C1 → EReal)
    (hH1p : ∀ (i : Fin N) f, H1p (Fin.castLE hNP i) f
      = bnr eps (O0p (Fin.castLE hNP i) f)
          (mu1 (fun i f => O0p (Fin.castLE hNP i) f) f)
          (var1 (fun i f => O0p (Fin.castLE hNP i) f) f) (g1 f) (b1 f))
    (acc1 : Fin N → ℕ → Fin C1 → EReal) (h10 : ∀ i f, acc1 i 0 f = 0)
    (hs1 : ∀ i k (hk : k < K) f, acc1 i (k + 1) f = acc1 i k f + ∑ l : Fin B,
        Ap i ⟨k * B + l.val, blk_lt hP hk l.isLt⟩
          * H1p ⟨k * B + l.val, blk_lt hP hk l.isLt⟩ f)
    (wl1 wr1 : Fin C1 → Fin C2 → EReal) (bl1 : Fin C2 → EReal)
    (wsc : Fin C0 → Fin C2 → EReal) (bsc : Fin C2 → EReal)
    (out : Fin N → Fin C2 → EReal)
    (hout : ∀ (i : Fin N) o, out i o
      = (((∑ f, (acc1 i K f * inv i) * wl1 f o) + bl1 o)
          + ∑ f, H1p (Fin.castLE hNP i) f * wr1 f o)
        + ((∑ f, Xp (Fin.castLE hNP i) f * wsc f o) + bsc o))
    (i : Fin N) (o : Fin C2) :
    out i o = netRow eps src dst hsrc X m0 v0 g0 b0 wl0 wr0 bl0 mu1 var1 g1 b1
      wl1 wr1 bl1 wsc bsc i o := by
  let H0 : Fin N → Fin C0 → EReal := fun i f => bnr eps (X i f) (m0 f) (v0 f) (g0 f) (b0 f)
  let O0 := sageRow src dst hsrc H0 wl0 wr0 bl0
  have hH0 : ∀ (j : Fin N) f, H0p (Fin.castLE hNP j) f = H0 j f := fun j f => by rw [hH0p j f, hX j f]
  have hO0 : ∀ (j : Fin N) f, O0p (Fin.castLE hNP j) f = O0 j f := fun j f =>
    (hO0p j f).trans (sage_layer B K hP hNP src dst hsrc j (Ap j) (hA j) H0p H0 hH0 (inv j) (hinv j)
      (acc0 j) (h00 j) (hs0 j) wl0 wr0 bl0 f)
  have hH1 : ∀ (j : Fin N) f, H1p (Fin.castLE hNP j) f
      = bnr eps (O0 j f) (mu1 O0 f) (var1 O0 f) (g1 f) (b1 f) := fun j f => by
    rw [hH1p j f, show (fun i f => O0p (Fin.castLE hNP i) f) = O0 from funext fun i => funext fun f => hO0 i f, hO0 j f]
  rw [hout i o, add_comm]
  exact congrArg₂ (· + ·) (congrArg (· + bsc o) (Finset.sum_congr rfl fun f _ => by rw [hX i f]))
    (sage_layer B K hP hNP src dst hsrc i (Ap i) (hA i) H1p _ hH1 (inv i) (hinv i)
      (acc1 i) (h10 i) (hs1 i) wl1 wr1 bl1 o)

end

end Cert.Spec
-- ==== Proof.Ref.Net.lean ====
import proofs.«426621_j13099650253560_2_alg».proof.Proof.Ref.Vals
import proofs.«426621_j13099650253560_2_alg».proof.Proof.Spec.Net

noncomputable section

open scoped BigOperators

namespace Cert.ReferenceIdeal.Hand

open Idealize.ShloMosaic Idealize.SL.Sem Idealize.ShloMosaic.ValueIdx
open Cert.ReferenceIdeal Cert.ReferenceIdeal.Facts₀ Cert.Spec

section
variable (a1 : IVec S2x320000 32)
    (hidx : ∀ (r : Fin 2) (j : Fin 320000), 0 ≤ (a1 (ix2 r j)).toInt ∧ (a1 (ix2 r j)).toInt < 10000)
include hidx

/-- The stage read at an index is the layer's row formula, over any reading H of its input. -/
theorem sage256_row (h : FVec Ideal S10000x256 .f32) (H : Fin 10000 → Fin 256 → EReal)
    (hh : ∀ k f, h (ix2 k f) = H k f) (wl wr : FVec Ideal S256x512 .f32) (b : FVec Ideal S512 .f32)
    (k : Fin 10000) (o : Fin 512) :
    stSage256 (F := Ideal) h a1 wl wr b (ix2 k o)
      = sageRow (N := 10000) (fun j => (a1 (ix2 (0 : Fin 2) j)).toInt) (fun j => (a1 (ix2 (1 : Fin 2) j)).toInt)
          (fun j => hidx 0 j) H (fun f o => wl (ix2 f o)) (fun f o => wr (ix2 f o)) (fun o => b (ix1 o)) k o := by
  rw [sage256_apply _ _ _ _ _ hidx]
  unfold sageRow
  simp only [hh]

theorem sage512_row (h : FVec Ideal S10000x512 .f32) (H : Fin 10000 → Fin 512 → EReal)
    (hh : ∀ k f, h (ix2 k f) = H k f) (wl wr : FVec Ideal S512x512 .f32) (b : FVec Ideal S512 .f32)
    (k : Fin 10000) (o : Fin 512) :
    stSage512 (F := Ideal) h a1 wl wr b (ix2 k o)
      = sageRow (N := 10000) (fun j => (a1 (ix2 (0 : Fin 2) j)).toInt) (fun j => (a1 (ix2 (1 : Fin 2) j)).toInt)
          (fun j => hidx 0 j) H (fun f o => wl (ix2 f o)) (fun f o => wr (ix2 f o)) (fun o => b (ix1 o)) k o := by
  rw [sage512_apply _ _ _ _ _ hidx]
  unfold sageRow
  simp only [hh]

end

/-- An array is the function of its two coordinates, so its statistics are those of any reading X of it. -/
theorem bnRelu512_row (x : FVec Ideal S10000x512 .f32) (X : Fin 10000 → Fin 512 → EReal)
    (hx : ∀ k f, x (ix2 k f) = X k f) (g b : FVec Ideal S512 .f32) (k : Fin 10000) (f : Fin 512) :
    stBnRelu512 (F := Ideal) x (stMean512 x) (stVar512 x) g b (ix2 k f)
      = bnr (Ideal.ofBits .f32 0x3727C5AC#32) (X k f)
          (stMean512 (F := Ideal) (fun y : S10000x512.Idx => X (y 0) (y 1)) (ix1 f))
          (stVar512 (F := Ideal) (fun y : S10000x512.Idx => X (y 0) (y 1)) (ix1 f)) (g (ix1 f)) (b (ix1 f)) := by
  obtain rfl : x = fun y => X (y 0) (y 1) := funext fun y => by rw [eq_ix2 y]; exact hx _ _
  exact bnRelu512_apply _ _ _ g b k f

theorem refOut_eq_netRow (a0 : FVec Ideal S10000x256 .f32) (a1 : IVec S2x320000 32) (a2 a3 : FVec Ideal S256 .f32)
    (a4 a5 : FVec Ideal S256x512 .f32) (a6 a7 a8 : FVec Ideal S512 .f32) (a9 a10 : FVec Ideal S512x512 .f32)
    (a11 : FVec Ideal S512 .f32) (a12 : FVec Ideal S256x512 .f32) (a13 : FVec Ideal S512 .f32)
    (hidx : ∀ (r : Fin 2) (j : Fin 320000), 0 ≤ (a1 (ix2 r j)).toInt ∧ (a1 (ix2 r j)).toInt < 10000)
    (i : Fin 10000) (o : Fin 512) :
    stOut (F := Ideal) a0 a1 a2 a3 a4 a5 a6 a7 a8 a9 a10 a11 a12 a13 (ix2 i o)
      = netRow (N := 10000) (E := 320000) (C0 := 256) (C1 := 512) (C2 := 512) (Ideal.ofBits .f32 0x3727C5AC#32)
          (fun j => (a1 (ix2 (0 : Fin 2) j)).toInt) (fun j => (a1 (ix2 (1 : Fin 2) j)).toInt) (fun j => hidx 0 j)
          (fun i f => a0 (ix2 i f)) (fun f => stMean256 (F := Ideal) a0 (ix1 f)) (fun f => stVar256 (F := Ideal) a0 (ix1 f))
          (fun f => a2 (ix1 f)) (fun f => a3 (ix1 f))
          (fun f o => a4 (ix2 f o)) (fun f o => a5 (ix2 f o)) (fun o => a6 (ix1 o))
          (fun O f => stMean512 (F := Ideal) (fun y : S10000x512.Idx => O (y 0) (y 1)) (ix1 f))
          (fun O f => stVar512 (F := Ideal) (fun y : S10000x512.Idx => O (y 0) (y 1)) (ix1 f))
          (fun f => a7 (ix1 f)) (fun f => a8 (ix1 f))
          (fun f o => a9 (ix2 f o)) (fun f o => a10 (ix2 f o)) (fun o => a11 (ix1 o))
          (fun f o => a12 (ix2 f o)) (fun o => a13 (ix1 o)) i o := by
  simp only [stOut]
  rw [addf_apply, shortcut_apply]
  unfold netRow
  refine congrArg₂ (· + ·) rfl ?_
  exact sage512_row a1 hidx _ _ (fun k f => bnRelu512_row _ _
    (sage256_row a1 hidx _ _ (fun k f => bnRelu256_apply a0 _ _ a2 a3 k f) a4 a5 a6) a7 a8 k f) a9 a10 a11 i o

end Cert.ReferenceIdeal.Hand
-- ==== Proof.Spec.PreIdx.lean ====
import proofs.«426621_j13099650253560_2_alg».proof.Proof.Gen.Pre_finite_inputs
import Idealize.ShloMosaic.Lib.ReduceAll
import Idealize.ShloMosaic.Lib.ValueIdx
import Idealize.ShloMosaic.PureOps.Ideal

noncomputable section

namespace Cert.Spec

open Idealize.ShloMosaic Idealize.ShloMosaic.ValueIdx
open Cert.Pre_finite_inputs

instance : Subsingleton S_.Idx := ⟨fun a b => funext fun d => d.elim0⟩

theorem idx_range [Cert.Pre_finite_inputs.Facts]
    (a0 : FVec Ideal S10000x256 .f32) (a1 : IVec S2x320000 32) (a2 : FVec Ideal S256 .f32) (a3 : FVec Ideal S256 .f32)
    (a4 : FVec Ideal S256x512 .f32) (a5 : FVec Ideal S256x512 .f32) (a6 : FVec Ideal S512 .f32) (a7 : FVec Ideal S512 .f32)
    (a8 : FVec Ideal S512 .f32) (a9 : FVec Ideal S512x512 .f32) (a10 : FVec Ideal S512x512 .f32) (a11 : FVec Ideal S512 .f32)
    (a12 : FVec Ideal S256x512 .f32) (a13 : FVec Ideal S512 .f32)
    (h : Cert.Pre_finite_inputs.fn (F := Ideal) a0 a1 a2 a3 a4 a5 a6 a7 a8 a9 a10 a11 a12 a13 = fun _ => 1#1)
    (r : Fin 2) (e : Fin 320000) :
    0 ≤ (a1 (ix2 r e)).toInt ∧ (a1 (ix2 r e)).toInt < 10000 := by
  have e0 := congrFun h ix0
  dsimp only [fn, fn_part1, fn_part2, fn_part3, fn_part4, andi] at e0
  obtain ⟨h67, h70⟩ := IntOp.andi_eq_one.1 e0
  obtain ⟨-, h66⟩ := IntOp.andi_eq_one.1 h67
  have g0 := Host.reduce_andi_all _ _ _ _ _ h66 (ix2 r e)
  have g1 := Host.reduce_andi_all _ _ _ _ _ h70 (ix2 r e)
  exact ⟨IntOp.cmpi_sge.1 g0, IntOp.cmpi_slt.1 g1⟩

end Cert.Spec

end
-- ==== Proof.Final.PreGlue.lean ====
import proofs.«426621_j13099650253560_2_alg».proof.Defs
import proofs.«426621_j13099650253560_2_alg».proof.Proof.Gen.Pre_finite_inputs
import proofs.«426621_j13099650253560_2_alg».proof.Proof.Spec.PreIdx

noncomputable section

namespace Cert.Final

open Idealize.ShloMosaic Idealize.SL.Sem Idealize.ShloMosaic.ValueIdx

theorem hidx_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m)
    (c : Dev Cert.KernelIdeal.nD) (r : Fin 2) (e : Fin 320000) :
    0 ≤ ((m ((c.tc : Thread Cert.KernelIdeal.nD Cert.KernelIdeal.τ).loc Cert.KernelIdeal.main_arg1)
            : IVec Cert.KernelIdeal.S2x320000 32) (ix2 r e)).toInt
      ∧ ((m ((c.tc : Thread Cert.KernelIdeal.nD Cert.KernelIdeal.τ).loc Cert.KernelIdeal.main_arg1)
            : IVec Cert.KernelIdeal.S2x320000 32) (ix2 r e)).toInt < 10000 :=
  Cert.Spec.idx_range _ _ _ _ _ _ _ _ _ _ _ _ _ _ (h c) r e

end Cert.Final

end
-- ==== Proof.KI.HostStages.lean ====
import proofs.«426621_j13099650253560_2_alg».proof.KernelIdeal
import proofs.«426621_j13099650253560_2_alg».proof.Proof.Gen.KernelIdeal

set_option maxRecDepth 16384

noncomputable section

namespace Cert.KernelIdeal.Hand

open Cert.KernelIdeal Cert.KernelIdeal.Gen
open Idealize.ShloMosaic

variable {F : FTy → Type} [FloatOps F]

def hsSrc (e : IVec S2x320000 32) : IVec S320000 32 :=
  shapeCast S320000 (extractStridedSlice S1x320000 ![0, 0] e slices_S2x320000_S1x320000_0_0) shapeCasts_S1x320000_S320000

def hsDst (e : IVec S2x320000 32) : IVec S320000 32 :=
  shapeCast S320000 (extractStridedSlice S1x320000 ![1, 0] e slices_S2x320000_S1x320000_1_0) shapeCasts_S1x320000_S320000

def hsWrap (v : IVec S320000 32) : IVec S320000 32 :=
  select (cmpi .slt v (broadcastInDim S320000 ![] bcast_S_S320000 (constantI S_ 32 0#32)))
    (addi v (broadcastInDim S320000 ![] bcast_S_S320000 (constantI S_ 32 10000#32))) v

def hsPairs (e : IVec S2x320000 32) : IVec S320000x2 32 :=
  concatenate S320000x2 1
    [⟨S320000x1, broadcastInDim S320000x1 ![0] bcast_S320000_S320000x1_0 (hsWrap (hsDst e))⟩,
     ⟨S320000x1, broadcastInDim S320000x1 ![0] bcast_S320000_S320000x1_0 (hsWrap (hsSrc e))⟩]
    concatenates_S320000x1_S320000x1_S320000x2_d1

def hsCnt (e : IVec S2x320000 32) : FVec F S10000 .f32 :=
  Host.scatterAdd scatter_S10000_S320000x1_S320000_n_0_0_1
    (broadcastInDim S10000 ![] bcast_S_S10000 (constant S_ .f32 0x00000000#32))
    (broadcastInDim S320000x1 ![0] bcast_S320000_S320000x1_0 (hsDst e))
    (broadcastInDim S320000 ![] bcast_S_S320000 (constant S_ .f32 0x3F800000#32))

def hsAdj (e : IVec S2x320000 32) : FVec F S10000x10000 .f32 :=
  Host.scatterAdd scatter_S10000x10000_S320000x2_S320000_n_01_01_1
    (broadcastInDim S10000x10000 ![] bcast_S_S10000x10000 (constant S_ .f32 0x00000000#32))
    (hsPairs e)
    (broadcastInDim S320000 ![] bcast_S_S320000 (constant S_ .f32 0x3F800000#32))

def hsAdjPad (e : IVec S2x320000 32) : FVec F S10240x10240 .bf16 :=
  pad S10240x10240 ![0, 0] ![240, 240] ![0, 0] (truncf .bf16 (hsAdj (F := F) e) bitsLt_bf16_f32)
    (sitofp .bf16 (constantI S_ 32 0#32)) pads_S10000x10000_S10240x10240_02400_02400 h_S_

def hsInv (e : IVec S2x320000 32) : FVec F S10240x1 .f32 :=
  shapeCast S10240x1
    (pad S10240 ![0] ![240] ![0]
      (Host.divf (broadcastInDim S10000 ![] bcast_S_S10000 (constant S_ .f32 0x3F800000#32))
        (maximumf (hsCnt (F := F) e) (broadcastInDim S10000 ![] bcast_S_S10000 (constant S_ .f32 0x3F800000#32))))
      (sitofp .f32 (constantI S_ 32 0#32)) pads_S10000_S10240_02400 h_S_)
    shapeCasts_S10240_S10240x1

def hsXPad (x : FVec F S10000x256 .f32) : FVec F S10240x256 .f32 :=
  pad S10240x256 ![0, 0] ![240, 0] ![0, 0] x (sitofp .f32 (constantI S_ 32 0#32))
    pads_S10000x256_S10240x256_02400_000 h_S_

def hsMeanV256 (x : FVec F S10000x256 .f32) : FVec F S256 .f32 :=
  Host.divf (Host.reduceAdd x (constant S_ .f32 0x00000000#32) reducesTo_S10000x256_S256_d0 h_S_)
    (broadcastInDim S256 ![] bcast_S_S256 (constant S_ .f32 0x461C4000#32))

def hsMean256 (x : FVec F S10000x256 .f32) : FVec F S1x256 .f32 :=
  shapeCast S1x256 (hsMeanV256 x) shapeCasts_S256_S1x256

def hsDof : FVec F S_ .f32 :=
  subf (constant S_ .f32 0x461C4000#32) (sitofp .f32 (constantI S_ 32 0#32))

def hsVarV256 (x : FVec F S10000x256 .f32) : FVec F S256 .f32 :=
  select (broadcastInDim S256 ![] bcast_S_S256 (cmpf .ogt (hsDof (F := F)) (constant S_ .f32 0x00000000#32)))
    (Host.divf
      (Host.reduceAdd
        (mulf
          (subf x (broadcastInDim S10000x256 ![0, 1] bcast_S1x256_S10000x256_0_1
            (Host.divf
              (broadcastInDim S1x256 ![1] bcast_S256_S1x256_1
                (Host.reduceAdd x (constant S_ .f32 0x00000000#32) reducesTo_S10000x256_S256_d0 h_S_))
              (broadcastInDim S1x256 ![] bcast_S_S1x256 (constant S_ .f32 0x461C4000#32)))))
          (subf x (broadcastInDim S10000x256 ![0, 1] bcast_S1x256_S10000x256_0_1
            (Host.divf
              (broadcastInDim S1x256 ![1] bcast_S256_S1x256_1
                (Host.reduceAdd x (constant S_ .f32 0x00000000#32) reducesTo_S10000x256_S256_d0 h_S_))
              (broadcastInDim S1x256 ![] bcast_S_S1x256 (constant S_ .f32 0x461C4000#32))))))
        (constant S_ .f32 0x00000000#32) reducesTo_S10000x256_S256_d0 h_S_)
      (broadcastInDim S256 ![] bcast_S_S256 (hsDof (F := F))))
    (broadcastInDim S256 ![] bcast_S_S256 (id (constant S_ .f32 0x7FC00000#32)))

def hsVar256 (x : FVec F S10000x256 .f32) : FVec F S1x256 .f32 :=
  shapeCast S1x256 (hsVarV256 x) shapeCasts_S256_S1x256

def hsMeanV512 (o : FVec F S10000x512 .f32) : FVec F S512 .f32 :=
  Host.divf (Host.reduceAdd o (constant S_ .f32 0x00000000#32) reducesTo_S10000x512_S512_d0 h_S_)
    (broadcastInDim S512 ![] bcast_S_S512 (constant S_ .f32 0x461C4000#32))

def hsMean512 (o : FVec F S10000x512 .f32) : FVec F S1x512 .f32 :=
  shapeCast S1x512 (hsMeanV512 o) shapeCasts_S512_S1x512

def hsVarV512 (o : FVec F S10000x512 .f32) : FVec F S512 .f32 :=
  select (broadcastInDim S512 ![] bcast_S_S512 (cmpf .ogt (hsDof (F := F)) (constant S_ .f32 0x00000000#32)))
    (Host.divf
      (Host.reduceAdd
        (mulf
          (subf o (broadcastInDim S10000x512 ![0, 1] bcast_S1x512_S10000x512_0_1
            (Host.divf
              (broadcastInDim S1x512 ![1] bcast_S512_S1x512_1
                (Host.reduceAdd o (constant S_ .f32 0x00000000#32) reducesTo_S10000x512_S512_d0 h_S_))
              (broadcastInDim S1x512 ![] bcast_S_S1x512 (constant S_ .f32 0x461C4000#32)))))
          (subf o (broadcastInDim S10000x512 ![0, 1] bcast_S1x512_S10000x512_0_1
            (Host.divf
              (broadcastInDim S1x512 ![1] bcast_S512_S1x512_1
                (Host.reduceAdd o (constant S_ .f32 0x00000000#32) reducesTo_S10000x512_S512_d0 h_S_))
              (broadcastInDim S1x512 ![] bcast_S_S1x512 (constant S_ .f32 0x461C4000#32))))))
        (constant S_ .f32 0x00000000#32) reducesTo_S10000x512_S512_d0 h_S_)
      (broadcastInDim S512 ![] bcast_S_S512 (hsDof (F := F))))
    (broadcastInDim S512 ![] bcast_S_S512 (id (constant S_ .f32 0x7FC00000#32)))

def hsVar512 (o : FVec F S10000x512 .f32) : FVec F S1x512 .f32 :=
  shapeCast S1x512 (hsVarV512 o) shapeCasts_S512_S1x512

def hsRow256 (g : FVec F S256 .f32) : FVec F S1x256 .f32 :=
  shapeCast S1x256 g shapeCasts_S256_S1x256

def hsRow512 (g : FVec F S512 .f32) : FVec F S1x512 .f32 :=
  shapeCast S1x512 g shapeCasts_S512_S1x512

def hsBf256x512 (w : FVec F S256x512 .f32) : FVec F S256x512 .bf16 :=
  truncf .bf16 w bitsLt_bf16_f32

def hsBf512x512 (w : FVec F S512x512 .f32) : FVec F S512x512 .bf16 :=
  truncf .bf16 w bitsLt_bf16_f32

def hsRows (o : FVec F S10240x512 .f32) : FVec F S10000x512 .f32 :=
  extractStridedSlice S10000x512 ![0, 0] o slices_S10240x512_S10000x512_0_0

end Cert.KernelIdeal.Hand

end
-- ==== Proof.Lib1DScatter.lean ====
import proofs.«426621_j13099650253560_2_alg».proof.Proof.LibScatter

noncomputable section

namespace Cert.Scatter1D

open Idealize.ShloMosaic Idealize.ShloMosaic.ValueIdx

abbrev colDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable {N R w : Nat}
  (wf : ScatterDims.WF ⟨1, ![N]⟩ ⟨2, ![R, 1]⟩ ⟨1, ![R]⟩ [] [0] [0] 1)
  (idx : IVec ⟨2, ![R, 1]⟩ w) (j : (⟨1, ![R]⟩ : Shape).Idx)

theorem start_eq : (colDims N R wf).start j idx (0 : Fin 1) = (idx (ix2 (j 0) (0 : Fin 1))).toInt := by
  unfold ScatterDims.start
  rw [dif_pos (List.mem_singleton.mpr rfl)]
  exact congrArg (fun k => (idx k).toInt) (funext fun | ⟨0, _⟩ => rfl | ⟨1, _⟩ => rfl)

theorem window_zero : (colDims N R wf).window j (0 : Fin 1) = 0 :=
  dif_neg (by simp [ScatterDims.sKept, Shape.kept])

/-- The one operand axis is scattered and inserted: start the index entry, window 0. -/
theorem resultIdx?_eq_some_iff (i : (⟨1, ![N]⟩ : Shape).Idx) :
    (colDims N R wf).resultIdx? j idx = some i ↔ (idx (ix2 (j 0) (0 : Fin 1))).toInt = ((i 0).val : Int) := by
  rw [Cert.Scatter.resultIdx?_eq_some_iff, Fin.forall_fin_one, start_eq, window_zero]
  omega

theorem scatterAdd_col_apply {N R w : Nat} {φ : FTy}
    (wf : ScatterDims.WF ⟨1, ![N]⟩ ⟨2, ![R, 1]⟩ ⟨1, ![R]⟩ [] [0] [0] 1)
    (x : FVec Ideal ⟨1, ![N]⟩ φ) (idx : IVec ⟨2, ![R, 1]⟩ w) (upd : FVec Ideal ⟨1, ![R]⟩ φ)
    (i : Fin N) :
    Host.scatterAdd (colDims N R wf) x idx upd (ix1 i)
      = x (ix1 i) + ∑ e ∈ Finset.univ.filter (fun e : Fin R => (idx (ix2 e (0 : Fin 1))).toInt = (i.val : Int)),
          upd (ix1 e) :=
  Cert.Scatter.scatterAdd_apply _ idx x upd (ix1 i) _ ix1 (fun j => j 0) (fun _ => rfl)
    (fun j _ => (eq_ix1 j).symm) (fun e => resultIdx?_eq_some_iff wf idx (ix1 e) (ix1 i))

end Cert.Scatter1D
-- ==== Proof.Lib2DScatter.lean ====
import proofs.«426621_j13099650253560_2_alg».proof.Proof.LibScatter

noncomputable section

namespace Cert.Scatter2D

open Idealize.ShloMosaic Idealize.ShloMosaic.ValueIdx

abbrev pairDims (N M R : Nat)
    (wf : ScatterDims.WF ⟨2, ![N, M]⟩ ⟨2, ![R, 2]⟩ ⟨1, ![R]⟩ [] [0, 1] [0, 1] 1) :
    ScatterDims ⟨2, ![N, M]⟩ ⟨2, ![R, 2]⟩ ⟨1, ![R]⟩ where
  updateWindowDims := []
  insertedWindowDims := [0, 1]
  scatterDimsToOperandDims := [0, 1]
  indexVectorDim := 1
  wf := wf

variable {N M R w : Nat}
  (wf : ScatterDims.WF ⟨2, ![N, M]⟩ ⟨2, ![R, 2]⟩ ⟨1, ![R]⟩ [] [0, 1] [0, 1] 1)
  (idx : IVec ⟨2, ![R, 2]⟩ w) (j : (⟨1, ![R]⟩ : Shape).Idx)

theorem start_eq (a : Fin 2) : (pairDims N M R wf).start j idx a = (idx (ix2 (j 0) a)).toInt := by
  unfold ScatterDims.start
  match a with
  | ⟨0, _⟩ | ⟨1, _⟩ =>
    rw [dif_pos (by simp)]
    exact congrArg (fun k => (idx k).toInt) (funext fun | ⟨0, _⟩ => rfl | ⟨1, _⟩ => rfl)

theorem window_zero (a : Fin 2) : (pairDims N M R wf).window j a = 0 :=
  dif_neg (by match a with | ⟨0, _⟩ | ⟨1, _⟩ => simp [ScatterDims.sKept, Shape.kept])

/-- Both operand axes are scattered and inserted: each start is its index entry, each window 0. -/
theorem resultIdx?_eq_some_iff (i : (⟨2, ![N, M]⟩ : Shape).Idx) :
    (pairDims N M R wf).resultIdx? j idx = some i
      ↔ (idx (ix2 (j 0) (0 : Fin 2))).toInt = ((i 0).val : Int) ∧ (idx (ix2 (j 0) (1 : Fin 2))).toInt = ((i 1).val : Int) := by
  rw [Cert.Scatter.resultIdx?_eq_some_iff, Fin.forall_fin_two, start_eq, start_eq, window_zero, window_zero]
  omega

theorem scatterAdd_pairs_apply {N M R w : Nat} {φ : FTy}
    (wf : ScatterDims.WF ⟨2, ![N, M]⟩ ⟨2, ![R, 2]⟩ ⟨1, ![R]⟩ [] [0, 1] [0, 1] 1)
    (x : FVec Ideal ⟨2, ![N, M]⟩ φ) (idx : IVec ⟨2, ![R, 2]⟩ w) (upd : FVec Ideal ⟨1, ![R]⟩ φ)
    (i : Fin N) (j : Fin M) :
    Host.scatterAdd (pairDims N M R wf) x idx upd (ix2 i j)
      = x (ix2 i j) + ∑ e ∈ Finset.univ.filter (fun e : Fin R =>
            (idx (ix2 e (0 : Fin 2))).toInt = (i.val : Int) ∧ (idx (ix2 e (1 : Fin 2))).toInt = (j.val : Int)),
          upd (ix1 e) :=
  Cert.Scatter.scatterAdd_apply _ idx x upd (ix2 i j) _ ix1 (fun k => k 0) (fun _ => rfl)
    (fun k _ => (eq_ix1 k).symm) (fun e => resultIdx?_eq_some_iff wf idx (ix1 e) (ix2 i j))

end Cert.Scatter2D
-- ==== Proof.KI.HostVals.lean ====
import proofs.«426621_j13099650253560_2_alg».proof.Proof.KI.HostStages
import proofs.«426621_j13099650253560_2_alg».proof.Proof.Lib1DScatter
import proofs.«426621_j13099650253560_2_alg».proof.Proof.Lib2DScatter
import Idealize.ShloMosaic.Lib.ValueIdx
import Idealize.ShloMosaic.Lib.Affine
import Idealize.ShloMosaic.Lib.Pipeline.Value
import Idealize.ShloMosaic.Lib.KernelVsHost
import Idealize.ShloMosaic.PureOps.Ideal.Laws

noncomputable section

namespace Cert.KernelIdeal.Hand

open Cert.KernelIdeal Cert.KernelIdeal.Gen
open Idealize.ShloMosaic Idealize.ShloMosaic.ValueIdx

theorem ofBits_one_f32 : Ideal.ofBits .f32 0x3F800000#32 = 1 := by
  simp [Ideal.ofBits, Ideal.ieee, -EReal.coe_mul]; norm_num

theorem hostZero (φ : FTy) (j : S_.Idx) : (sitofp φ (constantI S_ 32 0#32) : FVec Ideal S_ φ) j = 0 := by
  show ((((0#32 : BitVec 32).toInt : ℤ) : ℝ) : EReal) = 0
  simp

theorem pad_in (n : ℕ) : n = 0 + n * (0 + 1) := by omega
theorem pad_out {n : ℕ} (h : ¬ n < 10000) : ¬ (0 ≤ n ∧ (n - 0) % (0 + 1) = 0 ∧ (n - 0) / (0 + 1) < 10000) := by omega

theorem ones_apply (k : S320000.Idx) :
    (broadcastInDim S320000 ![] bcast_S_S320000 (constant S_ .f32 0x3F800000#32) : FVec Ideal S320000 .f32) k = (1 : EReal) :=
  ofBits_one_f32

theorem one10000_apply (k : S10000.Idx) :
    (broadcastInDim S10000 ![] bcast_S_S10000 (constant S_ .f32 0x3F800000#32) : FVec Ideal S10000 .f32) k = (1 : EReal) :=
  ofBits_one_f32

variable (e : IVec S2x320000 32)

theorem srcdst_apply (k : Fin 320000) : hsSrc e (ix1 k) = e (ix2 0 k) ∧ hsDst e (ix1 k) = e (ix2 1 k) := by
  unfold hsSrc hsDst
  constructor <;>
  · refine (shapeCast_apply _ _ (ix1 k) (ix2 (0 : Fin 1) k) ?_).trans (extractStridedSlice_apply _ _ _ _ _ fun a => ?_)
    · rw [Shape.rowMajor_val_two, Shape.rowMajor_val_one]
      show 0 * 320000 + k.val = k.val
      omega
    · match a with
      | ⟨0, _⟩ => rfl
      | ⟨1, _⟩ => exact (Nat.zero_add _).symm

theorem src_apply (k : Fin 320000) : hsSrc e (ix1 k) = e (ix2 0 k) := (srcdst_apply e k).1

theorem dst_apply (k : Fin 320000) : hsDst e (ix1 k) = e (ix2 1 k) := (srcdst_apply e k).2

theorem col_apply (v : IVec S320000 32) (k : Fin 320000) :
    broadcastInDim S320000x1 ![0] bcast_S320000_S320000x1_0 v (ix2 k (0 : Fin 1)) = v (ix1 k) := by
  refine broadcastInDim_apply _ _ _ _ (ix1 k) ?_
  intro a
  match a with
  | ⟨0, _⟩ => rfl

theorem wrap_apply (v : IVec S320000 32) (k : Fin 320000) (h0 : 0 ≤ (v (ix1 k)).toInt) :
    hsWrap v (ix1 k) = v (ix1 k) := by
  unfold hsWrap
  show Scalar.select (IntOp.cmpi .slt (v (ix1 k)) (0#32)) _ _ = _
  have hc : ¬ IntOp.cmpi .slt (v (ix1 k)) (0#32) = 1#1 := by
    rw [IntOp.cmpi_slt]
    have z0 : (0#32 : BitVec 32).toInt = 0 := by decide
    rw [z0]
    omega
  rw [eq_zero_of_ne_one hc, select_zero]

theorem cnt_apply (i : Fin 10000) :
    hsCnt (F := Ideal) e (ix1 i)
      = 0 + ∑ k ∈ Finset.univ.filter (fun k : Fin 320000 => (e (ix2 1 k)).toInt = (i.val : Int)), (1 : EReal) := by
  unfold hsCnt
  refine (Cert.Scatter1D.scatterAdd_col_apply scatter_S10000_S320000x1_S320000_n_0_0_1_wf _ _ _ i).trans ?_
  refine congrArg₂ (· + ·) Ideal.ofBits_zero_f32 ?_
  refine Finset.sum_congr (Finset.filter_congr fun k _ => ?_) (fun k _ => ones_apply _)
  rw [col_apply, dst_apply]

theorem inv_apply (i : Fin 10240) :
    hsInv (F := Ideal) e (ix2 i (0 : Fin 1))
      = if h : i.val < 10000 then
          Ideal.div 1 (max (0 + ∑ k ∈ Finset.univ.filter (fun k : Fin 320000 => (e (ix2 1 k)).toInt = (i.val : Int)),
            (1 : EReal)) 1)
        else 0 := by
  unfold hsInv
  refine (shapeCast_apply _ _ (ix2 i (0 : Fin 1)) (ix1 i) ?_).trans ?_
  · rw [Shape.rowMajor_val_two, Shape.rowMajor_val_one]
    show i.val = i.val * 1 + 0
    omega
  by_cases h : i.val < 10000
  · rw [dif_pos h]
    refine (pad_apply_of_inside _ _ _ _ _ _ _ (ix1 i) (ix1 (⟨i.val, h⟩ : Fin 10000)) ?_).trans ?_
    · intro a
      match a with
      | ⟨0, _⟩ => exact pad_in _
    · unfold Host.divf
      rw [Ideal.hostDivf_def, maximumf_apply, one10000_apply, cnt_apply]
  · rw [dif_neg h]
    refine (pad_apply_of_not_inside _ _ _ _ _ _ _ (ix1 i) (0 : Fin 1) ?_).trans (hostZero _ _)
    exact pad_out h

section
variable (hidx : ∀ (r : Fin 2) (j : Fin 320000), 0 ≤ (e (ix2 r j)).toInt ∧ (e (ix2 r j)).toInt < 10000)
include hidx

theorem pairs_apply0 (k : Fin 320000) : hsPairs e (ix2 k (0 : Fin 2)) = e (ix2 1 k) := by
  unfold hsPairs
  refine (concatenate_pair_apply_left (t := S320000x2) (s₁ := S320000x1) (s₂ := S320000x1) _ _ _ _ (ix2 k (0 : Fin 2)) rfl
    (ix2 k (0 : Fin 1)) ?_).trans ?_
  · intro b
    match b with
    | ⟨0, _⟩ => rfl
    | ⟨1, _⟩ => rfl
  · rw [col_apply, wrap_apply _ _ (by rw [dst_apply]; exact (hidx 1 k).1), dst_apply]

theorem pairs_apply1 (k : Fin 320000) : hsPairs e (ix2 k (1 : Fin 2)) = e (ix2 0 k) := by
  unfold hsPairs
  refine (concatenate_pair_apply_right (t := S320000x2) (s₁ := S320000x1) (s₂ := S320000x1) _ _ _ _ (ix2 k (1 : Fin 2)) rfl rfl
    (ix2 k (0 : Fin 1)) ?_ ?_).trans ?_
  · intro b hb
    match b with
    | ⟨0, _⟩ => rfl
    | ⟨1, _⟩ => exact absurd rfl hb
  · rfl
  · rw [col_apply, wrap_apply _ _ (by rw [src_apply]; exact (hidx 0 k).1), src_apply]

theorem adj_apply
    (i j : Fin 10000) :
    hsAdj (F := Ideal) e (ix2 i j)
      = 0 + ∑ k ∈ Finset.univ.filter (fun k : Fin 320000 =>
            (e (ix2 1 k)).toInt = (i.val : Int) ∧ (e (ix2 0 k)).toInt = (j.val : Int)), (1 : EReal) := by
  unfold hsAdj
  refine (Cert.Scatter2D.scatterAdd_pairs_apply scatter_S10000x10000_S320000x2_S320000_n_01_01_1_wf _ _ _ i j).trans ?_
  refine congrArg₂ (· + ·) Ideal.ofBits_zero_f32 ?_
  refine Finset.sum_congr (Finset.filter_congr fun k _ => ?_) (fun k _ => ones_apply _)
  rw [pairs_apply0 e hidx, pairs_apply1 e hidx]

theorem adjPad_apply
    (i j : Fin 10240) :
    hsAdjPad (F := Ideal) e (ix2 i j)
      = if h : i.val < 10000 ∧ j.val < 10000 then
          0 + ∑ k ∈ Finset.univ.filter (fun k : Fin 320000 =>
            (e (ix2 1 k)).toInt = (i.val : Int) ∧ (e (ix2 0 k)).toInt = (j.val : Int)), (1 : EReal)
        else 0 := by
  unfold hsAdjPad
  by_cases h : i.val < 10000 ∧ j.val < 10000
  · rw [dif_pos h]
    refine (pad_apply_of_inside _ _ _ _ _ _ _ (ix2 i j) (ix2 (⟨i.val, h.1⟩ : Fin 10000) (⟨j.val, h.2⟩ : Fin 10000)) ?_).trans ?_
    · intro a
      match a with
      | ⟨0, _⟩ => exact pad_in _
      | ⟨1, _⟩ => exact pad_in _
    · exact adj_apply e hidx ⟨i.val, h.1⟩ ⟨j.val, h.2⟩
  · rw [dif_neg h]
    by_cases hi : i.val < 10000
    · have hj : ¬ j.val < 10000 := fun hj => h ⟨hi, hj⟩
      refine (pad_apply_of_not_inside _ _ _ _ _ _ _ (ix2 i j) (1 : Fin 2) ?_).trans (hostZero _ _)
      exact pad_out hj
    · refine (pad_apply_of_not_inside _ _ _ _ _ _ _ (ix2 i j) (0 : Fin 2) ?_).trans (hostZero _ _)
      exact pad_out hi

end

theorem xPad_apply (x : FVec Ideal S10000x256 .f32) (r : Fin 10240) (c : Fin 256) :
    hsXPad (F := Ideal) x (ix2 r c) = if h : r.val < 10000 then x (ix2 ⟨r.val, h⟩ c) else 0 := by
  unfold hsXPad
  by_cases h : r.val < 10000
  · rw [dif_pos h]
    refine pad_apply_of_inside _ _ _ _ _ _ _ (ix2 r c) (ix2 (⟨r.val, h⟩ : Fin 10000) c) ?_
    intro a
    match a with
    | ⟨0, _⟩ => exact pad_in _
    | ⟨1, _⟩ => exact pad_in _
  · rw [dif_neg h]
    refine (pad_apply_of_not_inside _ _ _ _ _ _ _ (ix2 r c) (0 : Fin 2) ?_).trans (hostZero _ _)
    exact pad_out h

section
variable {F : FTy → Type} [FloatOps F]

theorem rows_apply (o : FVec F S10240x512 .f32) (r : Fin 10000) (c : Fin 512) :
    hsRows o (ix2 r c) = o (ix2 ⟨r.val, Nat.lt_trans r.isLt (by decide)⟩ c) := by
  unfold hsRows
  refine extractStridedSlice_apply _ _ _ _ _ ?_
  intro a
  match a with
  | ⟨0, _⟩ => exact (Nat.zero_add _).symm
  | ⟨1, _⟩ => exact (Nat.zero_add _).symm

theorem row256_apply (g : FVec F S256 .f32) (c : Fin 256) : hsRow256 g (ix2 (0 : Fin 1) c) = g (ix1 c) := by
  unfold hsRow256
  refine shapeCast_apply _ _ _ _ ?_
  rw [Shape.rowMajor_val_two, Shape.rowMajor_val_one]
  show c.val = 0 * 256 + c.val
  omega

theorem row512_apply (g : FVec F S512 .f32) (c : Fin 512) : hsRow512 g (ix2 (0 : Fin 1) c) = g (ix1 c) := by
  unfold hsRow512
  refine shapeCast_apply _ _ _ _ ?_
  rw [Shape.rowMajor_val_two, Shape.rowMajor_val_one]
  show c.val = 0 * 512 + c.val
  omega

end

theorem bf256x512_apply (w : FVec Ideal S256x512 .f32) (i : S256x512.Idx) : hsBf256x512 (F := Ideal) w i = w i := rfl

end Cert.KernelIdeal.Hand

end
-- ==== Proof.Final.KAssembly.lean ====
import proofs.«426621_j13099650253560_2_alg».proof.Proof.KI.HostVals
import proofs.«426621_j13099650253560_2_alg».proof.Proof.Spec.Net

noncomputable section

namespace Cert.Final

open Cert.KernelIdeal Cert.KernelIdeal.Hand
open Idealize.ShloMosaic Idealize.ShloMosaic.ValueIdx

abbrev tileRow (i : Fin 10) (r : Fin 1024) : Fin 10240 :=
  ⟨i.val * 1024 + r.val, by have := i.isLt; have := r.isLt; omega⟩

abbrev blockCol (k : ℕ) (hk : k < 5) (l : Fin 2048) : Fin 10240 :=
  ⟨k * 2048 + l.val, by have := l.isLt; omega⟩

theorem rows_eq (O : FVec Ideal S10240x512 .f32) :
    hsRows O = fun y : S10000x512.Idx => O (ix2 (Fin.castLE (by decide : 10000 ≤ 10240) (y 0)) (y 1)) := by
  funext y
  exact (congrArg (hsRows O) (eq_ix2 y)).trans (rows_apply O (y 0) (y 1))

theorem kernel_out_of (eps : EReal)
    (a0 : FVec Ideal S10000x256 .f32) (a1 : IVec S2x320000 32) (a2 a3 : FVec Ideal S256 .f32)
    (a4 a5 : FVec Ideal S256x512 .f32) (a6 a7 a8 : FVec Ideal S512 .f32) (a9 a10 : FVec Ideal S512x512 .f32)
    (a11 : FVec Ideal S512 .f32) (a12 : FVec Ideal S256x512 .f32) (a13 : FVec Ideal S512 .f32)
    (hidx : ∀ (r : Fin 2) (j : Fin 320000), 0 ≤ (a1 (ix2 r j)).toInt ∧ (a1 (ix2 r j)).toInt < 10000)
    (M0 V0 : FVec Ideal S256 .f32) (stM stV : FVec Ideal S10000x512 .f32 → FVec Ideal S512 .f32)
    (H0p : FVec Ideal S10240x256 .bf16)
    (hH0p : ∀ (R : Fin 10240) (f : Fin 256), H0p (ix2 R f)
      = Cert.Spec.bnr eps (hsXPad (F := Ideal) a0 (ix2 R f)) (M0 (ix1 f)) (V0 (ix1 f)) (a2 (ix1 f)) (a3 (ix1 f)))
    (O0p : FVec Ideal S10240x512 .f32) (acc0 : Fin 10 → ℕ → FVec Ideal S1024x256 .f32)
    (h00 : ∀ (i : Fin 10) (r : Fin 1024) (col : Fin 256), acc0 i 0 (ix2 r col) = 0)
    (hs0 : ∀ (i : Fin 10) (k : ℕ) (hk : k < 5) (r : Fin 1024) (col : Fin 256),
      acc0 i (k + 1) (ix2 r col) = acc0 i k (ix2 r col) + ∑ l : Fin 2048,
        hsAdjPad (F := Ideal) a1 (ix2 (tileRow i r) (blockCol k hk l)) * H0p (ix2 (blockCol k hk l) col))
    (hO0p : ∀ (i : Fin 10) (r : Fin 1024) (o : Fin 512), O0p (ix2 (tileRow i r) o)
      = ((∑ f : Fin 256, (acc0 i 5 (ix2 r f) * hsInv (F := Ideal) a1 (ix2 (tileRow i r) (0 : Fin 1))) * a4 (ix2 f o))
          + a6 (ix1 o))
        + ∑ f : Fin 256, H0p (ix2 (tileRow i r) f) * a5 (ix2 f o))
    (H1p : FVec Ideal S10240x512 .bf16)
    (hH1p : ∀ (R : Fin 10240) (f : Fin 512), H1p (ix2 R f)
      = Cert.Spec.bnr eps (O0p (ix2 R f)) (stM (hsRows O0p) (ix1 f)) (stV (hsRows O0p) (ix1 f)) (a7 (ix1 f)) (a8 (ix1 f)))
    (Outp : FVec Ideal S10240x512 .f32) (acc1 : Fin 10 → ℕ → FVec Ideal S1024x512 .f32)
    (h10 : ∀ (i : Fin 10) (r : Fin 1024) (col : Fin 512), acc1 i 0 (ix2 r col) = 0)
    (hs1 : ∀ (i : Fin 10) (k : ℕ) (hk : k < 5) (r : Fin 1024) (col : Fin 512),
      acc1 i (k + 1) (ix2 r col) = acc1 i k (ix2 r col) + ∑ l : Fin 2048,
        hsAdjPad (F := Ideal) a1 (ix2 (tileRow i r) (blockCol k hk l)) * H1p (ix2 (blockCol k hk l) col))
    (hOutp : ∀ (i : Fin 10) (r : Fin 1024) (o : Fin 512), Outp (ix2 (tileRow i r) o)
      = (((∑ f : Fin 512, (acc1 i 5 (ix2 r f) * hsInv (F := Ideal) a1 (ix2 (tileRow i r) (0 : Fin 1))) * a9 (ix2 f o))
            + a11 (ix1 o))
          + ∑ f : Fin 512, H1p (ix2 (tileRow i r) f) * a10 (ix2 f o))
        + ((∑ f : Fin 256, hsXPad (F := Ideal) a0 (ix2 (tileRow i r) f) * a12 (ix2 f o)) + a13 (ix1 o)))
    (outv : FVec Ideal S10000x512 .f32)
    (hfin : ∀ (R : Fin 10000) (o : Fin 512),
      outv (ix2 R o) = Outp (ix2 (Fin.castLE (by decide : 10000 ≤ 10240) R) o))
    (i : Fin 10000) (o : Fin 512) :
    outv (ix2 i o)
      = Cert.Spec.netRow (N := 10000) (E := 320000) (C0 := 256) (C1 := 512) (C2 := 512) eps
          (fun j => (a1 (ix2 (0 : Fin 2) j)).toInt) (fun j => (a1 (ix2 (1 : Fin 2) j)).toInt) (fun j => hidx 0 j)
          (fun i f => a0 (ix2 i f)) (fun f => M0 (ix1 f)) (fun f => V0 (ix1 f))
          (fun f => a2 (ix1 f)) (fun f => a3 (ix1 f)) (fun f o => a4 (ix2 f o)) (fun f o => a5 (ix2 f o))
          (fun o => a6 (ix1 o))
          (fun O f => stM (fun y : S10000x512.Idx => O (y 0) (y 1)) (ix1 f))
          (fun O f => stV (fun y : S10000x512.Idx => O (y 0) (y 1)) (ix1 f))
          (fun f => a7 (ix1 f)) (fun f => a8 (ix1 f)) (fun f o => a9 (ix2 f o)) (fun f o => a10 (ix2 f o))
          (fun o => a11 (ix1 o)) (fun f o => a12 (ix2 f o)) (fun o => a13 (ix1 o)) i o := by
  have hNP : 10000 ≤ 10240 := by decide
  have hq : ∀ R : Fin 10000, R.val / 1024 < 10 := fun R => by have := R.isLt; omega
  have hr : ∀ R : Fin 10000, R.val % 1024 < 1024 := fun R => Nat.mod_lt _ (by decide)
  have hrow : ∀ R : Fin 10000, Fin.castLE hNP R = tileRow ⟨R.val / 1024, hq R⟩ ⟨R.val % 1024, hr R⟩ := fun R =>
    Fin.ext (by show R.val = R.val / 1024 * 1024 + R.val % 1024; omega)
  refine (hfin i o).trans ?_
  exact Cert.Spec.net_rows (N := 10000) (P := 10240) (E := 320000) (C0 := 256) (C1 := 512) (C2 := 512)
    2048 5 (by decide) hNP eps
    (fun j => (a1 (ix2 (0 : Fin 2) j)).toInt) (fun j => (a1 (ix2 (1 : Fin 2) j)).toInt) (fun j => hidx 0 j)
    (fun i j => hsAdjPad (F := Ideal) a1 (ix2 (Fin.castLE hNP i) j))
    (fun i j => by
      refine (adjPad_apply a1 hidx (Fin.castLE hNP i) j).trans ?_
      by_cases hj : j.val < 10000
      · rw [dif_pos hj]
        exact (dif_pos (show (Fin.castLE hNP i).val < 10000 ∧ j.val < 10000 from ⟨i.isLt, hj⟩)).trans (zero_add _)
      · rw [dif_neg hj]
        exact dif_neg (fun h => hj h.2))
    (fun i => hsInv (F := Ideal) a1 (ix2 (Fin.castLE hNP i) (0 : Fin 1)))
    (fun i => (inv_apply a1 (Fin.castLE hNP i)).trans ((dif_pos (show (Fin.castLE hNP i).val < 10000 from i.isLt)).trans
      (congrArg (fun t => Ideal.div 1 (max t 1)) (zero_add _))))
    (fun R f => hsXPad (F := Ideal) a0 (ix2 R f)) (fun i f => a0 (ix2 i f))
    (fun i f => (xPad_apply a0 (Fin.castLE hNP i) f).trans (dif_pos (show (Fin.castLE hNP i).val < 10000 from i.isLt)))
    (fun f => M0 (ix1 f)) (fun f => V0 (ix1 f)) (fun f => a2 (ix1 f)) (fun f => a3 (ix1 f))
    (fun R f => H0p (ix2 R f)) (fun R f => hH0p (Fin.castLE hNP R) f)
    (fun R k f => acc0 ⟨R.val / 1024, hq R⟩ k (ix2 ⟨R.val % 1024, hr R⟩ f)) (fun R f => h00 _ _ f)
    (fun R k hk f => by rw [hrow R]; exact hs0 _ k hk _ f)
    (fun f o => a4 (ix2 f o)) (fun f o => a5 (ix2 f o)) (fun o => a6 (ix1 o))
    (fun R o => O0p (ix2 R o)) (fun R o => by rw [hrow R]; exact hO0p _ _ o)
    (fun O f => stM (fun y : S10000x512.Idx => O (y 0) (y 1)) (ix1 f))
    (fun O f => stV (fun y : S10000x512.Idx => O (y 0) (y 1)) (ix1 f))
    (fun f => a7 (ix1 f)) (fun f => a8 (ix1 f))
    (fun R f => H1p (ix2 R f)) (fun R f => by rw [← rows_eq O0p]; exact hH1p _ f)
    (fun R k f => acc1 ⟨R.val / 1024, hq R⟩ k (ix2 ⟨R.val % 1024, hr R⟩ f)) (fun R f => h10 _ _ f)
    (fun R k hk f => by rw [hrow R]; exact hs1 _ k hk _ f)
    (fun f o => a9 (ix2 f o)) (fun f o => a10 (ix2 f o)) (fun o => a11 (ix1 o))
    (fun f o => a12 (ix2 f o)) (fun o => a13 (ix1 o))
    (fun R o => Outp (ix2 (Fin.castLE hNP R) o)) (fun R o => by rw [hrow R]; exact hOutp _ _ o) i o

end Cert.Final
-- ==== Proof.KI.HostRun.lean ====
import proofs.«426621_j13099650253560_2_alg».proof.Proof.Gen.KernelIdeal.Launch
import proofs.«426621_j13099650253560_2_alg».proof.Proof.Gen.KernelIdeal.Regions
import proofs.«426621_j13099650253560_2_alg».proof.Proof.KI.HostStages
import Idealize.ShloMosaic.Lib.StableHlo.Run

noncomputable section

namespace Cert.KernelIdeal.Hand

open Cert.KernelIdeal Cert.KernelIdeal.Gen
open Idealize.ShloMosaic

variable {F : FTy → Type} [FloatOps F] (V : Valuation τ sig (Elt F)) (r : Ref sig .tc)

abbrev st0 : Valuation τ sig (Elt F) := StableHlo.after hostOps0 V
abbrev st1 : Valuation τ sig (Elt F) := StableHlo.after hostOps0_1 (st0 V)
abbrev st2 : Valuation τ sig (Elt F) := StableHlo.after hostOps0_2 (st1 V)
abbrev st3 : Valuation τ sig (Elt F) := StableHlo.after hostOps0_3 (st2 V)
abbrev st4 : Valuation τ sig (Elt F) := StableHlo.after hostOps0_4 (st3 V)
abbrev st5 : Valuation τ sig (Elt F) := StableHlo.after hostOps0_5 (st4 V)
abbrev st6 : Valuation τ sig (Elt F) := StableHlo.after hostOps0_6 (st5 V)
abbrev st7 : Valuation τ sig (Elt F) := StableHlo.after hostOps0_7 (st6 V)
abbrev entry0 : Valuation τ sig (Elt F) := StableHlo.after hostOps0_8 (st7 V)

theorem st0_of (h : r ∉ hostOps0_W) :
    st0 V (Proc.devRef .tc r) = V (Proc.devRef .tc r) :=
  StableHlo.after_of_writes_sub hostOps0 _ hostOps0_writes h
theorem st1_of (h : r ∉ hostOps0_1_W) :
    st1 V (Proc.devRef .tc r) = st0 V (Proc.devRef .tc r) :=
  StableHlo.after_of_writes_sub hostOps0_1 _ hostOps0_1_writes h
theorem st2_of (h : r ∉ hostOps0_2_W) :
    st2 V (Proc.devRef .tc r) = st1 V (Proc.devRef .tc r) :=
  StableHlo.after_of_writes_sub hostOps0_2 _ hostOps0_2_writes h
theorem st3_of (h : r ∉ hostOps0_3_W) :
    st3 V (Proc.devRef .tc r) = st2 V (Proc.devRef .tc r) :=
  StableHlo.after_of_writes_sub hostOps0_3 _ hostOps0_3_writes h
theorem st4_of (h : r ∉ hostOps0_4_W) :
    st4 V (Proc.devRef .tc r) = st3 V (Proc.devRef .tc r) :=
  StableHlo.after_of_writes_sub hostOps0_4 _ hostOps0_4_writes h
theorem st5_of (h : r ∉ hostOps0_5_W) :
    st5 V (Proc.devRef .tc r) = st4 V (Proc.devRef .tc r) :=
  StableHlo.after_of_writes_sub hostOps0_5 _ hostOps0_5_writes h
theorem st6_of (h : r ∉ hostOps0_6_W) :
    st6 V (Proc.devRef .tc r) = st5 V (Proc.devRef .tc r) :=
  StableHlo.after_of_writes_sub hostOps0_6 _ hostOps0_6_writes h
theorem st7_of (h : r ∉ hostOps0_7_W) :
    st7 V (Proc.devRef .tc r) = st6 V (Proc.devRef .tc r) :=
  StableHlo.after_of_writes_sub hostOps0_7 _ hostOps0_7_writes h
theorem st8_of (h : r ∉ hostOps0_8_W) :
    entry0 V (Proc.devRef .tc r) = st7 V (Proc.devRef .tc r) :=
  StableHlo.after_of_writes_sub hostOps0_8 _ hostOps0_8_writes h

theorem entry0_v39 :
    (entry0 V (Proc.devRef .tc main_v39) : FVec F S1x256 .f32) = hsRow256 (V (Proc.devRef .tc main_arg2)) := by
  have e : (entry0 V (Proc.devRef .tc main_v39) : FVec F S1x256 .f32)
      = hsRow256 (st7 V (Proc.devRef .tc main_arg2)) := by
    dsimp only [entry0]
    generalize st7 V = W
    dsimp only [hostOps0_8]
    after_results
    rfl
  rw [e, st7_of V _ (by decide), st6_of V _ (by decide), st5_of V _ (by decide), st4_of V _ (by decide),
    st3_of V _ (by decide), st2_of V _ (by decide), st1_of V _ (by decide), st0_of V _ (by decide)]

theorem entry0_v32 :
    (entry0 V (Proc.devRef .tc main_v32) : FVec F S10240x256 .f32) = hsXPad (V (Proc.devRef .tc main_arg0)) := by
  have e : (st5 V (Proc.devRef .tc main_v32) : FVec F S10240x256 .f32)
      = pad S10240x256 ![0, 0] ![240, 0] ![0, 0] (st4 V (Proc.devRef .tc main_arg0)) (sitofp .f32 (st4 V (Proc.devRef .tc main_c_10)))
          pads_S10000x256_S10240x256_02400_000 h_S_ := by
    dsimp only [st5]
    generalize st4 V = W
    dsimp only [hostOps0_5]
    after_results
    rfl
  have c : (st4 V (Proc.devRef .tc main_c_10) : IVec S_ 32) = constantI S_ 32 0#32 := by
    dsimp only [st4]
    generalize st3 V = W
    dsimp only [hostOps0_4]
    after_results
  rw [st8_of V _ (by decide), st7_of V _ (by decide), st6_of V _ (by decide), e, c, st4_of V _ (by decide), st3_of V _ (by decide), st2_of V _ (by decide), st1_of V _ (by decide), st0_of V _ (by decide)]
  rfl

theorem entry0_v36 :
    (entry0 V (Proc.devRef .tc main_v36) : FVec F S1x256 .f32) = hsMean256 (V (Proc.devRef .tc main_arg0)) := by
  have e : (st6 V (Proc.devRef .tc main_v36) : FVec F S1x256 .f32) = hsMean256 (st5 V (Proc.devRef .tc main_arg0)) := by
    dsimp only [st6]
    generalize st5 V = W
    dsimp only [hostOps0_6]
    after_results
    rfl
  rw [st8_of V _ (by decide), st7_of V _ (by decide), e, st5_of V _ (by decide), st4_of V _ (by decide), st3_of V _ (by decide), st2_of V _ (by decide), st1_of V _ (by decide), st0_of V _ (by decide)]

theorem entry0_v40 :
    (entry0 V (Proc.devRef .tc main_v40) : FVec F S1x256 .f32) = hsRow256 (V (Proc.devRef .tc main_arg3)) := by
  have e : (entry0 V (Proc.devRef .tc main_v40) : FVec F S1x256 .f32) = hsRow256 (st7 V (Proc.devRef .tc main_arg3)) := by
    dsimp only [entry0]
    generalize st7 V = W
    dsimp only [hostOps0_8]
    after_results
    rfl
  rw [e, st7_of V _ (by decide), st6_of V _ (by decide), st5_of V _ (by decide), st4_of V _ (by decide), st3_of V _ (by decide), st2_of V _ (by decide), st1_of V _ (by decide), st0_of V _ (by decide)]

theorem entry0_v41 :
    (entry0 V (Proc.devRef .tc main_v41) : FVec F S1x512 .f32) = hsRow512 (V (Proc.devRef .tc main_arg6)) := by
  have e : (entry0 V (Proc.devRef .tc main_v41) : FVec F S1x512 .f32) = hsRow512 (st7 V (Proc.devRef .tc main_arg6)) := by
    dsimp only [entry0]
    generalize st7 V = W
    dsimp only [hostOps0_8]
    after_results
    rfl
  rw [e, st7_of V _ (by decide), st6_of V _ (by decide), st5_of V _ (by decide), st4_of V _ (by decide), st3_of V _ (by decide), st2_of V _ (by decide), st1_of V _ (by decide), st0_of V _ (by decide)]

theorem st0_v24 :
    (st0 V (Proc.devRef .tc main_v24) : FVec F S10000x10000 .bf16)
      = truncf .bf16 (hsAdj (F := F) (V (Proc.devRef .tc main_arg1))) bitsLt_bf16_f32 := by
  dsimp only [st0, hostOps0]
  after_results_simp
  rfl

theorem st0_v28 :
    (st0 V (Proc.devRef .tc main_v28) : FVec F S10000 .f32)
      = Host.divf (broadcastInDim S10000 ![] bcast_S_S10000 (constant S_ .f32 0x3F800000#32)) (maximumf (hsCnt (F := F) (V (Proc.devRef .tc main_arg1))) (broadcastInDim S10000 ![] bcast_S_S10000 (constant S_ .f32 0x3F800000#32))) := by
  dsimp only [st0, hostOps0]
  after_results_simp
  rfl

theorem st0_c8 : (st0 V (Proc.devRef .tc main_c_8) : IVec S_ 32) = constantI S_ 32 0#32 := by
  dsimp only [st0, hostOps0]
  after_results_simp

theorem entry0_v29 :
    (entry0 V (Proc.devRef .tc main_v29) : FVec F S10240x10240 .bf16) = hsAdjPad (V (Proc.devRef .tc main_arg1)) := by
  have e : (st1 V (Proc.devRef .tc main_v29) : FVec F S10240x10240 .bf16)
      = pad S10240x10240 ![0, 0] ![240, 240] ![0, 0] (st0 V (Proc.devRef .tc main_v24)) (sitofp .bf16 (st0 V (Proc.devRef .tc main_c_8)))
          pads_S10000x10000_S10240x10240_02400_02400 h_S_ := by
    dsimp only [st1]
    generalize st0 V = W
    dsimp only [hostOps0_1]
    after_results
    rfl
  rw [st8_of V _ (by decide), st7_of V _ (by decide), st6_of V _ (by decide), st5_of V _ (by decide), st4_of V _ (by decide), st3_of V _ (by decide), st2_of V _ (by decide), e, st0_v24, st0_c8]
  rfl

theorem entry0_v31 :
    (entry0 V (Proc.devRef .tc main_v31) : FVec F S10240x1 .f32) = hsInv (V (Proc.devRef .tc main_arg1)) := by
  have e4 : (st4 V (Proc.devRef .tc main_v31) : FVec F S10240x1 .f32)
      = shapeCast S10240x1 (st3 V (Proc.devRef .tc main_v30)) shapeCasts_S10240_S10240x1 := by
    dsimp only [st4]
    generalize st3 V = W
    dsimp only [hostOps0_4]
    after_results
    rfl
  have e3 : (st3 V (Proc.devRef .tc main_v30) : FVec F S10240 .f32)
      = pad S10240 ![0] ![240] ![0] (st2 V (Proc.devRef .tc main_v28)) (sitofp .f32 (st2 V (Proc.devRef .tc main_c_9)))
          pads_S10000_S10240_02400 h_S_ := by
    dsimp only [st3]
    generalize st2 V = W
    dsimp only [hostOps0_3]
    after_results
    rfl
  have c9 : (st2 V (Proc.devRef .tc main_c_9) : IVec S_ 32) = constantI S_ 32 0#32 := by
    dsimp only [st2]
    generalize st1 V = W
    dsimp only [hostOps0_2]
    after_results
  rw [st8_of V _ (by decide), st7_of V _ (by decide), st6_of V _ (by decide), st5_of V _ (by decide), e4, e3, c9, st2_of V _ (by decide), st1_of V _ (by decide), st0_v28]
  rfl

theorem entry0_v38 :
    (entry0 V (Proc.devRef .tc main_v38) : FVec F S1x256 .f32) = hsVar256 (V (Proc.devRef .tc main_arg0)) := by
  have e8 : (entry0 V (Proc.devRef .tc main_v38) : FVec F S1x256 .f32)
      = shapeCast S1x256 (st7 V (Proc.devRef .tc main_v37)) shapeCasts_S256_S1x256 := by
    dsimp only [entry0]
    generalize st7 V = W
    dsimp only [hostOps0_8]
    after_results
    rfl
  have e7 : (st7 V (Proc.devRef .tc main_v37) : FVec F S256 .f32) = hsVarV256 (st5 V (Proc.devRef .tc main_arg0)) := by
    dsimp only [st7, st6]
    generalize st5 V = W
    dsimp only [hostOps0_7, hostOps0_6]
    after_results_simp
    rfl
  rw [e8, e7, st5_of V _ (by decide), st4_of V _ (by decide), st3_of V _ (by decide), st2_of V _ (by decide), st1_of V _ (by decide), st0_of V _ (by decide)]
  rfl

theorem entry0_arg4 : entry0 V (Proc.devRef .tc main_arg4) = V (Proc.devRef .tc main_arg4) := by
  rw [st8_of V _ (by decide), st7_of V _ (by decide), st6_of V _ (by decide), st5_of V _ (by decide), st4_of V _ (by decide), st3_of V _ (by decide), st2_of V _ (by decide), st1_of V _ (by decide), st0_of V _ (by decide)]

theorem entry0_arg5 : entry0 V (Proc.devRef .tc main_arg5) = V (Proc.devRef .tc main_arg5) := by
  rw [st8_of V _ (by decide), st7_of V _ (by decide), st6_of V _ (by decide), st5_of V _ (by decide), st4_of V _ (by decide), st3_of V _ (by decide), st2_of V _ (by decide), st1_of V _ (by decide), st0_of V _ (by decide)]

abbrev entry1 : Valuation τ sig (Elt F) := StableHlo.after hostOps1 V

theorem entry1_v43 :
    (entry1 V (Proc.devRef .tc main_v43) : FVec F S256x512 .bf16) = hsBf256x512 (V (Proc.devRef .tc main_arg4)) := by
  dsimp only [entry1, hostOps1]
  after_results
  rfl

theorem entry1_v44 :
    (entry1 V (Proc.devRef .tc main_v44) : FVec F S256x512 .bf16) = hsBf256x512 (V (Proc.devRef .tc main_arg5)) := by
  dsimp only [entry1, hostOps1]
  after_results
  rfl

abbrev mid2a : Valuation τ sig (Elt F) := StableHlo.after hostOps2 V
abbrev mid2b : Valuation τ sig (Elt F) := StableHlo.after hostOps2_1 (mid2a V)
abbrev entry2 : Valuation τ sig (Elt F) := StableHlo.after hostOps2_2 (mid2b V)

theorem mid2a_of (h : r ∉ hostOps2_W) :
    mid2a V (Proc.devRef .tc r) = V (Proc.devRef .tc r) :=
  StableHlo.after_of_writes_sub hostOps2 _ hostOps2_writes h
theorem mid2b_of (h : r ∉ hostOps2_1_W) :
    mid2b V (Proc.devRef .tc r) = mid2a V (Proc.devRef .tc r) :=
  StableHlo.after_of_writes_sub hostOps2_1 _ hostOps2_1_writes h
theorem mid2c_of (h : r ∉ hostOps2_2_W) :
    entry2 V (Proc.devRef .tc r) = mid2b V (Proc.devRef .tc r) :=
  StableHlo.after_of_writes_sub hostOps2_2 _ hostOps2_2_writes h

theorem entry2_v50 :
    (entry2 V (Proc.devRef .tc main_v50) : FVec F S1x512 .f32) = hsMean512 (hsRows (V (Proc.devRef .tc main_v45))) := by
  have e : (mid2a V (Proc.devRef .tc main_v50) : FVec F S1x512 .f32) = hsMean512 (hsRows (V (Proc.devRef .tc main_v45))) := by
    dsimp only [mid2a, hostOps2]
    after_results
    rfl
  rw [mid2c_of V _ (by decide), mid2b_of V _ (by decide), e]

theorem entry2_v52 :
    (entry2 V (Proc.devRef .tc main_v52) : FVec F S1x512 .f32) = hsVar512 (hsRows (V (Proc.devRef .tc main_v45))) := by
  have e2 : (entry2 V (Proc.devRef .tc main_v52) : FVec F S1x512 .f32)
      = shapeCast S1x512 (mid2b V (Proc.devRef .tc main_v51)) shapeCasts_S512_S1x512 := by
    dsimp only [entry2]
    generalize mid2b V = W
    dsimp only [hostOps2_2]
    after_results
    rfl
  have e1 : (mid2b V (Proc.devRef .tc main_v51) : FVec F S512 .f32) = hsVarV512 (hsRows (V (Proc.devRef .tc main_v45))) := by
    dsimp only [mid2b, mid2a, hostOps2_1, hostOps2]
    after_results_simp
    rfl
  rw [e2, e1]
  rfl

theorem entry2_v53 :
    (entry2 V (Proc.devRef .tc main_v53) : FVec F S1x512 .f32) = hsRow512 (V (Proc.devRef .tc main_arg7)) := by
  have e : (entry2 V (Proc.devRef .tc main_v53) : FVec F S1x512 .f32) = hsRow512 (mid2b V (Proc.devRef .tc main_arg7)) := by
    dsimp only [entry2]
    generalize mid2b V = W
    dsimp only [hostOps2_2]
    after_results
    rfl
  rw [e, mid2b_of V _ (by decide), mid2a_of V _ (by decide)]

theorem entry2_v54 :
    (entry2 V (Proc.devRef .tc main_v54) : FVec F S1x512 .f32) = hsRow512 (V (Proc.devRef .tc main_arg8)) := by
  have e : (entry2 V (Proc.devRef .tc main_v54) : FVec F S1x512 .f32) = hsRow512 (mid2b V (Proc.devRef .tc main_arg8)) := by
    dsimp only [entry2]
    generalize mid2b V = W
    dsimp only [hostOps2_2]
    after_results
    rfl
  rw [e, mid2b_of V _ (by decide), mid2a_of V _ (by decide)]

theorem entry2_v55 :
    (entry2 V (Proc.devRef .tc main_v55) : FVec F S1x512 .f32) = hsRow512 (V (Proc.devRef .tc main_arg11)) := by
  have e : (entry2 V (Proc.devRef .tc main_v55) : FVec F S1x512 .f32) = hsRow512 (mid2b V (Proc.devRef .tc main_arg11)) := by
    dsimp only [entry2]
    generalize mid2b V = W
    dsimp only [hostOps2_2]
    after_results
    rfl
  rw [e, mid2b_of V _ (by decide), mid2a_of V _ (by decide)]

theorem entry2_v56 :
    (entry2 V (Proc.devRef .tc main_v56) : FVec F S1x512 .f32) = hsRow512 (V (Proc.devRef .tc main_arg13)) := by
  have e : (entry2 V (Proc.devRef .tc main_v56) : FVec F S1x512 .f32) = hsRow512 (mid2b V (Proc.devRef .tc main_arg13)) := by
    dsimp only [entry2]
    generalize mid2b V = W
    dsimp only [hostOps2_2]
    after_results
    rfl
  rw [e, mid2b_of V _ (by decide), mid2a_of V _ (by decide)]

abbrev entry3 : Valuation τ sig (Elt F) := StableHlo.after hostOps3 V

theorem entry3_v58 :
    (entry3 V (Proc.devRef .tc main_v58) : FVec F S512x512 .bf16) = hsBf512x512 (V (Proc.devRef .tc main_arg9)) := by
  dsimp only [entry3, hostOps3]
  after_results
  rfl

theorem entry3_v59 :
    (entry3 V (Proc.devRef .tc main_v59) : FVec F S512x512 .bf16) = hsBf512x512 (V (Proc.devRef .tc main_arg10)) := by
  dsimp only [entry3, hostOps3]
  after_results
  rfl

theorem entry3_v60 :
    (entry3 V (Proc.devRef .tc main_v60) : FVec F S256x512 .bf16) = hsBf256x512 (V (Proc.devRef .tc main_arg12)) := by
  dsimp only [entry3, hostOps3]
  after_results
  rfl

abbrev exit4 : Valuation τ sig (Elt F) := StableHlo.after hostOps4 V

theorem exit4_v62 :
    (exit4 V (Proc.devRef .tc main_v62) : FVec F S10000x512 .f32) = hsRows (V (Proc.devRef .tc main_v61)) := by
  dsimp only [exit4, hostOps4]
  after_results
  rfl

end Cert.KernelIdeal.Hand

end
-- ==== Proof.KI.PayVals.lean ====
import proofs.«426621_j13099650253560_2_alg».proof.Proof.Gen.KernelIdeal.Skeleton
import proofs.«426621_j13099650253560_2_alg».proof.Proof.LibDot2
import Idealize.ShloMosaic.Lib.ValueLayout

noncomputable section

namespace Cert.KernelIdeal.Hand

open Cert.KernelIdeal Cert.KernelIdeal.Gen Cert.Dot2
open Idealize.ShloMosaic Idealize.ShloMosaic.ValueIdx

/-- On the row axis the operand's extent is the result's; its column axis has the one position 0. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem pay0_apply (g b mu var : FVec Ideal S1x256 .f32) (x : FVec Ideal S1024x256 .f32) (r : Fin 1024) (c : Fin 256) :
    k0_pay1 (F := Ideal) g b mu var x (ix2 r c)
      = max ((((x (ix2 r c) - mu (ix2 0 c)) * Ideal.rsqrt (var (ix2 0 c) + Ideal.ofBits .f32 0x3727C5AC#32)) * g (ix2 0 c)) + b (ix2 0 c)) 0 := by
  unfold k0_pay1
  simp only [shapeCast_self]
  rw [truncf_apply, maximumf_apply, addf_apply, mulf_apply, mulf_apply, subf_apply, broadcast_apply]
  rw [broadcastTo_1b_ab_apply, broadcastTo_1b_ab_apply, broadcastTo_1b_ab_apply, broadcastTo_1b_ab_apply]
  exact congrArg₂ max rfl Ideal.ofBits_zero_f32

theorem pay1_1_apply (r : Fin 1024) (c : Fin 256) : k1_pay1 (F := Ideal) (ix2 r c) = 0 :=
  Ideal.ofBits_zero_f32

theorem pay1_2_apply (hk : FVec Ideal S2048x256 .bf16) (a : FVec Ideal S1024x2048 .bf16) (acc : FVec Ideal S1024x256 .f32)
    (r : Fin 1024) (c : Fin 256) :
    k1_pay2 (F := Ideal) hk a acc (ix2 r c) = acc (ix2 r c) + ∑ l : Fin 2048, a (ix2 r l) * hk (ix2 l c) := by
  unfold k1_pay2
  simp only [shapeCast_self]
  rw [addf_apply, matmul_zero_apply]
  rfl

theorem pay1_3_apply (hs : FVec Ideal S1024x256 .bf16) (acc : FVec Ideal S1024x256 .f32) (inv : FVec Ideal S1024x1 .f32)
    (wl wr : FVec Ideal S256x512 .bf16) (b : FVec Ideal S1x512 .f32) (r : Fin 1024) (o : Fin 512) :
    k1_pay3 (F := Ideal) hs acc inv wl wr b (ix2 r o)
      = ((∑ f : Fin 256, (acc (ix2 r f) * inv (ix2 r 0)) * wl (ix2 f o)) + b (ix2 0 o))
        + ∑ f : Fin 256, hs (ix2 r f) * wr (ix2 f o) := by
  unfold k1_pay3
  simp only [shapeCast_self]
  rw [addf_apply, addf_apply, matmul_zero_apply, matmul_zero_apply, broadcastTo_1b_ab_apply]
  · refine congrArg (· + _) (congrArg (· + _) (Finset.sum_congr rfl fun f _ => ?_))
    rw [truncf_apply, mulf_apply, broadcastTo_a1_ab_apply]
  all_goals rfl

theorem pay2_apply (g b mu var : FVec Ideal S1x512 .f32) (x : FVec Ideal S1024x512 .f32) (r : Fin 1024) (c : Fin 512) :
    k2_pay1 (F := Ideal) g b mu var x (ix2 r c)
      = max ((((x (ix2 r c) - mu (ix2 0 c)) * Ideal.rsqrt (var (ix2 0 c) + Ideal.ofBits .f32 0x3727C5AC#32)) * g (ix2 0 c)) + b (ix2 0 c)) 0 := by
  unfold k2_pay1
  simp only [shapeCast_self]
  rw [truncf_apply, maximumf_apply, addf_apply, mulf_apply, mulf_apply, subf_apply, broadcast_apply]
  rw [broadcastTo_1b_ab_apply, broadcastTo_1b_ab_apply, broadcastTo_1b_ab_apply, broadcastTo_1b_ab_apply]
  exact congrArg₂ max rfl Ideal.ofBits_zero_f32

theorem pay3_1_apply (r : Fin 1024) (c : Fin 512) : k3_pay1 (F := Ideal) (ix2 r c) = 0 :=
  Ideal.ofBits_zero_f32

theorem pay3_2_apply (hk : FVec Ideal S2048x512 .bf16) (a : FVec Ideal S1024x2048 .bf16) (acc : FVec Ideal S1024x512 .f32)
    (r : Fin 1024) (c : Fin 512) :
    k3_pay2 (F := Ideal) hk a acc (ix2 r c) = acc (ix2 r c) + ∑ l : Fin 2048, a (ix2 r l) * hk (ix2 l c) := by
  unfold k3_pay2
  simp only [shapeCast_self]
  rw [addf_apply, matmul_zero_apply]
  rfl

theorem pay3_3_apply (hs : FVec Ideal S1024x512 .bf16) (acc : FVec Ideal S1024x512 .f32) (inv : FVec Ideal S1024x1 .f32)
    (wl wr : FVec Ideal S512x512 .bf16) (b : FVec Ideal S1x512 .f32) (x : FVec Ideal S1024x256 .f32)
    (wsc : FVec Ideal S256x512 .bf16) (bsc : FVec Ideal S1x512 .f32) (r : Fin 1024) (o : Fin 512) :
    k3_pay3 (F := Ideal) hs acc inv wl wr b x wsc bsc (ix2 r o)
      = (((∑ f : Fin 512, (acc (ix2 r f) * inv (ix2 r 0)) * wl (ix2 f o)) + b (ix2 0 o))
          + ∑ f : Fin 512, hs (ix2 r f) * wr (ix2 f o))
        + ((∑ f : Fin 256, x (ix2 r f) * wsc (ix2 f o)) + bsc (ix2 0 o)) := by
  unfold k3_pay3
  simp only [shapeCast_self]
  rw [addf_apply, addf_apply, addf_apply, addf_apply, matmul_zero_apply, matmul_zero_apply, matmul_zero_apply,
    broadcastTo_1b_ab_apply, broadcastTo_1b_ab_apply]
  · refine congrArg₂ (· + ·) (congrArg (· + _) (congrArg (· + _) (Finset.sum_congr rfl fun f _ => ?_))) rfl
    rw [truncf_apply, mulf_apply, broadcastTo_a1_ab_apply]
  all_goals rfl

end Cert.KernelIdeal.Hand
-- ==== Proof.KI.Arr0.lean ====
import proofs.«426621_j13099650253560_2_alg».proof.Proof.KI.R0
import proofs.«426621_j13099650253560_2_alg».proof.Proof.KI.PayVals
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

theorem zero_offsets0 : (![0, 0] : Fin 2 → Nat) = fun _ => 0 := funext fun a => by fin_cases a <;> rfl

def normRelu0 (x : FVec Ideal S10240x256 .f32) (g b mu var : FVec Ideal S1x256 .f32) : FVec Ideal S10240x256 .bf16 :=
  fun i => max ((((x i - mu (ix2 0 (i 1 : Fin 256)))
      * Ideal.rsqrt (var (ix2 0 (i 1 : Fin 256)) + Ideal.ofBits .f32 0x3727C5AC#32)) * g (ix2 0 (i 1 : Fin 256)))
      + b (ix2 0 (i 1 : Fin 256))) 0

theorem index_facts0 : ∀ t : Fin cfg0.N, (∀ a : Fin 2, win0_1.index t a = 0 ∧ win0_2.index t a = 0 ∧ win0_3.index t a = 0
    ∧ win0_4.index t a = 0 ∧ win0_0.index t a = win0_5.index t a) ∧ win0_5.index t 0 = t.val ∧ win0_5.index t 1 = 0 :=
  (by decide +kernel : ∀ t : Fin grid0.N, _)

variable (V : (c : Dev nD) → (b : Ref sig .tc) → Buf (Elt Ideal) ((c : Thread nD τ).loc b))

-- What a point writes back is its block of the normalised, rectified array: each row vector is read whole, the row block where the output's is.
theorem flushed0_eq (c : Dev nD) (t : Fin cfg0.N) :
    (dat0 (F := Ideal) V c).flushed 5 t
      = ((cfg0.win 5).blk t).view.read (Elt Ideal)
          (normRelu0 (V c main_v32) (V c main_v39) (V c main_v40) (V c main_v36) (V c main_v38)) := by
  show (cfg0.win 5).cut (grid0.coords t) ((dat0 (F := Ideal) V c).after 5 t) = _
  rw [after0_5]
  unfold out0_5
  rw [View.canon_unit_zero zero_offsets0]
  simp only [View.ld_unit_zero (S := S1x256) zero_offsets0, View.ld_unit_zero (S := S1024x256) zero_offsets0]
  obtain ⟨h, -, f1⟩ := index_facts0 t
  rw [show iblk0 V c 1 t = V c main_v39 from funext fun y => congrArg (V c main_v39) (funext fun a => Fin.ext (win0_1.rect_emb_val_of_index_zero t a (h a).1 y)),
    show iblk0 V c 2 t = V c main_v40 from funext fun y => congrArg (V c main_v40) (funext fun a => Fin.ext (win0_2.rect_emb_val_of_index_zero t a (h a).2.1 y)),
    show iblk0 V c 3 t = V c main_v36 from funext fun y => congrArg (V c main_v36) (funext fun a => Fin.ext (win0_3.rect_emb_val_of_index_zero t a (h a).2.2.1 y)),
    show iblk0 V c 4 t = V c main_v38 from funext fun y => congrArg (V c main_v38) (funext fun a => Fin.ext (win0_4.rect_emb_val_of_index_zero t a (h a).2.2.2.1 y))]
  funext j
  obtain ⟨p, q, rfl⟩ : ∃ (p : Fin 1024) (q : Fin 256), j = ix2 p q := ⟨j 0, j 1, eq_ix2 j⟩
  show k0_pay1 _ _ _ _ _ (ix2 p q) = normRelu0 _ _ _ _ _ (((cfg0.win 5).blk t).view.emb (ix2 p q))
  rw [pay0_apply]; unfold normRelu0
  rw [show (((cfg0.win 5).blk t).view.emb (ix2 p q) 1 : Fin 256) = q from Fin.ext (win0_5.rect_emb_val_of_index_zero t 1 f1 (ix2 p q)),
    show iblk0 V c 0 t (ix2 p q) = V c main_v32 (((cfg0.win 5).blk t).view.emb (ix2 p q)) from congrArg (V c main_v32) (funext fun a => Fin.ext
      ((win0_0.rect_emb_val t (ix2 p q) a).trans ((h a).2.2.2.2 ▸ (win0_5.rect_emb_val t (ix2 p q) a).symm)))]

-- The ten row blocks cover the array.
theorem cover0 (i : S10240x256.Idx) :
    ∃ t : Fin cfg0.N, (cfg0.win 5).flush t = true ∧ i ∈ ((cfg0.win 5).blk t).view.set := by
  have h0 : (i 0).val < 10240 := idx2_lt0 i
  have h1 : (i 1).val < 256 := idx2_lt1 i
  have ht : (i 0).val / 1024 < cfg0.N := by have : cfg0.N = 10 := N_0; omega
  obtain ⟨-, f0, f1⟩ := index_facts0 ⟨(i 0).val / 1024, ht⟩
  refine ⟨⟨(i 0).val / 1024, ht⟩, flush0_5 _, ?_⟩
  show i ∈ ((View.whole main_v42).slice (win0_5.rect ⟨(i 0).val / 1024, ht⟩)).set
  rw [View.set_slice_whole, Rect.mem_set_unit]
  intro a
  match a with
  | ⟨0, _⟩ => show win0_5.index _ 0 * 1024 ≤ (i 0).val ∧ (i 0).val < win0_5.index _ 0 * 1024 + 1024; rw [f0]; dsimp only; omega
  | ⟨1, _⟩ => show win0_5.index _ 1 * 256 ≤ (i 1).val ∧ (i 1).val < win0_5.index _ 1 * 256 + 256; rw [f1]; omega

theorem arr0_val (c : Dev nD) (R : Fin 10240) (col : Fin 256)
    (X : FVec Ideal S10240x256 .f32) (g b mu var : FVec Ideal S1x256 .f32)
    (hX : X = V c main_v32) (hg : g = V c main_v39) (hb : b = V c main_v40) (hmu : mu = V c main_v36) (hvar : var = V c main_v38) :
    ((dat0 (F := Ideal) V c).arrAt 5 cfg0.N : FVec Ideal S10240x256 .bf16) (ix2 R col)
      = max ((((X (ix2 R col) - mu (ix2 0 col)) * Ideal.rsqrt (var (ix2 0 col) + Ideal.ofBits .f32 0x3727C5AC#32)) * g (ix2 0 col))
          + b (ix2 0 col)) 0 := by
  subst hX hg hb hmu hvar
  exact congrFun ((dat0 (F := Ideal) V c).arrAt_eq_of_cover 5 (normRelu0 _ _ _ _ _) (fun t _ => flushed0_eq V c t) cover0) (ix2 R col)

end Cert.KernelIdeal.Hand

end
-- ==== Proof.KI.Arr1.lean ====
import proofs.«426621_j13099650253560_2_alg».proof.Proof.KI.R1a
import proofs.«426621_j13099650253560_2_alg».proof.Proof.KI.PayVals
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)
  (Hp : FVec Ideal S10240x256 .bf16) (Ap : FVec Ideal S10240x10240 .bf16) (Inv : FVec Ideal S10240x1 .f32) (wl wr : FVec Ideal S256x512 .bf16)
  (b : FVec Ideal S1x512 .f32) (hHp : V c main_v42 = Hp) (hAp : V c main_v29 = Ap) (hInv : V c main_v31 = Inv) (hwl : V c main_v43 = wl)
  (hwr : V c main_v44 = wr) (hb : V c main_v41 = b)

namespace Arr1

theorem index_facts : ∀ t : Fin cfg1.N,
    win1_0.index t (0 : Fin 2) = 0 ∧ win1_0.index t (1 : Fin 2) = 0
    ∧ win1_1.index t (0 : Fin 2) = t.val / 5 ∧ win1_1.index t (1 : Fin 2) = t.val % 5
    ∧ win1_2.index t (0 : Fin 2) = t.val / 5 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val / 5 ∧ win1_6.index t (1 : Fin 2) = 0
    ∧ ((grid1.coords t) 0).val = t.val / 5 ∧ ((grid1.coords t) 1).val = t.val % 5 :=
  (by decide +kernel : ∀ t : Fin grid1.N, _)

/-- A function of a two-axis index is determined by the two coordinates' values. -/
theorem at2 {n0 n1 : ℕ} {α : Type} (X : (⟨2, ![n0, n1]⟩ : Shape).Idx → α) {p q : (⟨2, ![n0, n1]⟩ : Shape).Idx}
    (h0 : (p 0).val = (q 0).val) (h1 : (p 1).val = (q 1).val) : X p = X q :=
  congrArg X (funext fun a => Fin.ext (match a with | ⟨0, _⟩ => h0 | ⟨1, _⟩ => h1))

theorem blk0_apply (X : FVec Ideal S10240x256 .bf16) (hX : V c main_v42 = X) (t : Fin cfg1.N) (j : S10240x256.Idx) :
    (iblk1 V c 0 t : FVec Ideal S10240x256 .bf16) j = X j := by
  subst hX
  obtain ⟨e0, e1, -⟩ := index_facts t
  exact at2 (V c main_v42) (by show win1_0.index t 0 * 10240 + 1 * (j 0).val = (j 0).val; rw [e0]; omega) (by show win1_0.index t 1 * 256 + 1 * (j 1).val = (j 1).val; rw [e1]; omega)

theorem ldK_apply (X : Vec Ideal S10240x256 .bf16) (i : grid1.Coords) (l : Fin 2048) (col : Fin 256) (j : S10240x256.Idx)
    (h0 : (j 0).val = 2048 * (i 1).val + l.val) (h1 : (j 1).val = col.val) :
    (View.ld X (rK i) : Vec Ideal S2048x256 .bf16) (ix2 l col) = X j := by
  have e := k1_off1_eq i
  exact at2 X (by show (k1_off1 i) 0 + 1 * l.val = (j 0).val; rw [e, h0]; show 2048 * (i 1).val + 1 * l.val = _; omega) (by show (k1_off1 i) 1 + 1 * col.val = (j 1).val; rw [e, h1]; show 0 + 1 * col.val = _; omega)

theorem ldI_apply (X : Vec Ideal S10240x256 .bf16) (i : grid1.Coords) (h : cond1_1 i) (r : Fin 1024) (f : Fin 256) (j : S10240x256.Idx)
    (h0 : (j 0).val = 1024 * (i 0).val + r.val) (h1 : (j 1).val = f.val) :
    (View.ld X (rI i h) : Vec Ideal S1024x256 .bf16) (ix2 r f) = X j := by
  have e := k1_off2_eq i
  exact at2 X (by show (k1_off2 i) 0 + 1 * r.val = (j 0).val; rw [e, h0]; show 1024 * (i 0).val + 1 * r.val = _; omega) (by show (k1_off2 i) 1 + 1 * f.val = (j 1).val; rw [e, h1]; show 0 + 1 * f.val = _; omega)

theorem accAt_congr {n n' : ℕ} (e : n = n') (h : n < cfg1.N) (h' : n' < cfg1.N) :
    accAt V c n h = accAt V c n' h' := by subst e; rfl

include hHp hAp in
theorem accStep_apply (t : Fin cfg1.N) (i : Fin 10) (k : ℕ) (hk : k < 5) (ht : t.val = i.val * 5 + k)
    (a : FVec Ideal S1024x256 .f32) (r : Fin 1024) (col : Fin 256) :
    accStep (iblk1 V c 0 t) (iblk1 V c 1 t) (grid1.coords t) a (ix2 r col)
      = a (ix2 r col) + ∑ l : Fin 2048,
          Ap (ix2 ⟨i.val * 1024 + r.val, by omega⟩ ⟨k * 2048 + l.val, by omega⟩) * Hp (ix2 ⟨k * 2048 + l.val, by omega⟩ col) := by
  obtain ⟨-, -, e10, e11, -, -, -, -, -, -, -, -, -, -, -, g1⟩ := index_facts t
  subst hAp
  unfold accStep
  refine (pay1_2_apply _ _ _ r col).trans ?_
  refine congrArg (_ + ·) (Finset.sum_congr rfl fun l _ => ?_)
  refine congrArg₂ (· * ·) ?_ ?_
  · exact at2 (V c main_v29) (by show win1_1.index t 0 * 1024 + 1 * r.val = i.val * 1024 + r.val; omega)
      (by show win1_1.index t 1 * 2048 + 1 * l.val = k * 2048 + l.val; omega)
  · refine (ldK_apply _ (grid1.coords t) l col (ix2 ⟨k * 2048 + l.val, by omega⟩ col)
      (by show k * 2048 + l.val = 2048 * ((grid1.coords t) 1).val + l.val; rw [g1]; omega) rfl).trans ?_
    exact blk0_apply V c Hp hHp t _

end Arr1

open Arr1

def accK (i : Fin 10) : ℕ → FVec Ideal S1024x256 .f32
  | 0 => fun _ => 0
  | k + 1 => if h : i.val * 5 + k < cfg1.N then accAt V c (i.val * 5 + k) h else fun _ => 0

theorem accK_pos (i : Fin 10) (k : ℕ) (hk : k < 5) :
    accK V c i (k + 1) = accAt V c (i.val * 5 + k) (by have : cfg1.N = 50 := N_1; omega) := dif_pos _

theorem accK_zero (i : Fin 10) (r : Fin 1024) (col : Fin 256) : accK V c i 0 (ix2 r col) = 0 := rfl

include hHp hAp in
theorem accK_succ (i : Fin 10) (k : ℕ) (hk : k < 5) (r : Fin 1024) (col : Fin 256) :
    accK V c i (k + 1) (ix2 r col) = accK V c i k (ix2 r col) + ∑ l : Fin 2048,
      Ap (ix2 ⟨i.val * 1024 + r.val, by omega⟩ ⟨k * 2048 + l.val, by omega⟩) * Hp (ix2 ⟨k * 2048 + l.val, by omega⟩ col) := by
  have hN : cfg1.N = 50 := N_1
  have hlt : i.val * 5 + k < cfg1.N := by omega
  rw [accK_pos V c i k hk]
  cases k with
  | zero =>
    have h0 : (⟨i.val * 5 + 0, hlt⟩ : Fin cfg1.N).val % 5 = 0 := by show (i.val * 5 + 0) % 5 = 0; omega
    refine (congrFun (acc_zero V c ⟨i.val * 5 + 0, hlt⟩ h0) (ix2 r col)).trans ?_
    refine (accStep_apply V c Hp Ap hHp hAp ⟨_, hlt⟩ i 0 hk rfl _ r col).trans ?_
    rw [pay1_1_apply]
    rfl
  | succ k' =>
    have hne : ¬(⟨i.val * 5 + (k' + 1), hlt⟩ : Fin cfg1.N).val % 5 = 0 := by show ¬(i.val * 5 + (k' + 1)) % 5 = 0; omega
    refine (congrFun (acc_succ V c ⟨i.val * 5 + (k' + 1), hlt⟩ hne) (ix2 r col)).trans ?_
    refine (accStep_apply V c Hp Ap hHp hAp ⟨_, hlt⟩ i (k' + 1) hk rfl _ r col).trans ?_
    rw [accK_pos V c i k' (by omega)]
    exact congrArg (· + _) (congrFun (accAt_congr V c (by show i.val * 5 + (k' + 1) - 1 = i.val * 5 + k'; omega) _ _) _)

namespace Arr1

def rowVal (i : Fin 10) (r : Fin 1024) (R : Fin 10240) (o : Fin 512) : Ideal .f32 :=
  ((∑ f : Fin 256, (accK V c i 5 (ix2 r f) * Inv (ix2 R 0)) * wl (ix2 f o)) + b (ix2 0 o))
    + ∑ f : Fin 256, Hp (ix2 R f) * wr (ix2 f o)

theorem rowVal_congr {i i' : Fin 10} {r r' : Fin 1024} {R R' : Fin 10240} {o o' : Fin 512}
    (hi : i.val = i'.val) (hr : r.val = r'.val) (hR : R.val = R'.val) (ho : o.val = o'.val) :
    rowVal V c Hp Inv wl wr b i r R o = rowVal V c Hp Inv wl wr b i' r' R' o' := by
  rw [Fin.ext hi, Fin.ext hr, Fin.ext hR, Fin.ext ho]

include hHp hInv hwl hwr hb in
theorem outVal_apply (t : Fin cfg1.N) (h : cond1_1 (grid1.coords t)) (i : Fin 10) (ht : t.val = i.val * 5 + 4)
    (r : Fin 1024) (o : Fin 512) :
    outVal V c t h (ix2 r o) = rowVal V c Hp Inv wl wr b i r ⟨i.val * 1024 + r.val, by omega⟩ o := by
  obtain ⟨-, -, -, -, e20, e21, e30, e31, e40, e41, e50, e51, -, -, g0, g1⟩ := index_facts t
  subst hInv hwl hwr hb
  unfold outVal rowVal
  refine (pay1_3_apply _ _ _ _ _ _ r o).trans ?_
  refine congrArg₂ (· + ·) (congrArg₂ (· + ·) (Finset.sum_congr rfl fun f _ => ?_) ?_) (Finset.sum_congr rfl fun f _ => ?_)
  · refine congrArg₂ (· * ·) (congrArg₂ (· * ·) ?_ ?_) ?_
    · rw [accK_pos V c i 4 (by omega)]
      exact congrFun (accAt_congr V c ht _ _) _
    · exact at2 (V c main_v31) (by show win1_2.index t 0 * 1024 + 1 * r.val = i.val * 1024 + r.val; omega) (by show win1_2.index t 1 * 1 + 1 * 0 = 0; omega)
    · exact at2 (V c main_v43) (by show win1_3.index t 0 * 256 + 1 * f.val = f.val; omega) (by show win1_3.index t 1 * 512 + 1 * o.val = o.val; omega)
  · exact at2 (V c main_v41) (by show win1_5.index t 0 * 1 + 1 * 0 = 0; omega) (by show win1_5.index t 1 * 512 + 1 * o.val = o.val; omega)
  · refine congrArg₂ (· * ·) ?_ ?_
    · refine (ldI_apply _ (grid1.coords t) h r f (ix2 ⟨i.val * 1024 + r.val, by omega⟩ f)
        (by show i.val * 1024 + r.val = 1024 * ((grid1.coords t) 0).val + r.val; rw [g0]; omega) rfl).trans ?_
      exact blk0_apply V c Hp hHp t _
    · exact at2 (V c main_v44) (by show win1_4.index t 0 * 256 + 1 * f.val = f.val; omega) (by show win1_4.index t 1 * 512 + 1 * o.val = o.val; omega)

def G : FVec Ideal S10240x512 .f32 := fun j =>
  rowVal V c Hp Inv wl wr b ⟨(j 0).val / 1024, by have := idx2_lt0 j; omega⟩ ⟨(j 0).val % 1024, by omega⟩
    (j 0 : Fin 10240) (j 1 : Fin 512)

include hHp hInv hwl hwr hb in
theorem flushed_eq (t : Fin cfg1.N) (hf : (cfg1.win 6).flush t = true) :
    (dat1 V c).flushed 6 t = ((cfg1.win 6).blk t).view.read (Elt Ideal) (G V c Hp Inv wl wr b) := by
  have hN : cfg1.N = 50 := N_1
  have hk : t.val % 5 = 4 := (flush1_6 t).mp hf
  obtain ⟨-, -, -, -, -, -, -, -, -, -, -, -, e0, e1, -⟩ := index_facts t
  show (cfg1.win 6).cut (grid1.coords t) ((dat1 V c).after 6 t) = _
  rw [after1_6 V c t hk]
  funext y
  have hy0 : (y 0).val < 1024 := (y 0).isLt
  have hy1 : (y 1).val < 512 := (y 1).isLt
  have hlt : t.val < 50 := hN ▸ t.isLt
  have ht : t.val = (⟨t.val / 5, by omega⟩ : Fin 10).val * 5 + 4 := by show t.val = t.val / 5 * 5 + 4; omega
  have hxy : ((cfg1.win 6).xinj (grid1.coords t) y : S1024x512.Idx) = ix2 ⟨(y 0).val, hy0⟩ ⟨(y 1).val, hy1⟩ :=
    funext fun a => by match a with | ⟨0, _⟩ => rfl | ⟨1, _⟩ => rfl
  refine (congrArg (outVal V c t _) hxy).trans ?_
  refine (outVal_apply V c Hp Inv wl wr b hHp hInv hwl hwr hb t _ ⟨t.val / 5, by omega⟩ ht ⟨(y 0).val, hy0⟩ ⟨(y 1).val, hy1⟩).trans ?_
  show _ = G V c Hp Inv wl wr b (((cfg1.win 6).blk t).view.emb y)
  unfold G
  refine rowVal_congr V c Hp Inv wl wr b ?_ ?_ ?_ ?_
  · show t.val / 5 = (win1_6.index t 0 * 1024 + 1 * (y 0).val) / 1024; rw [e0]; omega
  · show (y 0).val = (win1_6.index t 0 * 1024 + 1 * (y 0).val) % 1024; rw [e0]; omega
  · show t.val / 5 * 1024 + (y 0).val = win1_6.index t 0 * 1024 + 1 * (y 0).val; rw [e0]; omega
  · show (y 1).val = win1_6.index t 1 * 512 + 1 * (y 1).val; rw [e1]; omega

theorem mem_blk (t : Fin cfg1.N) (i : S10240x512.Idx) :
    i ∈ ((cfg1.win 6).blk t).view.set ↔ ∀ a : Fin 2, win1_6.index t a * S1024x512.size a ≤ (i a).val
      ∧ (i a).val < win1_6.index t a * S1024x512.size a + S1024x512.size a := by
  show i ∈ ((View.whole main_v45).slice (win1_6.rect t)).set ↔ _
  rw [View.set_slice_whole, Rect.mem_set_unit]
  exact Iff.rfl

end Arr1

include hHp hAp hInv hwl hwr hb in
theorem arr1_rows (O : FVec Ideal S10240x512 .f32) (hO : (dat1 (F := Ideal) V c).arrAt 6 cfg1.N = O)
    (i : Fin 10) (r : Fin 1024) (o : Fin 512) :
    O (ix2 ⟨i.val * 1024 + r.val, by omega⟩ o)
      = ((∑ f : Fin 256, (accK V c i 5 (ix2 r f) * Inv (ix2 ⟨i.val * 1024 + r.val, by omega⟩ 0)) * wl (ix2 f o)) + b (ix2 0 o))
        + ∑ f : Fin 256, Hp (ix2 ⟨i.val * 1024 + r.val, by omega⟩ f) * wr (ix2 f o) := by
  subst hO
  have hN : cfg1.N = 50 := N_1
  have hlt : i.val * 5 + 4 < cfg1.N := by omega
  have hf : (cfg1.win 6).flush ⟨i.val * 5 + 4, hlt⟩ = true := (flush1_6 _).mpr (by show (i.val * 5 + 4) % 5 = 4; omega)
  obtain ⟨-, -, -, -, -, -, -, -, -, -, -, -, e0, e1, -⟩ := index_facts ⟨i.val * 5 + 4, hlt⟩
  have e0' : win1_6.index ⟨i.val * 5 + 4, hlt⟩ 0 = i.val := by rw [e0]; show (i.val * 5 + 4) / 5 = i.val; omega
  have hmem : (ix2 ⟨i.val * 1024 + r.val, by omega⟩ o : S10240x512.Idx) ∈ ((cfg1.win 6).blk ⟨i.val * 5 + 4, hlt⟩).view.set := by
    rw [mem_blk]
    intro a
    match a with
    | ⟨0, _⟩ =>
      show win1_6.index ⟨i.val * 5 + 4, hlt⟩ 0 * 1024 ≤ i.val * 1024 + r.val
        ∧ i.val * 1024 + r.val < win1_6.index ⟨i.val * 5 + 4, hlt⟩ 0 * 1024 + 1024
      rw [e0']; omega
    | ⟨1, _⟩ =>
      show win1_6.index ⟨i.val * 5 + 4, hlt⟩ 1 * 512 ≤ o.val ∧ o.val < win1_6.index ⟨i.val * 5 + 4, hlt⟩ 1 * 512 + 512
      rw [e1]; omega
  refine ((dat1 V c).arrAt_apply_of_mem 6 (G V c Hp Inv wl wr b)
    (fun t hf => flushed_eq V c Hp Inv wl wr b hHp hInv hwl hwr hb t hf) cfg1.N ⟨i.val * 5 + 4, hlt⟩ _ hlt hf hmem).trans ?_
  unfold G
  refine (rowVal_congr V c Hp Inv wl wr b (i' := i) (r' := r) (R' := ⟨i.val * 1024 + r.val, by omega⟩) (o' := o) ?_ ?_ rfl rfl).trans rfl
  · show (i.val * 1024 + r.val) / 1024 = i.val; omega
  · show (i.val * 1024 + r.val) % 1024 = r.val; omega

end Cert.KernelIdeal.Hand

end
-- ==== Proof.Final.SameChain.lean ====
import proofs.«426621_j13099650253560_2_alg».proof.Proof.Ref.Stages
import proofs.«426621_j13099650253560_2_alg».proof.Proof.KI.HostStages
import Idealize.ShloMosaic.Lib.ValueLayout

noncomputable section

namespace Cert.Final

open Idealize.ShloMosaic Idealize.ShloMosaic.ValueIdx
open Cert.KernelIdeal Cert.KernelIdeal.Hand Cert.ReferenceIdeal.Hand

variable {F : FTy → Type} [FloatOps F]

theorem mean256_same (x : FVec F S10000x256 .f32) : hsMeanV256 x = stMean256 x := rfl

theorem var256_same (x : FVec F S10000x256 .f32) : hsVarV256 x = stVar256 x := rfl

theorem mean512_same (x : FVec F S10000x512 .f32) : hsMeanV512 x = stMean512 x := rfl

theorem var512_same (x : FVec F S10000x512 .f32) : hsVarV512 x = stVar512 x := rfl

theorem mean256_row_apply (x : FVec F S10000x256 .f32) (c : Fin 256) :
    hsMean256 x (ix2 (0 : Fin 1) c) = hsMeanV256 x (ix1 c) :=
  shapeCast_a_1a_apply (hsMeanV256 x) _ (0 : Fin 1) c

theorem var256_row_apply (x : FVec F S10000x256 .f32) (c : Fin 256) :
    hsVar256 x (ix2 (0 : Fin 1) c) = hsVarV256 x (ix1 c) :=
  shapeCast_a_1a_apply (hsVarV256 x) _ (0 : Fin 1) c

theorem mean512_row_apply (x : FVec F S10000x512 .f32) (c : Fin 512) :
    hsMean512 x (ix2 (0 : Fin 1) c) = hsMeanV512 x (ix1 c) :=
  shapeCast_a_1a_apply (hsMeanV512 x) _ (0 : Fin 1) c

theorem var512_row_apply (x : FVec F S10000x512 .f32) (c : Fin 512) :
    hsVar512 x (ix2 (0 : Fin 1) c) = hsVarV512 x (ix1 c) :=
  shapeCast_a_1a_apply (hsVarV512 x) _ (0 : Fin 1) c

end Cert.Final

end
-- ==== Proof.Final.KLayer0.lean ====
import proofs.«426621_j13099650253560_2_alg».proof.Proof.KI.RunFold
import proofs.«426621_j13099650253560_2_alg».proof.Proof.KI.HostRun
import proofs.«426621_j13099650253560_2_alg».proof.Proof.KI.HostVals
import proofs.«426621_j13099650253560_2_alg».proof.Proof.KI.Arr0
import proofs.«426621_j13099650253560_2_alg».proof.Proof.KI.Arr1
import proofs.«426621_j13099650253560_2_alg».proof.Proof.Final.SameChain
import proofs.«426621_j13099650253560_2_alg».proof.Proof.Spec.Net

set_option maxRecDepth 16384

noncomputable section

namespace Cert.Final

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (c : Dev nD)

abbrev ka0 : FVec Ideal S10000x256 .f32 := m ((c.tc : Thread nD τ).loc main_arg0)

abbrev ka1 : IVec S2x320000 32 := m ((c.tc : Thread nD τ).loc main_arg1)

abbrev ka2 : FVec Ideal S256 .f32 := m ((c.tc : Thread nD τ).loc main_arg2)

abbrev ka3 : FVec Ideal S256 .f32 := m ((c.tc : Thread nD τ).loc main_arg3)

abbrev ka4 : FVec Ideal S256x512 .f32 := m ((c.tc : Thread nD τ).loc main_arg4)

abbrev ka5 : FVec Ideal S256x512 .f32 := m ((c.tc : Thread nD τ).loc main_arg5)

abbrev ka6 : FVec Ideal S512 .f32 := m ((c.tc : Thread nD τ).loc main_arg6)

abbrev rowOf (i : Fin 10) (r : Fin 1024) : Fin 10240 := ⟨i.val * 1024 + r.val, by omega⟩

abbrev colOf (k : ℕ) (hk : k < 5) (l : Fin 2048) : Fin 10240 := ⟨k * 2048 + l.val, by omega⟩

def H0p : FVec Ideal S10240x256 .bf16 := W10 m c (Proc.devRef .tc main_v42)

theorem H0p_val (R : Fin 10240) (f : Fin 256) :
    H0p m c (ix2 R f)
      = Cert.Spec.bnr (Ideal.ofBits .f32 0x3727C5AC#32) (hsXPad (F := Ideal) (ka0 m c) (ix2 R f))
          (Cert.ReferenceIdeal.Hand.stMean256 (F := Ideal) (ka0 m c) (ix1 f))
          (Cert.ReferenceIdeal.Hand.stVar256 (F := Ideal) (ka0 m c) (ix1 f))
          (ka2 m c (ix1 f)) (ka3 m c (ix1 f)) := by
  have e36 : hsMean256 (F := Ideal) (ka0 m c) (ix2 (0 : Fin 1) f)
      = Cert.ReferenceIdeal.Hand.stMean256 (F := Ideal) (ka0 m c) (ix1 f) :=
    (mean256_row_apply (F := Ideal) (ka0 m c) f).trans (congrFun (mean256_same (F := Ideal) (ka0 m c)) (ix1 f))
  have e38 : hsVar256 (F := Ideal) (ka0 m c) (ix2 (0 : Fin 1) f)
      = Cert.ReferenceIdeal.Hand.stVar256 (F := Ideal) (ka0 m c) (ix1 f) :=
    (var256_row_apply (F := Ideal) (ka0 m c) f).trans (congrFun (var256_same (F := Ideal) (ka0 m c)) (ix1 f))
  have e39 : hsRow256 (F := Ideal) (ka2 m c) (ix2 (0 : Fin 1) f) = ka2 m c (ix1 f) := row256_apply (F := Ideal) (ka2 m c) f
  have e40 : hsRow256 (F := Ideal) (ka3 m c) (ix2 (0 : Fin 1) f) = ka3 m c (ix1 f) := row256_apply (F := Ideal) (ka3 m c) f
  refine (congrFun (W10_out m c) (ix2 R f)).trans
    ((arr0_val (Vin0 m) c R f (hsXPad (F := Ideal) (ka0 m c)) (hsRow256 (F := Ideal) (ka2 m c)) (hsRow256 (F := Ideal) (ka3 m c))
      (hsMean256 (F := Ideal) (ka0 m c)) (hsVar256 (F := Ideal) (ka0 m c))
      (entry0_v32 (W0 m c)).symm (entry0_v39 (W0 m c)).symm (entry0_v40 (W0 m c)).symm (entry0_v36 (W0 m c)).symm (entry0_v38 (W0 m c)).symm).trans ?_)
  rw [e36, e38, e39, e40]
  rfl

theorem vin1_v29 : (Vin1 m c main_v29 : FVec Ideal S10240x10240 .bf16) = hsAdjPad (F := Ideal) (ka1 m c) :=
  (W11_of m c main_v29 (by decide)).trans ((W10_of_ne m c main_v29 (by decide)).trans (entry0_v29 (W0 m c)))

theorem vin1_v42 : (Vin1 m c main_v42 : FVec Ideal S10240x256 .bf16) = H0p m c :=
  W11_of m c main_v42 (by decide)

def O0p : FVec Ideal S10240x512 .f32 := W12 m c (Proc.devRef .tc main_v45)

def acc0 (i : Fin 10) (k : ℕ) : FVec Ideal S1024x256 .f32 := accK (Vin1 m) c i k

theorem acc0_zero (i : Fin 10) (r : Fin 1024) (col : Fin 256) : acc0 m c i 0 (ix2 r col) = 0 :=
  accK_zero (Vin1 m) c i r col

theorem acc0_succ (i : Fin 10) (k : ℕ) (hk : k < 5) (r : Fin 1024) (col : Fin 256) :
    acc0 m c i (k + 1) (ix2 r col)
      = acc0 m c i k (ix2 r col)
        + ∑ l : Fin 2048, hsAdjPad (F := Ideal) (ka1 m c) (ix2 (rowOf i r) (colOf k hk l))
            * H0p m c (ix2 (colOf k hk l) col) :=
  accK_succ (Vin1 m) c (H0p m c) (hsAdjPad (F := Ideal) (ka1 m c)) (vin1_v42 m c) (vin1_v29 m c) i k hk r col

theorem O0p_rows (i : Fin 10) (r : Fin 1024) (o : Fin 512) :
    O0p m c (ix2 (rowOf i r) o)
      = ((∑ f : Fin 256, (acc0 m c i 5 (ix2 r f) * hsInv (F := Ideal) (ka1 m c) (ix2 (rowOf i r) (0 : Fin 1)))
            * ka4 m c (ix2 f o)) + ka6 m c (ix1 o))
        + ∑ f : Fin 256, H0p m c (ix2 (rowOf i r) f) * ka5 m c (ix2 f o) := by
  refine (arr1_rows (Vin1 m) c (H0p m c) (hsAdjPad (F := Ideal) (ka1 m c)) (hsInv (F := Ideal) (ka1 m c))
    (hsBf256x512 (F := Ideal) (ka4 m c)) (hsBf256x512 (F := Ideal) (ka5 m c)) (hsRow512 (F := Ideal) (ka6 m c))
    (vin1_v42 m c) (vin1_v29 m c) ((W11_of m c main_v31 (by decide)).trans ((W10_of_ne m c main_v31 (by decide)).trans (entry0_v31 (W0 m c))))
      ((entry1_v43 (W10 m c)).trans (congrArg (hsBf256x512 (F := Ideal)) ((W10_of_ne m c main_arg4 (by decide)).trans (entry0_arg4 (W0 m c)))))
      ((entry1_v44 (W10 m c)).trans (congrArg (hsBf256x512 (F := Ideal)) ((W10_of_ne m c main_arg5 (by decide)).trans (entry0_arg5 (W0 m c)))))
      ((W11_of m c main_v41 (by decide)).trans ((W10_of_ne m c main_v41 (by decide)).trans (entry0_v41 (W0 m c))))
    (O0p m c) (W12_out m c).symm i r o).trans ?_
  rw [row512_apply (F := Ideal) (ka6 m c) o]
  simp only [bf256x512_apply]
  rfl

end Cert.Final

end
-- ==== Proof.KI.ROut.lean ====
import proofs.«426621_j13099650253560_2_alg».proof.Proof.Gen.KernelIdeal.Launch
import proofs.«426621_j13099650253560_2_alg».proof.Proof.Gen.KernelIdeal.Skeleton
import proofs.«426621_j13099650253560_2_alg».proof.Proof.Gen.KernelIdeal.Points
import proofs.«426621_j13099650253560_2_alg».proof.Proof.KI.R0
import proofs.«426621_j13099650253560_2_alg».proof.Proof.KI.R2
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

variable (V : (c : Dev nD) → (b : Ref sig .tc) → Buf (Elt F) ((c : Thread nD τ).loc b))

theorem after2_5_pay (c : Dev nD) (t : Fin cfg2.N) : (dat2 V c).after 5 t
    = k2_pay1 (iblk2 V c 1 t) (iblk2 V c 2 t) (iblk2 V c 3 t) (iblk2 V c 4 t) (iblk2 V c 0 t) := by
  have hz : (![0, 0] : Fin 2 → Nat) = fun _ => 0 := funext fun a => by fin_cases a <;> rfl
  rw [after2_5]; unfold out2_5
  rw [View.canon_unit_zero hz]
  simp only [View.ld_unit_zero (S := S1x512) hz, View.ld_unit_zero (S := S1024x512) hz]

end Cert.KernelIdeal.Hand

end
-- ==== Proof.KI.Arr2.lean ====
import proofs.«426621_j13099650253560_2_alg».proof.Proof.KI.R2
import proofs.«426621_j13099650253560_2_alg».proof.Proof.KI.ROut
import proofs.«426621_j13099650253560_2_alg».proof.Proof.KI.PayVals
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

def normRelu2 (x : FVec Ideal S10240x512 .f32) (g b mu var : FVec Ideal S1x512 .f32) : FVec Ideal S10240x512 .bf16 :=
  fun i => max ((((x i - mu (ix2 0 (i 1 : Fin 512)))
      * Ideal.rsqrt (var (ix2 0 (i 1 : Fin 512)) + Ideal.ofBits .f32 0x3727C5AC#32)) * g (ix2 0 (i 1 : Fin 512)))
      + b (ix2 0 (i 1 : Fin 512))) 0

theorem index_facts2 : ∀ t : Fin cfg2.N, (∀ a : Fin 2, win2_1.index t a = 0 ∧ win2_2.index t a = 0 ∧ win2_3.index t a = 0
    ∧ win2_4.index t a = 0 ∧ win2_0.index t a = win2_5.index t a) ∧ win2_5.index t 0 = t.val ∧ win2_5.index t 1 = 0 :=
  (by decide +kernel : ∀ t : Fin grid2.N, _)

variable (V : (c : Dev nD) → (b : Ref sig .tc) → Buf (Elt Ideal) ((c : Thread nD τ).loc b))

-- What a point writes back is its block of the normalised, rectified array: each row vector is read whole, the row block where the output's is.
theorem flushed2_eq (c : Dev nD) (t : Fin cfg2.N) :
    (dat2 (F := Ideal) V c).flushed 5 t
      = ((cfg2.win 5).blk t).view.read (Elt Ideal)
          (normRelu2 (V c main_v45) (V c main_v53) (V c main_v54) (V c main_v50) (V c main_v52)) := by
  show (cfg2.win 5).cut (grid2.coords t) ((dat2 (F := Ideal) V c).after 5 t) = _
  rw [after2_5_pay]
  obtain ⟨h, -, f1⟩ := index_facts2 t
  rw [show iblk2 V c 1 t = V c main_v53 from funext fun y => congrArg (V c main_v53) (funext fun a => Fin.ext (win2_1.rect_emb_val_of_index_zero t a (h a).1 y)),
    show iblk2 V c 2 t = V c main_v54 from funext fun y => congrArg (V c main_v54) (funext fun a => Fin.ext (win2_2.rect_emb_val_of_index_zero t a (h a).2.1 y)),
    show iblk2 V c 3 t = V c main_v50 from funext fun y => congrArg (V c main_v50) (funext fun a => Fin.ext (win2_3.rect_emb_val_of_index_zero t a (h a).2.2.1 y)),
    show iblk2 V c 4 t = V c main_v52 from funext fun y => congrArg (V c main_v52) (funext fun a => Fin.ext (win2_4.rect_emb_val_of_index_zero t a (h a).2.2.2.1 y))]
  funext j
  obtain ⟨p, q, rfl⟩ : ∃ (p : Fin 1024) (q : Fin 512), j = ix2 p q := ⟨j 0, j 1, eq_ix2 j⟩
  show k2_pay1 _ _ _ _ _ (ix2 p q) = normRelu2 _ _ _ _ _ (((cfg2.win 5).blk t).view.emb (ix2 p q))
  rw [pay2_apply]; unfold normRelu2
  rw [show (((cfg2.win 5).blk t).view.emb (ix2 p q) 1 : Fin 512) = q from Fin.ext (win2_5.rect_emb_val_of_index_zero t 1 f1 (ix2 p q)),
    show iblk2 V c 0 t (ix2 p q) = V c main_v45 (((cfg2.win 5).blk t).view.emb (ix2 p q)) from congrArg (V c main_v45) (funext fun a => Fin.ext
      ((win2_0.rect_emb_val t (ix2 p q) a).trans ((h a).2.2.2.2 ▸ (win2_5.rect_emb_val t (ix2 p q) a).symm)))]

-- The ten row blocks cover the array.
theorem cover2 (i : S10240x512.Idx) :
    ∃ t : Fin cfg2.N, (cfg2.win 5).flush t = true ∧ i ∈ ((cfg2.win 5).blk t).view.set := by
  have h0 : (i 0).val < 10240 := idx2_lt0 i
  have h1 : (i 1).val < 512 := idx2_lt1 i
  have ht : (i 0).val / 1024 < cfg2.N := by have : cfg2.N = 10 := N_2; omega
  obtain ⟨-, f0, f1⟩ := index_facts2 ⟨(i 0).val / 1024, ht⟩
  refine ⟨⟨(i 0).val / 1024, ht⟩, flush2_5 _, ?_⟩
  show i ∈ ((View.whole main_v57).slice (win2_5.rect ⟨(i 0).val / 1024, ht⟩)).set
  rw [View.set_slice_whole, Rect.mem_set_unit]
  intro a
  match a with
  | ⟨0, _⟩ => show win2_5.index _ 0 * 1024 ≤ (i 0).val ∧ (i 0).val < win2_5.index _ 0 * 1024 + 1024; rw [f0]; dsimp only; omega
  | ⟨1, _⟩ => show win2_5.index _ 1 * 512 ≤ (i 1).val ∧ (i 1).val < win2_5.index _ 1 * 512 + 512; rw [f1]; omega

theorem arr2_val (c : Dev nD) (R : Fin 10240) (col : Fin 512)
    (X : FVec Ideal S10240x512 .f32) (g b mu var : FVec Ideal S1x512 .f32)
    (hX : X = V c main_v45) (hg : g = V c main_v53) (hb : b = V c main_v54) (hmu : mu = V c main_v50) (hvar : var = V c main_v52) :
    ((dat2 (F := Ideal) V c).arrAt 5 cfg2.N : FVec Ideal S10240x512 .bf16) (ix2 R col)
      = max ((((X (ix2 R col) - mu (ix2 0 col)) * Ideal.rsqrt (var (ix2 0 col) + Ideal.ofBits .f32 0x3727C5AC#32)) * g (ix2 0 col))
          + b (ix2 0 col)) 0 := by
  subst hX hg hb hmu hvar
  exact congrFun ((dat2 (F := Ideal) V c).arrAt_eq_of_cover 5 (normRelu2 _ _ _ _ _) (fun t _ => flushed2_eq V c t) cover2) (ix2 R col)

end Cert.KernelIdeal.Hand

end
-- ==== Proof.KI.Arr3.lean ====
import proofs.«426621_j13099650253560_2_alg».proof.Proof.KI.R3a
import proofs.«426621_j13099650253560_2_alg».proof.Proof.KI.PayVals
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace Arr3

theorem index_facts3 : ∀ t : Fin cfg3.N,
    win3_0.index t (0 : Fin 2) = 0 ∧ win3_0.index t (1 : Fin 2) = 0
    ∧ win3_1.index t (0 : Fin 2) = t.val / 5 ∧ win3_1.index t (1 : Fin 2) = t.val % 5
    ∧ win3_2.index t (0 : Fin 2) = t.val / 5 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val / 5 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = t.val / 5 ∧ win3_9.index t (1 : Fin 2) = 0 :=
  (by decide +kernel : ∀ t : Fin grid3.N, _)

theorem off_facts3 : ∀ t : Fin cfg3.N,
    k3_off1 (grid3.coords t) (0 : Fin 2) = t.val % 5 * 2048 ∧ k3_off1 (grid3.coords t) (1 : Fin 2) = 0
    ∧ k3_off2 (grid3.coords t) (0 : Fin 2) = t.val / 5 * 1024 ∧ k3_off2 (grid3.coords t) (1 : Fin 2) = 0 :=
  (by decide +kernel : ∀ t : Fin grid3.N, _)

-- A function of a two-axis index takes equal values where the two coordinates agree.
theorem at_ix2 {α : Type} {n0 n1 : ℕ} (A : (⟨2, ![n0, n1]⟩ : Shape).Idx → α) (p : (⟨2, ![n0, n1]⟩ : Shape).Idx) (a : Fin n0) (b : Fin n1)
    (h0 : (p 0).val = a.val) (h1 : (p 1).val = b.val) : A p = A (ix2 a b) :=
  congrArg A ((eq_ix2 p).trans (congrArg₂ ix2 (Fin.ext h0) (Fin.ext h1)))

theorem lt50_3 (t : Fin cfg3.N) : t.val < 50 := by have := t.isLt; have : cfg3.N = 50 := N_3; omega

abbrev Hp3 (c : Dev nD) : FVec Ideal S10240x512 .bf16 := V c main_v57

abbrev Ap3 (c : Dev nD) : FVec Ideal S10240x10240 .bf16 := V c main_v29

abbrev Inv3 (c : Dev nD) : FVec Ideal S10240x1 .f32 := V c main_v31

abbrev Wl3 (c : Dev nD) : FVec Ideal S512x512 .bf16 := V c main_v58

abbrev Wr3 (c : Dev nD) : FVec Ideal S512x512 .bf16 := V c main_v59

abbrev Bb3 (c : Dev nD) : FVec Ideal S1x512 .f32 := V c main_v55

abbrev Xp3 (c : Dev nD) : FVec Ideal S10240x256 .f32 := V c main_v32

abbrev Wsc3 (c : Dev nD) : FVec Ideal S256x512 .bf16 := V c main_v60

abbrev Bsc3 (c : Dev nD) : FVec Ideal S1x512 .f32 := V c main_v56

end Arr3

open Arr3

def accK3 (c : Dev nD) (i : Fin 10) : ℕ → FVec Ideal S1024x512 .f32
  | 0 => fun _ => 0
  | k + 1 => fun j => accK3 c i k j + (if h : k < 5 then
      ∑ l : Fin 2048, Ap3 V c (ix2 ⟨i.val * 1024 + (j 0).val, by have := idx2_lt0 j; have := i.isLt; omega⟩ ⟨k * 2048 + l.val, by have := l.isLt; omega⟩)
        * Hp3 V c (ix2 ⟨k * 2048 + l.val, by have := l.isLt; omega⟩ (j 1 : Fin 512)) else 0)

theorem accK3_zero (c : Dev nD) (i : Fin 10) (r : Fin 1024) (col : Fin 512) : accK3 V c i 0 (ix2 r col) = 0 := rfl

theorem accK3_succ (c : Dev nD) (Hp : FVec Ideal S10240x512 .bf16) (Ap : FVec Ideal S10240x10240 .bf16)
    (hHp : V c main_v57 = Hp) (hAp : V c main_v29 = Ap) (i : Fin 10) (k : ℕ) (hk : k < 5) (r : Fin 1024) (col : Fin 512) :
    accK3 V c i (k + 1) (ix2 r col) = accK3 V c i k (ix2 r col) + ∑ l : Fin 2048, Ap (ix2 ⟨i.val * 1024 + r.val, by have := i.isLt; have := r.isLt; omega⟩ ⟨k * 2048 + l.val, by have := l.isLt; omega⟩) * Hp (ix2 ⟨k * 2048 + l.val, by have := l.isLt; omega⟩ col) := by
  subst hHp hAp
  show accK3 V c i k (ix2 r col) + dite (k < 5) _ _ = _
  rw [dif_pos hk]

namespace Arr3

theorem accStep3_at (c : Dev nD) (i : Fin 10) (k : ℕ) (hk : k < 5) (t : Fin cfg3.N) (ht : t.val = i.val * 5 + k)
    (a : FVec Ideal S1024x512 .f32) (r : Fin 1024) (col : Fin 512) :
    accStep3 (F := Ideal) (iblk3 V c 0 t) (iblk3 V c 1 t) (grid3.coords t) a (ix2 r col)
      = a (ix2 r col) + ∑ l : Fin 2048, Ap3 V c (ix2 ⟨i.val * 1024 + r.val, by have := i.isLt; have := r.isLt; omega⟩ ⟨k * 2048 + l.val, by have := l.isLt; omega⟩) * Hp3 V c (ix2 ⟨k * 2048 + l.val, by have := l.isLt; omega⟩ col) := by
  unfold accStep3
  rw [pay3_2_apply]
  obtain ⟨a0, a1, b0, b1, c0, c1, d0, d1, e0, e1, f0, f1, g0, g1, h0, h1, i0, i1, j0, j1⟩ := index_facts3 t
  obtain ⟨o0, o1, p0, p1⟩ := off_facts3 t
  have hi := i.isLt
  refine congrArg (_ + ·) (Finset.sum_congr rfl fun l _ => ?_)
  refine congrArg₂ (· * ·) ?_ ?_
  · exact at_ix2 (V c main_v29) _ _ _ (by show win3_1.index t (0 : Fin 2) * 1024 + 1 * r.val = i.val * 1024 + r.val; omega) (by show win3_1.index t (1 : Fin 2) * 2048 + 1 * l.val = k * 2048 + l.val; omega)
  · exact at_ix2 (V c main_v57) _ _ _ (by show win3_0.index t (0 : Fin 2) * 10240 + 1 * (k3_off1 (grid3.coords t) (0 : Fin 2) + 1 * l.val) = k * 2048 + l.val; omega) (by show win3_0.index t (1 : Fin 2) * 512 + 1 * (k3_off1 (grid3.coords t) (1 : Fin 2) + 1 * col.val) = col.val; omega)

theorem accAt3_congr (c : Dev nD) {n n' : ℕ} (e : n = n') (h : n < cfg3.N) (h' : n' < cfg3.N) :
    accAt3 (F := Ideal) V c n h = accAt3 V c n' h' := by subst e; rfl

theorem accAt3_eq_accK3 (c : Dev nD) (i : Fin 10) :
    ∀ (k : ℕ) (hk : k < 5) (h : i.val * 5 + k < cfg3.N), accAt3 (F := Ideal) V c (i.val * 5 + k) h = accK3 V c i (k + 1)
  | 0, hk, h => by
    refine (acc3_zero (F := Ideal) V c ⟨i.val * 5 + 0, h⟩ (by show (i.val * 5 + 0) % 5 = 0; omega)).trans ?_
    funext j
    obtain ⟨r, col, rfl⟩ : ∃ (r : Fin 1024) (col : Fin 512), j = ix2 r col := ⟨j 0, j 1, eq_ix2 j⟩
    refine (accStep3_at V c i 0 hk ⟨_, h⟩ rfl _ r col).trans ?_
    rw [accK3_succ V c _ _ rfl rfl i 0 hk r col, accK3_zero, pay3_1_apply]
  | k + 1, hk, h => by
    refine (acc3_succ (F := Ideal) V c ⟨i.val * 5 + (k + 1), h⟩ (by show ¬(i.val * 5 + (k + 1)) % 5 = 0; omega)).trans ?_
    funext j
    obtain ⟨r, col, rfl⟩ : ∃ (r : Fin 1024) (col : Fin 512), j = ix2 r col := ⟨j 0, j 1, eq_ix2 j⟩
    refine (accStep3_at V c i (k + 1) hk ⟨_, h⟩ rfl _ r col).trans ?_
    rw [accK3_succ V c _ _ rfl rfl i (k + 1) hk r col]
    refine congrArg (· + _) ?_
    have ih := accAt3_eq_accK3 c i k (by omega) (by omega)
    exact congrFun ((accAt3_congr V c (by show i.val * 5 + (k + 1) - 1 = i.val * 5 + k; omega) _ _).trans ih) (ix2 r col)

def rowVal3 (c : Dev nD) (i : Fin 10) (r : Fin 1024) (o : Fin 512) : Ideal .f32 :=
  (((∑ f : Fin 512, (accK3 V c i 5 (ix2 r f) * Inv3 V c (ix2 ⟨i.val * 1024 + r.val, by have := i.isLt; have := r.isLt; omega⟩ 0)) * Wl3 V c (ix2 f o)) + Bb3 V c (ix2 0 o))
        + ∑ f : Fin 512, Hp3 V c (ix2 ⟨i.val * 1024 + r.val, by have := i.isLt; have := r.isLt; omega⟩ f) * Wr3 V c (ix2 f o))
      + ((∑ f : Fin 256, Xp3 V c (ix2 ⟨i.val * 1024 + r.val, by have := i.isLt; have := r.isLt; omega⟩ f) * Wsc3 V c (ix2 f o)) + Bsc3 V c (ix2 0 o))

theorem rowVal3_congr (c : Dev nD) {i i' : Fin 10} {r r' : Fin 1024} {o o' : Fin 512} (hi : i = i') (hr : r = r')
    (ho : o = o') : rowVal3 V c i r o = rowVal3 V c i' r' o' := by subst hi hr ho; rfl

theorem outVal3_at (c : Dev nD) (i : Fin 10) (t : Fin cfg3.N) (ht : t.val = i.val * 5 + 4)
    (h : cond3_1 (grid3.coords t)) (r : Fin 1024) (o : Fin 512) :
    outVal3 (F := Ideal) V c t h (ix2 r o) = rowVal3 V c i r o := by
  unfold outVal3 rowVal3
  rw [pay3_3_apply]
  obtain ⟨a0, a1, b0, b1, c0, c1, d0, d1, e0, e1, f0, f1, g0, g1, h0, h1, i0, i1, j0, j1⟩ := index_facts3 t
  obtain ⟨o0, o1, p0, p1⟩ := off_facts3 t
  have hi := i.isLt
  have eacc : accAt3 (F := Ideal) V c t.val t.isLt = accK3 V c i 5 :=
    (accAt3_congr V c ht _ (by have : cfg3.N = 50 := N_3; omega)).trans (accAt3_eq_accK3 V c i 4 (by omega) _)
  rw [eacc]
  refine congrArg₂ (· + ·) (congrArg₂ (· + ·) (congrArg₂ (· + ·) (Finset.sum_congr rfl fun f _ => ?_) ?_)
    (Finset.sum_congr rfl fun f _ => ?_)) (congrArg₂ (· + ·) (Finset.sum_congr rfl fun f _ => ?_) ?_)
  · refine congrArg₂ (· * ·) (congrArg (fun x => accK3 V c i 5 (ix2 r f) * x) ?_) ?_
    · exact at_ix2 (V c main_v31) _ _ _ (by show win3_2.index t (0 : Fin 2) * 1024 + 1 * r.val = i.val * 1024 + r.val; omega) (by show win3_2.index t (1 : Fin 2) * 1 + 1 * (0 : Fin 1).val = (0 : Fin 1).val; omega)
    · exact at_ix2 (V c main_v58) _ _ _ (by show win3_3.index t (0 : Fin 2) * 512 + 1 * f.val = f.val; omega) (by show win3_3.index t (1 : Fin 2) * 512 + 1 * o.val = o.val; omega)
  · exact at_ix2 (V c main_v55) _ _ _ (by show win3_5.index t (0 : Fin 2) * 1 + 1 * (0 : Fin 1).val = (0 : Fin 1).val; omega) (by show win3_5.index t (1 : Fin 2) * 512 + 1 * o.val = o.val; omega)
  · refine congrArg₂ (· * ·) ?_ ?_
    · exact at_ix2 (V c main_v57) _ _ _ (by show win3_0.index t (0 : Fin 2) * 10240 + 1 * (k3_off2 (grid3.coords t) (0 : Fin 2) + 1 * r.val) = i.val * 1024 + r.val; omega) (by show win3_0.index t (1 : Fin 2) * 512 + 1 * (k3_off2 (grid3.coords t) (1 : Fin 2) + 1 * f.val) = f.val; omega)
    · exact at_ix2 (V c main_v59) _ _ _ (by show win3_4.index t (0 : Fin 2) * 512 + 1 * f.val = f.val; omega) (by show win3_4.index t (1 : Fin 2) * 512 + 1 * o.val = o.val; omega)
  · refine congrArg₂ (· * ·) ?_ ?_
    · exact at_ix2 (V c main_v32) _ _ _ (by show win3_6.index t (0 : Fin 2) * 1024 + 1 * r.val = i.val * 1024 + r.val; omega) (by show win3_6.index t (1 : Fin 2) * 256 + 1 * f.val = f.val; omega)
    · exact at_ix2 (V c main_v60) _ _ _ (by show win3_7.index t (0 : Fin 2) * 256 + 1 * f.val = f.val; omega) (by show win3_7.index t (1 : Fin 2) * 512 + 1 * o.val = o.val; omega)
  · exact at_ix2 (V c main_v56) _ _ _ (by show win3_8.index t (0 : Fin 2) * 1 + 1 * (0 : Fin 1).val = (0 : Fin 1).val; omega) (by show win3_8.index t (1 : Fin 2) * 512 + 1 * o.val = o.val; omega)

def outG3 (c : Dev nD) : FVec Ideal S10240x512 .f32 := fun idx =>
  rowVal3 V c ⟨(idx 0).val / 1024, by have := idx2_lt0 idx; omega⟩ ⟨(idx 0).val % 1024, Nat.mod_lt _ (by decide)⟩ (idx 1 : Fin 512)

theorem flushed3_eq (c : Dev nD) (t : Fin cfg3.N) (hf : (cfg3.win 9).flush t = true) :
    (dat3 (F := Ideal) V c).flushed 9 t = ((cfg3.win 9).blk t).view.read (Elt Ideal) (outG3 V c) := by
  have hk : t.val % 5 = 4 := (flush3_9 t).mp hf
  show (cfg3.win 9).cut (grid3.coords t) ((dat3 (F := Ideal) V c).after 9 t) = _
  rw [after3_9 V c t hk]
  funext j
  obtain ⟨p, q, rfl⟩ : ∃ (p : Fin 1024) (q : Fin 512), j = ix2 p q := ⟨j 0, j 1, eq_ix2 j⟩
  show outVal3 (F := Ideal) V c t _ (ix2 p q) = outG3 V c (((cfg3.win 9).blk t).view.emb (ix2 p q))
  have hlt := lt50_3 t
  rw [outVal3_at V c ⟨t.val / 5, by omega⟩ t (by show t.val = t.val / 5 * 5 + 4; omega) _ p q]
  obtain ⟨a0, a1, b0, b1, c0, c1, d0, d1, e0, e1, f0, f1, g0, g1, h0, h1, i0, i1, j0, j1⟩ := index_facts3 t
  obtain ⟨o0, o1, p0, p1⟩ := off_facts3 t
  have e0 : ((((cfg3.win 9).blk t).view.emb (ix2 p q)) 0).val = t.val / 5 * 1024 + p.val := by
    show win3_9.index t (0 : Fin 2) * 1024 + 1 * p.val = _; omega
  have e1 : ((((cfg3.win 9).blk t).view.emb (ix2 p q)) 1).val = q.val := by
    show win3_9.index t (1 : Fin 2) * 512 + 1 * q.val = _; omega
  have hp := p.isLt
  unfold outG3
  exact rowVal3_congr V c (Fin.ext (by show t.val / 5 = _ / 1024; rw [e0]; omega))
    (Fin.ext (by show p.val = _ % 1024; rw [e0]; omega)) (Fin.ext e1.symm)

theorem mem_blk3 (t : Fin cfg3.N) (i : S10240x512.Idx) :
    i ∈ ((cfg3.win 9).blk t).view.set ↔ ∀ a : Fin 2, win3_9.index t a * S1024x512.size a ≤ (i a).val
      ∧ (i a).val < win3_9.index t a * S1024x512.size a + S1024x512.size a := by
  show i ∈ ((View.whole main_v61).slice (win3_9.rect t)).set ↔ _
  rw [View.set_slice_whole, Rect.mem_set_unit]
  exact Iff.rfl

theorem cover3 (i : S10240x512.Idx) :
    ∃ t : Fin cfg3.N, (cfg3.win 9).flush t = true ∧ i ∈ ((cfg3.win 9).blk t).view.set := by
  have h0 : (i 0).val < 10240 := idx2_lt0 i
  have h1 : (i 1).val < 512 := idx2_lt1 i
  have hN : cfg3.N = 50 := N_3
  have ht : (i 0).val / 1024 * 5 + 4 < cfg3.N := by rw [hN]; omega
  obtain ⟨-, -, -, -, -, -, -, -, -, -, -, -, -, -, -, -, -, -, j0, j1⟩ := index_facts3 ⟨(i 0).val / 1024 * 5 + 4, ht⟩
  refine ⟨⟨(i 0).val / 1024 * 5 + 4, ht⟩, (flush3_9 _).mpr (by show ((i 0).val / 1024 * 5 + 4) % 5 = 4; omega), ?_⟩
  rw [mem_blk3]
  intro a
  match a with
  | ⟨0, _⟩ =>
    show win3_9.index ⟨(i 0).val / 1024 * 5 + 4, ht⟩ (0 : Fin 2) * 1024 ≤ (i 0).val
      ∧ (i 0).val < win3_9.index ⟨(i 0).val / 1024 * 5 + 4, ht⟩ (0 : Fin 2) * 1024 + 1024
    rw [j0]
    show ((i 0).val / 1024 * 5 + 4) / 5 * 1024 ≤ (i 0).val ∧ (i 0).val < ((i 0).val / 1024 * 5 + 4) / 5 * 1024 + 1024
    omega
  | ⟨1, _⟩ =>
    show win3_9.index ⟨(i 0).val / 1024 * 5 + 4, ht⟩ (1 : Fin 2) * 512 ≤ (i 1).val
      ∧ (i 1).val < win3_9.index ⟨(i 0).val / 1024 * 5 + 4, ht⟩ (1 : Fin 2) * 512 + 512
    rw [j1]
    omega

theorem arr3_eq (c : Dev nD) : (dat3 (F := Ideal) V c).arrAt 9 cfg3.N = outG3 V c :=
  (dat3 (F := Ideal) V c).arrAt_eq_of_cover 9 _ (fun t hf => flushed3_eq V c t hf) cover3

end Arr3

theorem arr3_rows (c : Dev nD) (Hp : FVec Ideal S10240x512 .bf16)
    (Inv : FVec Ideal S10240x1 .f32) (wl wr : FVec Ideal S512x512 .bf16) (b : FVec Ideal S1x512 .f32)
    (Xp : FVec Ideal S10240x256 .f32) (wsc : FVec Ideal S256x512 .bf16) (bsc : FVec Ideal S1x512 .f32)
    (hHp : V c main_v57 = Hp) (hInv : V c main_v31 = Inv) (hwl : V c main_v58 = wl)
    (hwr : V c main_v59 = wr) (hb : V c main_v55 = b) (hXp : V c main_v32 = Xp) (hwsc : V c main_v60 = wsc)
    (hbsc : V c main_v56 = bsc) (O : FVec Ideal S10240x512 .f32) (hO : (dat3 (F := Ideal) V c).arrAt 9 cfg3.N = O)
    (i : Fin 10) (r : Fin 1024) (o : Fin 512) :
    O (ix2 ⟨i.val * 1024 + r.val, by have := i.isLt; have := r.isLt; omega⟩ o)
      = (((∑ f : Fin 512, (accK3 V c i 5 (ix2 r f) * Inv (ix2 ⟨i.val * 1024 + r.val, by have := i.isLt; have := r.isLt; omega⟩ 0)) * wl (ix2 f o)) + b (ix2 0 o))
        + ∑ f : Fin 512, Hp (ix2 ⟨i.val * 1024 + r.val, by have := i.isLt; have := r.isLt; omega⟩ f) * wr (ix2 f o))
      + ((∑ f : Fin 256, Xp (ix2 ⟨i.val * 1024 + r.val, by have := i.isLt; have := r.isLt; omega⟩ f) * wsc (ix2 f o)) + bsc (ix2 0 o)) := by
  subst hHp hInv hwl hwr hb hXp hwsc hbsc hO
  refine (congrFun (arr3_eq V c) _).trans ?_
  have hi := i.isLt
  have hr := r.isLt
  show rowVal3 V c ⟨(i.val * 1024 + r.val) / 1024, _⟩ ⟨(i.val * 1024 + r.val) % 1024, _⟩ o = rowVal3 V c i r o
  exact rowVal3_congr V c (Fin.ext (by show (i.val * 1024 + r.val) / 1024 = i.val; omega))
    (Fin.ext (by show (i.val * 1024 + r.val) % 1024 = r.val; omega)) rfl

end Cert.KernelIdeal.Hand

end
-- ==== Proof.Final.KLayer1.lean ====
import proofs.«426621_j13099650253560_2_alg».proof.Proof.KI.RunFold
import proofs.«426621_j13099650253560_2_alg».proof.Proof.KI.HostRun
import proofs.«426621_j13099650253560_2_alg».proof.Proof.KI.HostVals
import proofs.«426621_j13099650253560_2_alg».proof.Proof.KI.Arr2
import proofs.«426621_j13099650253560_2_alg».proof.Proof.KI.Arr3
import proofs.«426621_j13099650253560_2_alg».proof.Proof.Final.SameChain
import proofs.«426621_j13099650253560_2_alg».proof.Proof.Final.KLayer0
import proofs.«426621_j13099650253560_2_alg».proof.Proof.Spec.Net

set_option maxRecDepth 16384

noncomputable section

namespace Cert.Final

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (c : Dev nD)

abbrev ka7 : FVec Ideal S512 .f32 := m ((c.tc : Thread nD τ).loc main_arg7)
abbrev ka8 : FVec Ideal S512 .f32 := m ((c.tc : Thread nD τ).loc main_arg8)
abbrev ka9 : FVec Ideal S512x512 .f32 := m ((c.tc : Thread nD τ).loc main_arg9)
abbrev ka10 : FVec Ideal S512x512 .f32 := m ((c.tc : Thread nD τ).loc main_arg10)
abbrev ka11 : FVec Ideal S512 .f32 := m ((c.tc : Thread nD τ).loc main_arg11)
abbrev ka12 : FVec Ideal S256x512 .f32 := m ((c.tc : Thread nD τ).loc main_arg12)
abbrev ka13 : FVec Ideal S512 .f32 := m ((c.tc : Thread nD τ).loc main_arg13)

theorem k1_launch12 (r : Ref sig .tc)
    (h1 : r ∉ hostOps0_W := by decide) (h2 : r ∉ hostOps0_1_W := by decide) (h3 : r ∉ hostOps0_2_W := by decide) (h4 : r ∉ hostOps0_3_W := by decide) (h5 : r ∉ hostOps0_4_W := by decide)
    (h6 : r ∉ hostOps0_5_W := by decide) (h7 : r ∉ hostOps0_6_W := by decide) (h8 : r ∉ hostOps0_7_W := by decide) (h9 : r ∉ hostOps0_8_W := by decide)
    (h10 : ∀ w, Pipeline.arrRef spec0 w ≠ r := by decide) (h11 : r ∉ hostOps1_W := by decide) (h12 : ∀ w, Pipeline.arrRef spec1 w ≠ r := by decide) :
    W12 m c (Proc.devRef .tc r) = m ((c : Thread nD τ).loc r) :=
  (W12_of_ne m c r h12).trans <| (W11_of m c r h11).trans <| (W10_of_ne m c r h10).trans <| (W9_of m c r h9).trans <|
    (W8_of m c r h8).trans <| (W7_of m c r h7).trans <| (W6_of m c r h6).trans <| (W5_of m c r h5).trans <|
    (W4_of m c r h4).trans <| (W3_of m c r h3).trans <| (W2_of m c r h2).trans <| (W1_of m c r h1)

theorem k1_launch16 (r : Ref sig .tc)
    (h1 : r ∉ hostOps0_W := by decide) (h2 : r ∉ hostOps0_1_W := by decide) (h3 : r ∉ hostOps0_2_W := by decide) (h4 : r ∉ hostOps0_3_W := by decide) (h5 : r ∉ hostOps0_4_W := by decide)
    (h6 : r ∉ hostOps0_5_W := by decide) (h7 : r ∉ hostOps0_6_W := by decide) (h8 : r ∉ hostOps0_7_W := by decide) (h9 : r ∉ hostOps0_8_W := by decide)
    (h10 : ∀ w, Pipeline.arrRef spec0 w ≠ r := by decide) (h11 : r ∉ hostOps1_W := by decide) (h12 : ∀ w, Pipeline.arrRef spec1 w ≠ r := by decide)
    (h13 : r ∉ hostOps2_W := by decide) (h14 : r ∉ hostOps2_1_W := by decide) (h15 : r ∉ hostOps2_2_W := by decide) (h16 : ∀ w, Pipeline.arrRef spec2 w ≠ r := by decide) :
    W16 m c (Proc.devRef .tc r) = m ((c : Thread nD τ).loc r) :=
  (W16_of_ne m c r h16).trans <| (W15_of m c r h15).trans <| (W14_of m c r h14).trans <| (W13_of m c r h13).trans <|
    k1_launch12 m c r h1 h2 h3 h4 h5 h6 h7 h8 h9 h10 h11 h12

theorem k1_back17_12 (r : Ref sig .tc) (h13 : r ∉ hostOps2_W := by decide) (h14 : r ∉ hostOps2_1_W := by decide) (h15 : r ∉ hostOps2_2_W := by decide)
    (h16 : ∀ w, Pipeline.arrRef spec2 w ≠ r := by decide) (h17 : r ∉ hostOps3_W := by decide) :
    W17 m c (Proc.devRef .tc r) = W12 m c (Proc.devRef .tc r) :=
  (W17_of m c r h17).trans <| (W16_of_ne m c r h16).trans <| (W15_of m c r h15).trans <| (W14_of m c r h14).trans <|
    (W13_of m c r h13)

def H1p : FVec Ideal S10240x512 .bf16 := W16 m c (Proc.devRef .tc main_v57)

theorem H1p_val (R : Fin 10240) (f : Fin 512) :
    H1p m c (ix2 R f)
      = Cert.Spec.bnr (Ideal.ofBits .f32 0x3727C5AC#32) (O0p m c (ix2 R f))
          (Cert.ReferenceIdeal.Hand.stMean512 (F := Ideal) (hsRows (O0p m c)) (ix1 f))
          (Cert.ReferenceIdeal.Hand.stVar512 (F := Ideal) (hsRows (O0p m c)) (ix1 f))
          (ka7 m c (ix1 f)) (ka8 m c (ix1 f)) := by
  have hmu : hsMean512 (F := Ideal) (hsRows (O0p m c)) (ix2 (0 : Fin 1) f)
      = Cert.ReferenceIdeal.Hand.stMean512 (F := Ideal) (hsRows (O0p m c)) (ix1 f) :=
    (mean512_row_apply (F := Ideal) (hsRows (O0p m c)) f).trans (congrFun (mean512_same (F := Ideal) (hsRows (O0p m c))) (ix1 f))
  have hvar : hsVar512 (F := Ideal) (hsRows (O0p m c)) (ix2 (0 : Fin 1) f)
      = Cert.ReferenceIdeal.Hand.stVar512 (F := Ideal) (hsRows (O0p m c)) (ix1 f) :=
    (var512_row_apply (F := Ideal) (hsRows (O0p m c)) f).trans (congrFun (var512_same (F := Ideal) (hsRows (O0p m c))) (ix1 f))
  have hg : hsRow512 (F := Ideal) (ka7 m c) (ix2 (0 : Fin 1) f) = ka7 m c (ix1 f) := row512_apply (F := Ideal) (ka7 m c) f
  have hb : hsRow512 (F := Ideal) (ka8 m c) (ix2 (0 : Fin 1) f) = ka8 m c (ix1 f) := row512_apply (F := Ideal) (ka8 m c) f
  refine (congrFun (W16_out m c) (ix2 R f)).trans
    ((arr2_val (Vin2 m) c R f (O0p m c) (hsRow512 (F := Ideal) (ka7 m c)) (hsRow512 (F := Ideal) (ka8 m c))
      (hsMean512 (F := Ideal) (hsRows (O0p m c))) (hsVar512 (F := Ideal) (hsRows (O0p m c)))
      ((W15_of m c main_v45 (by decide)).trans <| (W14_of m c main_v45 (by decide)).trans <| (W13_of m c main_v45 (by decide))).symm ((entry2_v53 (W12 m c)).trans (congrArg hsRow512 (k1_launch12 m c main_arg7))).symm ((entry2_v54 (W12 m c)).trans (congrArg hsRow512 (k1_launch12 m c main_arg8))).symm (entry2_v50 (W12 m c)).symm (entry2_v52 (W12 m c)).symm).trans ?_)
  exact Cert.Spec.bnr_congr (eps := Ideal.ofBits .f32 0x3727C5AC#32) rfl hmu hvar hg hb

theorem k1_in3_v57 : (Vin3 m c main_v57 : FVec Ideal S10240x512 .bf16) = H1p m c :=
  W17_of m c main_v57 (by decide)

def Outp : FVec Ideal S10240x512 .f32 := W18 m c (Proc.devRef .tc main_v61)

def acc1 (i : Fin 10) (k : ℕ) : FVec Ideal S1024x512 .f32 := accK3 (Vin3 m) c i k

theorem acc1_zero (i : Fin 10) (r : Fin 1024) (col : Fin 512) : acc1 m c i 0 (ix2 r col) = 0 :=
  accK3_zero (Vin3 m) c i r col

theorem acc1_succ (i : Fin 10) (k : ℕ) (hk : k < 5) (r : Fin 1024) (col : Fin 512) :
    acc1 m c i (k + 1) (ix2 r col)
      = acc1 m c i k (ix2 r col)
        + ∑ l : Fin 2048, hsAdjPad (F := Ideal) (ka1 m c) (ix2 (rowOf i r) (colOf k hk l))
            * H1p m c (ix2 (colOf k hk l) col) := by
  unfold acc1
  exact accK3_succ (Vin3 m) c (H1p m c) (hsAdjPad (F := Ideal) (ka1 m c))
    (k1_in3_v57 m c) ((k1_back17_12 m c main_v29).trans <| (W12_in m c 1 rfl).trans <| (W11_of m c main_v29 (by decide)).trans <| (W10_of_ne m c main_v29 (by decide)).trans <| entry0_v29 (W0 m c)) i k hk r col

theorem Outp_rows (i : Fin 10) (r : Fin 1024) (o : Fin 512) :
    Outp m c (ix2 (rowOf i r) o)
      = (((∑ f : Fin 512, (acc1 m c i 5 (ix2 r f) * hsInv (F := Ideal) (ka1 m c) (ix2 (rowOf i r) (0 : Fin 1))) * ka9 m c (ix2 f o))
            + ka11 m c (ix1 o))
          + ∑ f : Fin 512, H1p m c (ix2 (rowOf i r) f) * ka10 m c (ix2 f o))
        + ((∑ f : Fin 256, hsXPad (F := Ideal) (ka0 m c) (ix2 (rowOf i r) f) * ka12 m c (ix2 f o)) + ka13 m c (ix1 o)) := by
  unfold acc1
  refine (arr3_rows (Vin3 m) c (H1p m c) (hsInv (F := Ideal) (ka1 m c)) (hsBf512x512 (F := Ideal) (ka9 m c))
    (hsBf512x512 (F := Ideal) (ka10 m c)) (hsRow512 (F := Ideal) (ka11 m c)) (hsXPad (F := Ideal) (ka0 m c))
    (hsBf256x512 (F := Ideal) (ka12 m c)) (hsRow512 (F := Ideal) (ka13 m c))
    (k1_in3_v57 m c) ((k1_back17_12 m c main_v31).trans <| (W12_in m c 2 rfl).trans <| (W11_of m c main_v31 (by decide)).trans <| (W10_of_ne m c main_v31 (by decide)).trans <| entry0_v31 (W0 m c))
      ((entry3_v58 (W16 m c)).trans (congrArg hsBf512x512 (k1_launch16 m c main_arg9)))
      ((entry3_v59 (W16 m c)).trans (congrArg hsBf512x512 (k1_launch16 m c main_arg10)))
      ((W17_of m c main_v55 (by decide)).trans <| (W16_of_ne m c main_v55 (by decide)).trans <| (entry2_v55 (W12 m c)).trans (congrArg hsRow512 (k1_launch12 m c main_arg11)))
      ((k1_back17_12 m c main_v32).trans <| (W12_of_ne m c main_v32 (by decide)).trans <| (W11_of m c main_v32 (by decide)).trans <| (W10_in m c 0 rfl).trans <| entry0_v32 (W0 m c))
    ((entry3_v60 (W16 m c)).trans (congrArg hsBf256x512 (k1_launch16 m c main_arg12)))
      ((W17_of m c main_v56 (by decide)).trans <| (W16_of_ne m c main_v56 (by decide)).trans <| (entry2_v56 (W12 m c)).trans (congrArg hsRow512 (k1_launch12 m c main_arg13)))
      (Outp m c) (W18_out m c).symm i r o).trans ?_
  rw [row512_apply, row512_apply]
  rfl

theorem final_rows (ρ : Dev nD → PrngReg) (R : Fin 10000) (o : Fin 512) :
    (Wfin m ρ c (Proc.devRef .tc main_v62) : FVec Ideal S10000x512 .f32) (ix2 R o)
      = Outp m c (ix2 ⟨R.val, Nat.lt_trans R.isLt (by decide)⟩ o) :=
  (congrFun (exit4_v62 (W18 m c)) (ix2 R o)).trans (rows_apply _ R o)

end Cert.Final

end
-- ==== Proof.Final.KVal.lean ====
import proofs.«426621_j13099650253560_2_alg».proof.Proof.Final.KAssembly
import proofs.«426621_j13099650253560_2_alg».proof.Proof.Final.KLayer0
import proofs.«426621_j13099650253560_2_alg».proof.Proof.Final.KLayer1

set_option maxRecDepth 16384

noncomputable section

namespace Cert.Final

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

theorem kernel_out
    (hidx : ∀ (r : Fin 2) (j : Fin 320000), 0 ≤ (ka1 m c (ix2 r j)).toInt ∧ (ka1 m c (ix2 r j)).toInt < 10000)
    (i : Fin 10000) (o : Fin 512) :
    (Wfin m ρ c (Proc.devRef .tc main_v62) : FVec Ideal S10000x512 .f32) (ix2 i o)
      = Cert.Spec.netRow (N := 10000) (E := 320000) (C0 := 256) (C1 := 512) (C2 := 512)
          (Ideal.ofBits .f32 0x3727C5AC#32)
          (fun j => (ka1 m c (ix2 (0 : Fin 2) j)).toInt) (fun j => (ka1 m c (ix2 (1 : Fin 2) j)).toInt)
          (fun j => hidx 0 j)
          (fun i f => ka0 m c (ix2 i f))
          (fun f => Cert.ReferenceIdeal.Hand.stMean256 (F := Ideal) (ka0 m c) (ix1 f))
          (fun f => Cert.ReferenceIdeal.Hand.stVar256 (F := Ideal) (ka0 m c) (ix1 f))
          (fun f => ka2 m c (ix1 f)) (fun f => ka3 m c (ix1 f))
          (fun f o => ka4 m c (ix2 f o)) (fun f o => ka5 m c (ix2 f o)) (fun o => ka6 m c (ix1 o))
          (fun O f => Cert.ReferenceIdeal.Hand.stMean512 (F := Ideal) (fun y : S10000x512.Idx => O (y 0) (y 1)) (ix1 f))
          (fun O f => Cert.ReferenceIdeal.Hand.stVar512 (F := Ideal) (fun y : S10000x512.Idx => O (y 0) (y 1)) (ix1 f))
          (fun f => ka7 m c (ix1 f)) (fun f => ka8 m c (ix1 f))
          (fun f o => ka9 m c (ix2 f o)) (fun f o => ka10 m c (ix2 f o)) (fun o => ka11 m c (ix1 o))
          (fun f o => ka12 m c (ix2 f o)) (fun o => ka13 m c (ix1 o)) i o :=
  kernel_out_of (Ideal.ofBits .f32 0x3727C5AC#32)
    (ka0 m c) (ka1 m c) (ka2 m c) (ka3 m c) (ka4 m c) (ka5 m c) (ka6 m c) (ka7 m c) (ka8 m c) (ka9 m c) (ka10 m c)
    (ka11 m c) (ka12 m c) (ka13 m c) hidx
    (Cert.ReferenceIdeal.Hand.stMean256 (F := Ideal) (ka0 m c)) (Cert.ReferenceIdeal.Hand.stVar256 (F := Ideal) (ka0 m c))
    (Cert.ReferenceIdeal.Hand.stMean512 (F := Ideal)) (Cert.ReferenceIdeal.Hand.stVar512 (F := Ideal))
    (H0p m c) (H0p_val m c)
    (O0p m c) (acc0 m c) (acc0_zero m c) (acc0_succ m c) (O0p_rows m c)
    (H1p m c) (H1p_val m c)
    (Outp m c) (acc1 m c) (acc1_zero m c) (acc1_succ m c) (Outp_rows m c)
    (Wfin m ρ c (Proc.devRef .tc main_v62)) (final_rows m c ρ) i o

end Cert.Final

end
-- ==== Proof.lean ====
import proofs.«426621_j13099650253560_2_alg».proof.Defs
import proofs.«426621_j13099650253560_2_alg».proof.Proof.Gen.Kernel
import proofs.«426621_j13099650253560_2_alg».proof.Proof.Gen.KernelIdeal
import proofs.«426621_j13099650253560_2_alg».proof.Proof.Gen.ReferenceIdeal
import proofs.«426621_j13099650253560_2_alg».proof.Proof.Gen.Pre_finite_inputs
import proofs.«426621_j13099650253560_2_alg».proof.Proof.K.Run
import proofs.«426621_j13099650253560_2_alg».proof.Proof.KI.Run
import proofs.«426621_j13099650253560_2_alg».proof.Proof.Ref.RunVal
import proofs.«426621_j13099650253560_2_alg».proof.Proof.Ref.Net
import proofs.«426621_j13099650253560_2_alg».proof.Proof.Final.PreGlue
import proofs.«426621_j13099650253560_2_alg».proof.Proof.Final.KVal

noncomputable section

namespace Cert.Proof

open Idealize.ShloMosaic Idealize.SL.Sem Idealize.ShloMosaic.ValueIdx

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_r : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run (F := Ideal) m ρ)

/-- At every row and column both programs end at the same two-layer network value of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.Wfin m ρ c (Proc.devRef .tc Cert.KernelIdeal.main_v62), ?_, ?_⟩
  · refine (θ_run Cert.KernelIdeal.defs _ _).mono (fun r h c => ?_) (Cert.KernelIdeal.Hand.run_main (F := Ideal) m ρ)
    have k := fun (b : Ref Cert.KernelIdeal.sig .tc) hs hb =>
      (h c _ (Cert.KernelIdeal.Hand.mem_uc b hs)).trans (Cert.KernelIdeal.Hand.Wfin_arg m ρ c b hb)
    exact ⟨h c _ (Cert.KernelIdeal.Hand.mem_uc Cert.KernelIdeal.main_v62 (by decide)),
      k _ (by decide) (by decide), k _ (by decide) (by decide), k _ (by decide) (by decide), k _ (by decide) (by decide),
      k _ (by decide) (by decide), k _ (by decide) (by decide), k _ (by decide) (by decide), k _ (by decide) (by decide),
      k _ (by decide) (by decide), k _ (by decide) (by decide), k _ (by decide) (by decide), k _ (by decide) (by decide),
      k _ (by decide) (by decide), k _ (by decide) (by decide)⟩
  · refine (θ_run Cert.ReferenceIdeal.defs _ _).mono (fun r h c => ⟨(h c).1.trans ((Cert.ReferenceIdeal.Hand.out_at m' c).trans ?_), (h c).2⟩) (Cert.ReferenceIdeal.Hand.run (F := Ideal) m' ρ')
    have hidx := Cert.Final.hidx_of_pre m hpre c
    obtain ⟨e0, e1, e2, e3, e4, e5, e6, e7, e8, e9, e10, e11, e12, e13⟩ := hagree c
    rw [e0, e1, e2, e3, e4, e5, e6, e7, e8, e9, e10, e11, e12, e13]
    funext idx
    obtain ⟨i, o, rfl⟩ : ∃ (i : Fin 10000) (o : Fin 512), idx = ix2 i o := ⟨idx 0, idx 1, eq_ix2 idx⟩
    exact (Cert.ReferenceIdeal.Hand.refOut_eq_netRow _ _ _ _ _ _ _ _ _ _ _ _ _ _ hidx i o).trans
      (Cert.Final.kernel_out m ρ c hidx i o).symm

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
